-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) →
    ∃ (v0 : (c : Dev Cert.KernelIdeal.nD) → Buf (Elt Ideal) ((c.tc : Thread Cert.KernelIdeal.nD Cert.KernelIdeal.τ).loc Cert.KernelIdeal.main_v81)) (v1 : (c : Dev Cert.KernelIdeal.nD) → Buf (Elt Ideal) ((c.tc : Thread Cert.KernelIdeal.nD Cert.KernelIdeal.τ).loc Cert.KernelIdeal.main_v85)) (v2 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_v85) = v1 c
          ∧ r.2.mem ((c.tc : Thread Cert.KernelIdeal.nD Cert.KernelIdeal.τ).loc Cert.KernelIdeal.main_v70) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_v95) = v1 c
          ∧ r.2.mem ((c.tc : Thread Cert.ReferenceIdeal.nD Cert.ReferenceIdeal.τ).loc Cert.ReferenceIdeal.main_v80) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S16384 : Shape := ⟨1, ![16384]⟩
abbrev S1024 : Shape := ⟨1, ![1024]⟩
abbrev S1024x32 : Shape := ⟨2, ![1024, 32]⟩
abbrev S16384x32 : Shape := ⟨2, ![16384, 32]⟩
abbrev S2048x1024 : Shape := ⟨2, ![2048, 1024]⟩
abbrev S1024x1 : Shape := ⟨2, ![1024, 1]⟩
abbrev S1 : Shape := ⟨1, ![1]⟩
abbrev S1024x1024 : Shape := ⟨2, ![1024, 1024]⟩
abbrev S3072x1024 : Shape := ⟨2, ![3072, 1024]⟩
abbrev S1024x8192 : Shape := ⟨2, ![1024, 8192]⟩
abbrev S8192x2048 : Shape := ⟨2, ![8192, 2048]⟩
abbrev S1x1024 : Shape := ⟨2, ![1, 1024]⟩
abbrev S_ : Shape := ⟨0, ![]⟩
abbrev S8192x1 : Shape := ⟨2, ![8192, 1]⟩
abbrev S1x1 : Shape := ⟨2, ![1, 1]⟩
abbrev S32x1024 : Shape := ⟨2, ![32, 1024]⟩
abbrev S32x1 : Shape := ⟨2, ![32, 1]⟩

class Facts : Prop where
  shapeCasts_S1024_S1024x1 : S1024.ShapeCasts S1024x1
  transposes_S8192x1024_S1024x8192_1_0 : S8192x1024.Transposes [1, 0] S1024x8192
  bcast_S1024x1_S1024x1024_0_1 : S1024x1.BroadcastsInDim S1024x1024 (![0, 1] : Fin 2 → Fin S1024x1024.rank)
  concatenates_S8192x1024_S8192x1024_S8192x2048_d1 : Shape.Concatenates [S8192x1024, S8192x1024] S8192x2048 1
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  bcast_S_S8192x1024 : S_.BroadcastsInDim S8192x1024 (![] : Fin 0 → Fin S8192x1024.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  bcast_S8192x1_S8192x1024_0_1 : S8192x1.BroadcastsInDim S8192x1024 (![0, 1] : Fin 2 → Fin S8192x1024.rank)
  bcast_S1x1024_S1024x1024_0_1 : S1x1024.BroadcastsInDim S1024x1024 (![0, 1] : Fin 2 → Fin S1024x1024.rank)
  bcast_S_S1024x1024 : S_.BroadcastsInDim S1024x1024 (![] : Fin 0 → Fin S1024x1024.rank)
  bcast_S1x1_S1024x1_0_1 : S1x1.BroadcastsInDim S1024x1 (![0, 1] : Fin 2 → Fin S1024x1.rank)
  transposes_S1024x32_S32x1024_1_0 : S1024x32.Transposes [1, 0] S32x1024
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x32 : S_.BroadcastsInDim S1024x32 (![] : Fin 0 → Fin S1024x32.rank)
  reducesTo_S1024x32_S_d0_1 : S1024x32.ReducesTo [0, 1] S_
  bcast_S_S16384x32 : S_.BroadcastsInDim S16384x32 (![] : Fin 0 → Fin S16384x32.rank)
  reducesTo_S16384x32_S_d0_1 : S16384x32.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S1024x1 : S_.BroadcastsInDim S1024x1 (![] : Fin 0 → Fin S1024x1.rank)
  reducesTo_S1024x1_S_d0_1 : S1024x1.ReducesTo [0, 1] S_
  bcast_S_S1 : S_.BroadcastsInDim S1 (![] : Fin 0 → Fin S1.rank)
  reducesTo_S1_S_d0 : S1.ReducesTo [0] S_
  reducesTo_S1024x1024_S_d0_1 : S1024x1024.ReducesTo [0, 1] S_
  bcast_S_S3072x1024 : S_.BroadcastsInDim S3072x1024 (![] : Fin 0 → Fin S3072x1024.rank)
  reducesTo_S3072x1024_S_d0_1 : S3072x1024.ReducesTo [0, 1] S_
  bcast_S_S16384 : S_.BroadcastsInDim S16384 (![] : Fin 0 → Fin S16384.rank)
  reducesTo_S16384_S_d0 : S16384.ReducesTo [0] S_
  bcast_S_S8192x1 : S_.BroadcastsInDim S8192x1 (![] : Fin 0 → Fin S8192x1.rank)
  reducesTo_S8192x1_S_d0_1 : S8192x1.ReducesTo [0, 1] S_
  dot_S1024x8192_S8192x1024_S1024x1024_1_0_0_1_n_n_wf : DotDims.WF S1024x8192 S8192x1024 S1024x1024 [1] [0] [0] [1] [] []
  dot_S8192x1024_S1024x1024_S8192x1024_1_0_0_1_n_n_wf : DotDims.WF S8192x1024 S1024x1024 S8192x1024 [1] [0] [0] [1] [] []
  dot_S8192x2048_S2048x1024_S8192x1024_1_0_0_1_n_n_wf : DotDims.WF S8192x2048 S2048x1024 S8192x1024 [1] [0] [0] [1] [] []
  dot_S8192x1024_S1024x1_S8192x1_1_0_0_1_n_n_wf : DotDims.WF S8192x1024 S1024x1 S8192x1 [1] [0] [0] [1] [] []
  dot_S1024x8192_S8192x1_S1024x1_1_0_0_1_n_n_wf : DotDims.WF S1024x8192 S8192x1 S1024x1 [1] [0] [0] [1] [] []
  dot_S1024x1024_S1024x1024_S1024x1024_1_0_0_1_n_n_wf : DotDims.WF S1024x1024 S1024x1024 S1024x1024 [1] [0] [0] [1] [] []
  dot_S1024x1024_S1024x1_S1024x1_1_0_0_1_n_n_wf : DotDims.WF S1024x1024 S1024x1 S1024x1 [1] [0] [0] [1] [] []
  dot_S32x1024_S1024x1_S32x1_1_0_0_1_n_n_wf : DotDims.WF S32x1024 S1024x1 S32x1 [1] [0] [0] [1] [] []
  dot_S1024x32_S32x1_S1024x1_1_0_0_1_n_n_wf : DotDims.WF S1024x32 S32x1 S1024x1 [1] [0] [0] [1] [] []

variable [Facts]

def dot_S1024x8192_S8192x1024_S1024x1024_1_0_0_1_n_n : DotDims S1024x8192 S8192x1024 S1024x1024 where
  lhsContracting := [1]
  rhsContracting := [0]
  lhsNonContracting := [0]
  rhsNonContracting := [1]
  lhsBatch := []
  rhsBatch := []
  wf := dot_S1024x8192_S8192x1024_S1024x1024_1_0_0_1_n_n_wf
def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf
def dot_S8192x2048_S2048x1024_S8192x1024_1_0_0_1_n_n : DotDims S8192x2048 S2048x1024 S8192x1024 where
  lhsContracting := [1]
  rhsContracting := [0]
  lhsNonContracting := [0]
  rhsNonContracting := [1]
  lhsBatch := []
  rhsBatch := []
  wf := dot_S8192x2048_S2048x1024_S8192x1024_1_0_0_1_n_n_wf
def dot_S8192x1024_S1024x1_S8192x1_1_0_0_1_n_n : DotDims S8192x1024 S1024x1 S8192x1 where
  lhsContracting := [1]
  rhsContracting := [0]
  lhsNonContracting := [0]
  rhsNonContracting := [1]
  lhsBatch := []
  rhsBatch := []
  wf := dot_S8192x1024_S1024x1_S8192x1_1_0_0_1_n_n_wf
def dot_S1024x8192_S8192x1_S1024x1_1_0_0_1_n_n : DotDims S1024x8192 S8192x1 S1024x1 where
  lhsContracting := [1]
  rhsContracting := [0]
  lhsNonContracting := [0]
  rhsNonContracting := [1]
  lhsBatch := []
  rhsBatch := []
  wf := dot_S1024x8192_S8192x1_S1024x1_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x1_S1024x1_1_0_0_1_n_n : DotDims S1024x1024 S1024x1 S1024x1 where
  lhsContracting := [1]
  rhsContracting := [0]
  lhsNonContracting := [0]
  rhsNonContracting := [1]
  lhsBatch := []
  rhsBatch := []
  wf := dot_S1024x1024_S1024x1_S1024x1_1_0_0_1_n_n_wf
def dot_S32x1024_S1024x1_S32x1_1_0_0_1_n_n : DotDims S32x1024 S1024x1 S32x1 where
  lhsContracting := [1]
  rhsContracting := [0]
  lhsNonContracting := [0]
  rhsNonContracting := [1]
  lhsBatch := []
  rhsBatch := []
  wf := dot_S32x1024_S1024x1_S32x1_1_0_0_1_n_n_wf
def dot_S1024x32_S32x1_S1024x1_1_0_0_1_n_n : DotDims S1024x32 S32x1 S1024x1 where
  lhsContracting := [1]
  rhsContracting := [0]
  lhsNonContracting := [0]
  rhsNonContracting := [1]
  lhsBatch := []
  rhsBatch := []
  wf := dot_S1024x32_S32x1_S1024x1_1_0_0_1_n_n_wf
def fn_part10 {F : FTy → Type} [FloatOps F] (main_arg2 : IVec S16384 32) (main_v20 : FVec F S8192x1 .f32) (main_v49 : FVec F S1024x1 .f32) (main_v180 : IVec S_ 1) (main_v182 : IVec S16384 1) : IVec S_ 1 :=
  let main_c_55 : IVec S_ 32 := constantI S_ 32 1024#32
  let main_v183 : IVec S16384 32 := broadcastInDim S16384 ![] bcast_S_S16384 main_c_55
  let main_v184 : IVec S16384 1 := cmpi .slt main_arg2 main_v183
  let main_v185 : IVec S16384 1 := andi main_v182 main_v184
  let main_c_56 : IVec S_ 1 := constantI S_ 1 1#1
  let main_v186 : IVec S_ 1 := (fun x v => Host.reduce IntOp.andi x v reducesTo_S16384_S_d0 h_S_) main_v185 main_c_56
  let main_v187 : IVec S_ 1 := andi main_v180 main_v186
  let main_cst_57 : FVec F S_ .f32 := constant S_ .f32 0x00000000#32
  let main_v188 : FVec F S8192x1 .f32 := broadcastInDim S8192x1 ![] bcast_S_S8192x1 main_cst_57
  let main_v189 : IVec S8192x1 1 := cmpf .une main_v20 main_v188
  let main_c_58 : IVec S_ 1 := constantI S_ 1 1#1
  let main_v190 : IVec S_ 1 := (fun x v => Host.reduce IntOp.andi x v reducesTo_S8192x1_S_d0_1 h_S_) main_v189 main_c_58
  let main_v191 : IVec S_ 1 := andi main_v187 main_v190
  let main_cst_59 : FVec F S_ .f32 := constant S_ .f32 0x00000000#32
  let main_v192 : FVec F S1024x1 .f32 := broadcastInDim S1024x1 ![] bcast_S_S1024x1 main_cst_59
  let main_v193 : IVec S1024x1 1 := cmpf .une main_v49 main_v192
  let main_c_60 : IVec S_ 1 := constantI S_ 1 1#1
  let main_v194 : IVec S_ 1 := (fun x v => Host.reduce IntOp.andi x v reducesTo_S1024x1_S_d0_1 h_S_) main_v193 main_c_60
  let main_v195 : IVec S_ 1 := andi main_v191 main_v194
  main_v195

def fn_part9 {F : FTy → Type} [FloatOps F] (main_arg1 : IVec S16384 32) (main_arg2 : IVec S16384 32) (main_arg26 : FVec F S1 .f32) (main_v20 : FVec F S8192x1 .f32) (main_v49 : FVec F S1024x1 .f32) (main_v163 : IVec S_ 1) (main_v164 : FVec F S1024x1 .f32) (main_v165 : FVec F S1024x1 .f32) : IVec S_ 1 :=
  let main_v166 : IVec S1024x1 1 := cmpf .olt main_v164 main_v165
  let main_c_48 : IVec S_ 1 := constantI S_ 1 1#1
  let main_v167 : IVec S_ 1 := (fun x v => Host.reduce IntOp.andi x v reducesTo_S1024x1_S_d0_1 h_S_) main_v166 main_c_48
  let main_v168 : IVec S_ 1 := andi main_v163 main_v167
  let main_v169 : FVec F S1 .f32 := Host.absf main_arg26
  let main_cst_49 : FVec F S_ .f32 := constant S_ .f32 0x7F800000#32
  let main_v170 : FVec F S1 .f32 := broadcastInDim S1 ![] bcast_S_S1 main_cst_49
  let main_v171 : IVec S1 1 := cmpf .olt main_v169 main_v170
  let main_c_50 : IVec S_ 1 := constantI S_ 1 1#1
  let main_v172 : IVec S_ 1 := (fun x v => Host.reduce IntOp.andi x v reducesTo_S1_S_d0 h_S_) main_v171 main_c_50
  let main_v173 : IVec S_ 1 := andi main_v168 main_v172
  let main_c_51 : IVec S_ 32 := constantI S_ 32 0#32
  let main_v174 : IVec S16384 32 := broadcastInDim S16384 ![] bcast_S_S16384 main_c_51
  let main_v175 : IVec S16384 1 := cmpi .sge main_arg1 main_v174
  let main_c_52 : IVec S_ 32 := constantI S_ 32 1024#32
  let main_v176 : IVec S16384 32 := broadcastInDim S16384 ![] bcast_S_S16384 main_c_52
  let main_v177 : IVec S16384 1 := cmpi .slt main_arg1 main_v176
  let main_v178 : IVec S16384 1 := andi main_v175 main_v177
  let main_c_53 : IVec S_ 1 := constantI S_ 1 1#1
  let main_v179 : IVec S_ 1 := (fun x v => Host.reduce IntOp.andi x v reducesTo_S16384_S_d0 h_S_) main_v178 main_c_53
  let main_v180 : IVec S_ 1 := andi main_v173 main_v179
  let main_c_54 : IVec S_ 32 := constantI S_ 32 0#32
  let main_v181 : IVec S16384 32 := broadcastInDim S16384 ![] bcast_S_S16384 main_c_54
  let main_v182 : IVec S16384 1 := cmpi .sge main_arg2 main_v181
  fn_part10 (F := F) main_arg2 main_v20 main_v49 main_v180 main_v182

def fn_part8 {F : FTy → Type} [FloatOps F] (main_arg1 : IVec S16384 32) (main_arg2 : IVec S16384 32) (main_arg22 : FVec F S1024 .f32) (main_arg23 : FVec F S3072x1024 .f32) (main_arg24 : FVec F S1024 .f32) (main_arg25 : FVec F S1024x1 .f32) (main_arg26 : FVec F S1 .f32) (main_v20 : FVec F S8192x1 .f32) (main_v49 : FVec F S1024x1 .f32) (main_v148 : IVec S_ 1) : IVec S_ 1 :=
  let main_v149 : FVec F S1024 .f32 := Host.absf main_arg22
  let main_cst_41 : FVec F S_ .f32 := constant S_ .f32 0x7F800000#32
  let main_v150 : FVec F S1024 .f32 := broadcastInDim S1024 ![] bcast_S_S1024 main_cst_41
  let main_v151 : IVec S1024 1 := cmpf .olt main_v149 main_v150
  let main_c_42 : IVec S_ 1 := constantI S_ 1 1#1
  let main_v152 : IVec S_ 1 := (fun x v => Host.reduce IntOp.andi x v reducesTo_S1024_S_d0 h_S_) main_v151 main_c_42
  let main_v153 : IVec S_ 1 := andi main_v148 main_v152
  let main_v154 : FVec F S3072x1024 .f32 := Host.absf main_arg23
  let main_cst_43 : FVec F S_ .f32 := constant S_ .f32 0x7F800000#32
  let main_v155 : FVec F S3072x1024 .f32 := broadcastInDim S3072x1024 ![] bcast_S_S3072x1024 main_cst_43
  let main_v156 : IVec S3072x1024 1 := cmpf .olt main_v154 main_v155
  let main_c_44 : IVec S_ 1 := constantI S_ 1 1#1
  let main_v157 : IVec S_ 1 := (fun x v => Host.reduce IntOp.andi x v reducesTo_S3072x1024_S_d0_1 h_S_) main_v156 main_c_44
  let main_v158 : IVec S_ 1 := andi main_v153 main_v157
  let main_v159 : FVec F S1024 .f32 := Host.absf main_arg24
  let main_cst_45 : FVec F S_ .f32 := constant S_ .f32 0x7F800000#32
  let main_v160 : FVec F S1024 .f32 := broadcastInDim S1024 ![] bcast_S_S1024 main_cst_45
  let main_v161 : IVec S1024 1 := cmpf .olt main_v159 main_v160
  let main_c_46 : IVec S_ 1 := constantI S_ 1 1#1
  let main_v162 : IVec S_ 1 := (fun x v => Host.reduce IntOp.andi x v reducesTo_S1024_S_d0 h_S_) main_v161 main_c_46
  let main_v163 : IVec S_ 1 := andi main_v158 main_v162
  let main_v164 : FVec F S1024x1 .f32 := Host.absf main_arg25
  let main_cst_47 : FVec F S_ .f32 := constant S_ .f32 0x7F800000#32
  let main_v165 : FVec F S1024x1 .f32 := broadcastInDim S1024x1 ![] bcast_S_S1024x1 main_cst_47
  fn_part9 (F := F) main_arg1 main_arg2 main_arg26 main_v20 main_v49 main_v163 main_v164 main_v165

def fn_part7 {F : FTy → Type} [FloatOps F] (main_arg1 : IVec S16384 32) (main_arg2 : IVec S16384 32) (main_arg19 : FVec F S1024x1024 .f32) (main_arg20 : FVec F S1024 .f32) (main_arg21 : FVec F S1024x1024 .f32) (main_arg22 : FVec F S1024 .f32) (main_arg23 : FVec F S3072x1024 .f32) (main_arg24 : FVec F S1024 .f32) (main_arg25 : FVec F S1024x1 .f32) (main_arg26 : FVec F S1 .f32) (main_v20 : FVec F S8192x1 .f32) (main_v49 : FVec F S1024x1 .f32) (main_v128 : IVec S_ 1) (main_v131 : IVec S1 1) : IVec S_ 1 :=
  let main_c_34 : IVec S_ 1 := constantI S_ 1 1#1
  let main_v132 : IVec S_ 1 := (fun x v => Host.reduce IntOp.andi x v reducesTo_S1_S_d0 h_S_) main_v131 main_c_34
  let main_v133 : IVec S_ 1 := andi main_v128 main_v132
  let main_v134 : FVec F S1024x1024 .f32 := Host.absf main_arg19
  let main_cst_35 : FVec F S_ .f32 := constant S_ .f32 0x7F800000#32
  let main_v135 : FVec F S1024x1024 .f32 := broadcastInDim S1024x1024 ![] bcast_S_S1024x1024 main_cst_35
  let main_v136 : IVec S1024x1024 1 := cmpf .olt main_v134 main_v135
  let main_c_36 : IVec S_ 1 := constantI S_ 1 1#1
  let main_v137 : IVec S_ 1 := (fun x v => Host.reduce IntOp.andi x v reducesTo_S1024x1024_S_d0_1 h_S_) main_v136 main_c_36
  let main_v138 : IVec S_ 1 := andi main_v133 main_v137
  let main_v139 : FVec F S1024 .f32 := Host.absf main_arg20
  let main_cst_37 : FVec F S_ .f32 := constant S_ .f32 0x7F800000#32
  let main_v140 : FVec F S1024 .f32 := broadcastInDim S1024 ![] bcast_S_S1024 main_cst_37
  let main_v141 : IVec S1024 1 := cmpf .olt main_v139 main_v140
  let main_c_38 : IVec S_ 1 := constantI S_ 1 1#1
  let main_v142 : IVec S_ 1 := (fun x v => Host.reduce IntOp.andi x v reducesTo_S1024_S_d0 h_S_) main_v141 main_c_38
  let main_v143 : IVec S_ 1 := andi main_v138 main_v142
  let main_v144 : FVec F S1024x1024 .f32 := Host.absf main_arg21
  let main_cst_39 : FVec F S_ .f32 := constant S_ .f32 0x7F800000#32
  let main_v145 : FVec F S1024x1024 .f32 := broadcastInDim S1024x1024 ![] bcast_S_S1024x1024 main_cst_39
  let main_v146 : IVec S1024x1024 1 := cmpf .olt main_v144 main_v145
  let main_c_40 : IVec S_ 1 := constantI S_ 1 1#1
  let main_v147 : IVec S_ 1 := (fun x v => Host.reduce IntOp.andi x v reducesTo_S1024x1024_S_d0_1 h_S_) main_v146 main_c_40
  let main_v148 : IVec S_ 1 := andi main_v143 main_v147
  fn_part8 (F := F) main_arg1 main_arg2 main_arg22 main_arg23 main_arg24 main_arg25 main_arg26 main_v20 main_v49 main_v148

def fn_part6 {F : FTy → Type} [FloatOps F] (main_arg1 : IVec S16384 32) (main_arg2 : IVec S16384 32) (main_arg16 : FVec F S1024 .f32) (main_arg17 : FVec F S1024x1 .f32) (main_arg18 : FVec F S1 .f32) (main_arg19 : FVec F S1024x1024 .f32) (main_arg20 : FVec F S1024 .f32) (main_arg21 : FVec F S1024x1024 .f32) (main_arg22 : FVec F S1024 .f32) (main_arg23 : FVec F S3072x1024 .f32) (main_arg24 : FVec F S1024 .f32) (main_arg25 : FVec F S1024x1 .f32) (main_arg26 : FVec F S1 .f32) (main_v20 : FVec F S8192x1 .f32) (main_v49 : FVec F S1024x1 .f32) (main_v113 : IVec S_ 1) (main_v114 : FVec F S1024x1024 .f32) : IVec S_ 1 :=
  let main_cst_27 : FVec F S_ .f32 := constant S_ .f32 0x7F800000#32
  let main_v115 : FVec F S1024x1024 .f32 := broadcastInDim S1024x1024 ![] bcast_S_S1024x1024 main_cst_27
  let main_v116 : IVec S1024x1024 1 := cmpf .olt main_v114 main_v115
  let main_c_28 : IVec S_ 1 := constantI S_ 1 1#1
  let main_v117 : IVec S_ 1 := (fun x v => Host.reduce IntOp.andi x v reducesTo_S1024x1024_S_d0_1 h_S_) main_v116 main_c_28
  let main_v118 : IVec S_ 1 := andi main_v113 main_v117
  let main_v119 : FVec F S1024 .f32 := Host.absf main_arg16
  let main_cst_29 : FVec F S_ .f32 := constant S_ .f32 0x7F800000#32
  let main_v120 : FVec F S1024 .f32 := broadcastInDim S1024 ![] bcast_S_S1024 main_cst_29
  let main_v121 : IVec S1024 1 := cmpf .olt main_v119 main_v120
  let main_c_30 : IVec S_ 1 := constantI S_ 1 1#1
  let main_v122 : IVec S_ 1 := (fun x v => Host.reduce IntOp.andi x v reducesTo_S1024_S_d0 h_S_) main_v121 main_c_30
  let main_v123 : IVec S_ 1 := andi main_v118 main_v122
  let main_v124 : FVec F S1024x1 .f32 := Host.absf main_arg17
  let main_cst_31 : FVec F S_ .f32 := constant S_ .f32 0x7F800000#32
  let main_v125 : FVec F S1024x1 .f32 := broadcastInDim S1024x1 ![] bcast_S_S1024x1 main_cst_31
  let main_v126 : IVec S1024x1 1 := cmpf .olt main_v124 main_v125
  let main_c_32 : IVec S_ 1 := constantI S_ 1 1#1
  let main_v127 : IVec S_ 1 := (fun x v => Host.reduce IntOp.andi x v reducesTo_S1024x1_S_d0_1 h_S_) main_v126 main_c_32
  let main_v128 : IVec S_ 1 := andi main_v123 main_v127
  let main_v129 : FVec F S1 .f32 := Host.absf main_arg18
  let main_cst_33 : FVec F S_ .f32 := constant S_ .f32 0x7F800000#32
  let main_v130 : FVec F S1 .f32 := broadcastInDim S1 ![] bcast_S_S1 main_cst_33
  let main_v131 : IVec S1 1 := cmpf .olt main_v129 main_v130
  fn_part7 (F := F) main_arg1 main_arg2 main_arg19 main_arg20 main_arg21 main_arg22 main_arg23 main_arg24 main_arg25 main_arg26 main_v20 main_v49 main_v128 main_v131

def fn_part5 {F : FTy → Type} [FloatOps F] (main_arg1 : IVec S16384 32) (main_arg2 : IVec S16384 32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1 .f32) (main_arg18 : FVec F S1 .f32) (main_arg19 : FVec F S1024x1024 .f32) (main_arg20 : FVec F S1024 .f32) (main_arg21 : FVec F S1024x1024 .f32) (main_arg22 : FVec F S1024 .f32) (main_arg23 : FVec F S3072x1024 .f32) (main_arg24 : FVec F S1024 .f32) (main_arg25 : FVec F S1024x1 .f32) (main_arg26 : FVec F S1 .f32) (main_v20 : FVec F S8192x1 .f32) (main_v49 : FVec F S1024x1 .f32) (main_v93 : IVec S_ 1) (main_v96 : IVec S1024x1024 1) (main_c_20 : IVec S_ 1) : IVec S_ 1 :=
  let main_v97 : IVec S_ 1 := (fun x v => Host.reduce IntOp.andi x v reducesTo_S1024x1024_S_d0_1 h_S_) main_v96 main_c_20
  let main_v98 : IVec S_ 1 := andi main_v93 main_v97
  let main_v99 : FVec F S1024 .f32 := Host.absf main_arg12
  let main_cst_21 : FVec F S_ .f32 := constant S_ .f32 0x7F800000#32
  let main_v100 : FVec F S1024 .f32 := broadcastInDim S1024 ![] bcast_S_S1024 main_cst_21
  let main_v101 : IVec S1024 1 := cmpf .olt main_v99 main_v100
  let main_c_22 : IVec S_ 1 := constantI S_ 1 1#1
  let main_v102 : IVec S_ 1 := (fun x v => Host.reduce IntOp.andi x v reducesTo_S1024_S_d0 h_S_) main_v101 main_c_22
  let main_v103 : IVec S_ 1 := andi main_v98 main_v102
  let main_v104 : FVec F S1024x1024 .f32 := Host.absf main_arg13
  let main_cst_23 : FVec F S_ .f32 := constant S_ .f32 0x7F800000#32
  let main_v105 : FVec F S1024x1024 .f32 := broadcastInDim S1024x1024 ![] bcast_S_S1024x1024 main_cst_23
  let main_v106 : IVec S1024x1024 1 := cmpf .olt main_v104 main_v105
  let main_c_24 : IVec S_ 1 := constantI S_ 1 1#1
  let main_v107 : IVec S_ 1 := (fun x v => Host.reduce IntOp.andi x v reducesTo_S1024x1024_S_d0_1 h_S_) main_v106 main_c_24
  let main_v108 : IVec S_ 1 := andi main_v103 main_v107
  let main_v109 : FVec F S1024 .f32 := Host.absf main_arg14
  let main_cst_25 : FVec F S_ .f32 := constant S_ .f32 0x7F800000#32
  let main_v110 : FVec F S1024 .f32 := broadcastInDim S1024 ![] bcast_S_S1024 main_cst_25
  let main_v111 : IVec S1024 1 := cmpf .olt main_v109 main_v110
  let main_c_26 : IVec S_ 1 := constantI S_ 1 1#1
  let main_v112 : IVec S_ 1 := (fun x v => Host.reduce IntOp.andi x v reducesTo_S1024_S_d0 h_S_) main_v111 main_c_26
  let main_v113 : IVec S_ 1 := andi main_v108 main_v112
  let main_v114 : FVec F S1024x1024 .f32 := Host.absf main_arg15
  fn_part6 (F := F) main_arg1 main_arg2 main_arg16 main_arg17 main_arg18 main_arg19 main_arg20 main_arg21 main_arg22 main_arg23 main_arg24 main_arg25 main_arg26 main_v20 main_v49 main_v113 main_v114

def fn_part4 {F : FTy → Type} [FloatOps F] (main_arg1 : IVec S16384 32) (main_arg2 : IVec S16384 32) (main_arg9 : FVec F S1024x1 .f32) (main_arg10 : FVec F S1 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1 .f32) (main_arg18 : FVec F S1 .f32) (main_arg19 : FVec F S1024x1024 .f32) (main_arg20 : FVec F S1024 .f32) (main_arg21 : FVec F S1024x1024 .f32) (main_arg22 : FVec F S1024 .f32) (main_arg23 : FVec F S3072x1024 .f32) (main_arg24 : FVec F S1024 .f32) (main_arg25 : FVec F S1024x1 .f32) (main_arg26 : FVec F S1 .f32) (main_v20 : FVec F S8192x1 .f32) (main_v49 : FVec F S1024x1 .f32) (main_v78 : IVec S_ 1) (main_v79 : FVec F S1024 .f32) (main_cst_13 : FVec F S_ .f32) : IVec S_ 1 :=
  let main_v80 : FVec F S1024 .f32 := broadcastInDim S1024 ![] bcast_S_S1024 main_cst_13
  let main_v81 : IVec S1024 1 := cmpf .olt main_v79 main_v80
  let main_c_14 : IVec S_ 1 := constantI S_ 1 1#1
  let main_v82 : IVec S_ 1 := (fun x v => Host.reduce IntOp.andi x v reducesTo_S1024_S_d0 h_S_) main_v81 main_c_14
  let main_v83 : IVec S_ 1 := andi main_v78 main_v82
  let main_v84 : FVec F S1024x1 .f32 := Host.absf main_arg9
  let main_cst_15 : FVec F S_ .f32 := constant S_ .f32 0x7F800000#32
  let main_v85 : FVec F S1024x1 .f32 := broadcastInDim S1024x1 ![] bcast_S_S1024x1 main_cst_15
  let main_v86 : IVec S1024x1 1 := cmpf .olt main_v84 main_v85
  let main_c_16 : IVec S_ 1 := constantI S_ 1 1#1
  let main_v87 : IVec S_ 1 := (fun x v => Host.reduce IntOp.andi x v reducesTo_S1024x1_S_d0_1 h_S_) main_v86 main_c_16
  let main_v88 : IVec S_ 1 := andi main_v83 main_v87
  let main_v89 : FVec F S1 .f32 := Host.absf main_arg10
  let main_cst_17 : FVec F S_ .f32 := constant S_ .f32 0x7F800000#32
  let main_v90 : FVec F S1 .f32 := broadcastInDim S1 ![] bcast_S_S1 main_cst_17
  let main_v91 : IVec S1 1 := cmpf .olt main_v89 main_v90
  let main_c_18 : IVec S_ 1 := constantI S_ 1 1#1
  let main_v92 : IVec S_ 1 := (fun x v => Host.reduce IntOp.andi x v reducesTo_S1_S_d0 h_S_) main_v91 main_c_18
  let main_v93 : IVec S_ 1 := andi main_v88 main_v92
  let main_v94 : FVec F S1024x1024 .f32 := Host.absf main_arg11
  let main_cst_19 : FVec F S_ .f32 := constant S_ .f32 0x7F800000#32
  let main_v95 : FVec F S1024x1024 .f32 := broadcastInDim S1024x1024 ![] bcast_S_S1024x1024 main_cst_19
  let main_v96 : IVec S1024x1024 1 := cmpf .olt main_v94 main_v95
  let main_c_20 : IVec S_ 1 := constantI S_ 1 1#1
  fn_part5 (F := F) main_arg1 main_arg2 main_arg12 main_arg13 main_arg14 main_arg15 main_arg16 main_arg17 main_arg18 main_arg19 main_arg20 main_arg21 main_arg22 main_arg23 main_arg24 main_arg25 main_arg26 main_v20 main_v49 main_v93 main_v96 main_c_20

def fn_part3 {F : FTy → Type} [FloatOps F] (main_arg1 : IVec S16384 32) (main_arg2 : IVec S16384 32) (main_arg5 : FVec F S1024x32 .f32) (main_arg6 : FVec F S16384x32 .f32) (main_arg7 : FVec F S2048x1024 .f32) (main_arg8 : FVec F S1024 .f32) (main_arg9 : FVec F S1024x1 .f32) (main_arg10 : FVec F S1 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1 .f32) (main_arg18 : FVec F S1 .f32) (main_arg19 : FVec F S1024x1024 .f32) (main_arg20 : FVec F S1024 .f32) (main_arg21 : FVec F S1024x1024 .f32) (main_arg22 : FVec F S1024 .f32) (main_arg23 : FVec F S3072x1024 .f32) (main_arg24 : FVec F S1024 .f32) (main_arg25 : FVec F S1024x1 .f32) (main_arg26 : FVec F S1 .f32) (main_v20 : FVec F S8192x1 .f32) (main_v49 : FVec F S1024x1 .f32) (main_v58 : IVec S_ 1) (main_v62 : IVec S_ 1) : IVec S_ 1 :=
  let main_v63 : IVec S_ 1 := andi main_v58 main_v62
  let main_v64 : FVec F S1024x32 .f32 := Host.absf main_arg5
  let main_cst_7 : FVec F S_ .f32 := constant S_ .f32 0x7F800000#32
  let main_v65 : FVec F S1024x32 .f32 := broadcastInDim S1024x32 ![] bcast_S_S1024x32 main_cst_7
  let main_v66 : IVec S1024x32 1 := cmpf .olt main_v64 main_v65
  let main_c_8 : IVec S_ 1 := constantI S_ 1 1#1
  let main_v67 : IVec S_ 1 := (fun x v => Host.reduce IntOp.andi x v reducesTo_S1024x32_S_d0_1 h_S_) main_v66 main_c_8
  let main_v68 : IVec S_ 1 := andi main_v63 main_v67
  let main_v69 : FVec F S16384x32 .f32 := Host.absf main_arg6
  let main_cst_9 : FVec F S_ .f32 := constant S_ .f32 0x7F800000#32
  let main_v70 : FVec F S16384x32 .f32 := broadcastInDim S16384x32 ![] bcast_S_S16384x32 main_cst_9
  let main_v71 : IVec S16384x32 1 := cmpf .olt main_v69 main_v70
  let main_c_10 : IVec S_ 1 := constantI S_ 1 1#1
  let main_v72 : IVec S_ 1 := (fun x v => Host.reduce IntOp.andi x v reducesTo_S16384x32_S_d0_1 h_S_) main_v71 main_c_10
  let main_v73 : IVec S_ 1 := andi main_v68 main_v72
  let main_v74 : FVec F S2048x1024 .f32 := Host.absf main_arg7
  let main_cst_11 : FVec F S_ .f32 := constant S_ .f32 0x7F800000#32
  let main_v75 : FVec F S2048x1024 .f32 := broadcastInDim S2048x1024 ![] bcast_S_S2048x1024 main_cst_11
  let main_v76 : IVec S2048x1024 1 := cmpf .olt main_v74 main_v75
  let main_c_12 : IVec S_ 1 := constantI S_ 1 1#1
  let main_v77 : IVec S_ 1 := (fun x v => Host.reduce IntOp.andi x v reducesTo_S2048x1024_S_d0_1 h_S_) main_v76 main_c_12
  let main_v78 : IVec S_ 1 := andi main_v73 main_v77
  let main_v79 : FVec F S1024 .f32 := Host.absf main_arg8
  let main_cst_13 : FVec F S_ .f32 := constant S_ .f32 0x7F800000#32
  fn_part4 (F := F) main_arg1 main_arg2 main_arg9 main_arg10 main_arg11 main_arg12 main_arg13 main_arg14 main_arg15 main_arg16 main_arg17 main_arg18 main_arg19 main_arg20 main_arg21 main_arg22 main_arg23 main_arg24 main_arg25 main_arg26 main_v20 main_v49 main_v78 main_v79 main_cst_13

def fn_part2 {F : FTy → Type} [FloatOps F] (main_arg0 : FVec F S8192x1024 .f32) (main_arg1 : IVec S16384 32) (main_arg2 : IVec S16384 32) (main_arg3 : FVec F S8192x1024 .f32) (main_arg4 : FVec F S1024 .f32) (main_arg5 : FVec F S1024x32 .f32) (main_arg6 : FVec F S16384x32 .f32) (main_arg7 : FVec F S2048x1024 .f32) (main_arg8 : FVec F S1024 .f32) (main_arg9 : FVec F S1024x1 .f32) (main_arg10 : FVec F S1 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1 .f32) (main_arg18 : FVec F S1 .f32) (main_arg19 : FVec F S1024x1024 .f32) (main_arg20 : FVec F S1024 .f32) (main_arg21 : FVec F S1024x1024 .f32) (main_arg22 : FVec F S1024 .f32) (main_arg23 : FVec F S3072x1024 .f32) (main_arg24 : FVec F S1024 .f32) (main_arg25 : FVec F S1024x1 .f32) (main_arg26 : FVec F S1 .f32) (main_v20 : FVec F S8192x1 .f32) (main_v42 : FVec F S1024x1 .f32) (main_v44 : FVec F S1024x1 .f32) : IVec S_ 1 :=
  let main_v45 : FVec F S1024x1 .f32 := addf main_v42 main_v44
  let main_v46 : FVec F S1024x1 .f32 := Host.exp main_v45
  let main_v47 : FVec F S32x1024 .f32 := (transpose S32x1024 [1, 0] · transposes_S1024x32_S32x1024_1_0) main_arg5
  let main_v48 : FVec F S32x1 .f32 := (fun l r => Host.dotGeneral dot_S32x1024_S1024x1_S32x1_1_0_0_1_n_n none l r) main_v47 main_v46
  let main_v49 : FVec F S1024x1 .f32 := (fun l r => Host.dotGeneral dot_S1024x32_S32x1_S1024x1_1_0_0_1_n_n none l r) main_arg5 main_v48
  let main_v50 : FVec F S8192x1024 .f32 := Host.absf main_arg0
  let main_cst_2 : FVec F S_ .f32 := constant S_ .f32 0x7F800000#32
  let main_v51 : FVec F S8192x1024 .f32 := broadcastInDim S8192x1024 ![] bcast_S_S8192x1024 main_cst_2
  let main_v52 : IVec S8192x1024 1 := cmpf .olt main_v50 main_v51
  let main_c : IVec S_ 1 := constantI S_ 1 1#1
  let main_v53 : IVec S_ 1 := (fun x v => Host.reduce IntOp.andi x v reducesTo_S8192x1024_S_d0_1 h_S_) main_v52 main_c
  let main_v54 : FVec F S8192x1024 .f32 := Host.absf main_arg3
  let main_cst_3 : FVec F S_ .f32 := constant S_ .f32 0x7F800000#32
  let main_v55 : FVec F S8192x1024 .f32 := broadcastInDim S8192x1024 ![] bcast_S_S8192x1024 main_cst_3
  let main_v56 : IVec S8192x1024 1 := cmpf .olt main_v54 main_v55
  let main_c_4 : IVec S_ 1 := constantI S_ 1 1#1
  let main_v57 : IVec S_ 1 := (fun x v => Host.reduce IntOp.andi x v reducesTo_S8192x1024_S_d0_1 h_S_) main_v56 main_c_4
  let main_v58 : IVec S_ 1 := andi main_v53 main_v57
  let main_v59 : FVec F S1024 .f32 := Host.absf main_arg4
  let main_cst_5 : FVec F S_ .f32 := constant S_ .f32 0x7F800000#32
  let main_v60 : FVec F S1024 .f32 := broadcastInDim S1024 ![] bcast_S_S1024 main_cst_5
  let main_v61 : IVec S1024 1 := cmpf .olt main_v59 main_v60
  let main_c_6 : IVec S_ 1 := constantI S_ 1 1#1
  let main_v62 : IVec S_ 1 := (fun x v => Host.reduce IntOp.andi x v reducesTo_S1024_S_d0 h_S_) main_v61 main_c_6
  fn_part3 (F := F) main_arg1 main_arg2 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_v20 main_v49 main_v58 main_v62

def fn_part1 {F : FTy → Type} [FloatOps F] (main_arg0 : FVec F S8192x1024 .f32) (main_arg1 : IVec S16384 32) (main_arg2 : IVec S16384 32) (main_arg3 : FVec F S8192x1024 .f32) (main_arg4 : FVec F S1024 .f32) (main_arg5 : FVec F S1024x32 .f32) (main_arg6 : FVec F S16384x32 .f32) (main_arg7 : FVec F S2048x1024 .f32) (main_arg8 : FVec F S1024 .f32) (main_arg9 : FVec F S1024x1 .f32) (main_arg10 : FVec F S1 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1 .f32) (main_arg18 : FVec F S1 .f32) (main_arg19 : FVec F S1024x1024 .f32) (main_arg20 : FVec F S1024 .f32) (main_arg21 : FVec F S1024x1024 .f32) (main_arg22 : FVec F S1024 .f32) (main_arg23 : FVec F S3072x1024 .f32) (main_arg24 : FVec F S1024 .f32) (main_arg25 : FVec F S1024x1 .f32) (main_arg26 : FVec F S1 .f32) (main_v20 : FVec F S8192x1 .f32) (main_v21 : FVec F S8192x1 .f32) (main_v22 : FVec F S1024x8192 .f32) : IVec S_ 1 :=
  let main_v23 : FVec F S8192x1024 .f32 := broadcastInDim S8192x1024 ![0, 1] bcast_S8192x1_S8192x1024_0_1 main_v21
  let main_v24 : FVec F S8192x1024 .f32 := mulf main_arg0 main_v23
  let main_v25 : FVec F S1024x1024 .f32 := (fun l r => Host.dotGeneral dot_S1024x8192_S8192x1024_S1024x1024_1_0_0_1_n_n none l r) main_v22 main_v24
  let main_v26 : FVec F S1024x1024 .f32 := (fun l r => Host.dotGeneral dot_S1024x1024_S1024x1024_S1024x1024_1_0_0_1_n_n none l r) main_v25 main_arg11
  let main_v27 : FVec F S1x1024 .f32 := broadcastInDim S1x1024 ![1] bcast_S1024_S1x1024_1 main_arg12
  let main_v28 : FVec F S1024x1024 .f32 := broadcastInDim S1024x1024 ![0, 1] bcast_S1x1024_S1024x1024_0_1 main_v27
  let main_v29 : FVec F S1024x1024 .f32 := addf main_v26 main_v28
  let main_cst_0 : FVec F S_ .f32 := constant S_ .f32 0x00000000#32
  let main_v30 : FVec F S1024x1024 .f32 := broadcastInDim S1024x1024 ![] bcast_S_S1024x1024 main_cst_0
  let main_v31 : FVec F S1024x1024 .f32 := maximumf main_v29 main_v30
  let main_v32 : FVec F S1024x1024 .f32 := (fun l r => Host.dotGeneral dot_S1024x1024_S1024x1024_S1024x1024_1_0_0_1_n_n none l r) main_v31 main_arg13
  let main_v33 : FVec F S1x1024 .f32 := broadcastInDim S1x1024 ![1] bcast_S1024_S1x1024_1 main_arg14
  let main_v34 : FVec F S1024x1024 .f32 := broadcastInDim S1024x1024 ![0, 1] bcast_S1x1024_S1024x1024_0_1 main_v33
  let main_v35 : FVec F S1024x1024 .f32 := addf main_v32 main_v34
  let main_v36 : FVec F S1024x1024 .f32 := (fun l r => Host.dotGeneral dot_S1024x1024_S1024x1024_S1024x1024_1_0_0_1_n_n none l r) main_v35 main_arg15
  let main_v37 : FVec F S1x1024 .f32 := broadcastInDim S1x1024 ![1] bcast_S1024_S1x1024_1 main_arg16
  let main_v38 : FVec F S1024x1024 .f32 := broadcastInDim S1024x1024 ![0, 1] bcast_S1x1024_S1024x1024_0_1 main_v37
  let main_v39 : FVec F S1024x1024 .f32 := addf main_v36 main_v38
  let main_cst_1 : FVec F S_ .f32 := constant S_ .f32 0x00000000#32
  let main_v40 : FVec F S1024x1024 .f32 := broadcastInDim S1024x1024 ![] bcast_S_S1024x1024 main_cst_1
  let main_v41 : FVec F S1024x1024 .f32 := maximumf main_v39 main_v40
  let main_v42 : FVec F S1024x1 .f32 := (fun l r => Host.dotGeneral dot_S1024x1024_S1024x1_S1024x1_1_0_0_1_n_n none l r) main_v41 main_arg17
  let main_v43 : FVec F S1x1 .f32 := broadcastInDim S1x1 ![1] bcast_S1_S1x1_1 main_arg18
  let main_v44 : FVec F S1024x1 .f32 := broadcastInDim S1024x1 ![0, 1] bcast_S1x1_S1024x1_0_1 main_v43
  fn_part2 (F := F) main_arg0 main_arg1 main_arg2 main_arg3 main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_v20 main_v42 main_v44

def fn {F : FTy → Type} [FloatOps F] (main_arg0 : FVec F S8192x1024 .f32) (main_arg1 : IVec S16384 32) (main_arg2 : IVec S16384 32) (main_arg3 : FVec F S8192x1024 .f32) (main_arg4 : FVec F S1024 .f32) (main_arg5 : FVec F S1024x32 .f32) (main_arg6 : FVec F S16384x32 .f32) (main_arg7 : FVec F S2048x1024 .f32) (main_arg8 : FVec F S1024 .f32) (main_arg9 : FVec F S1024x1 .f32) (main_arg10 : FVec F S1 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1 .f32) (main_arg18 : FVec F S1 .f32) (main_arg19 : FVec F S1024x1024 .f32) (main_arg20 : FVec F S1024 .f32) (main_arg21 : FVec F S1024x1024 .f32) (main_arg22 : FVec F S1024 .f32) (main_arg23 : FVec F S3072x1024 .f32) (main_arg24 : FVec F S1024 .f32) (main_arg25 : FVec F S1024x1 .f32) (main_arg26 : FVec F S1 .f32) : IVec S_ 1 :=
  let main_v0 : FVec F S1024x1 .f32 := shapeCast S1024x1 main_arg4 shapeCasts_S1024_S1024x1
  let main_v1 : FVec F S1024x8192 .f32 := (transpose S1024x8192 [1, 0] · transposes_S8192x1024_S1024x8192_1_0) main_arg3
  let main_v2 : FVec F S1024x1024 .f32 := (fun l r => Host.dotGeneral dot_S1024x8192_S8192x1024_S1024x1024_1_0_0_1_n_n none l r) main_v1 main_arg0
  let main_v3 : FVec F S1024x1024 .f32 := broadcastInDim S1024x1024 ![0, 1] bcast_S1024x1_S1024x1024_0_1 main_v0
  let main_v4 : FVec F S1024x1024 .f32 := mulf main_v2 main_v3
  let main_v5 : FVec F S8192x1024 .f32 := (fun l r => Host.dotGeneral dot_S8192x1024_S1024x1024_S8192x1024_1_0_0_1_n_n none l r) main_arg3 main_v4
  let main_v6 : FVec F S8192x2048 .f32 := (fun a b => concatenate S8192x2048 1 [⟨S8192x1024, a⟩, ⟨S8192x1024, b⟩] concatenates_S8192x1024_S8192x1024_S8192x2048_d1) main_arg0 main_v5
  let main_v7 : FVec F S8192x1024 .f32 := (fun l r => Host.dotGeneral dot_S8192x2048_S2048x1024_S8192x1024_1_0_0_1_n_n none l r) main_v6 main_arg7
  let main_v8 : FVec F S1x1024 .f32 := broadcastInDim S1x1024 ![1] bcast_S1024_S1x1024_1 main_arg8
  let main_v9 : FVec F S8192x1024 .f32 := broadcastInDim S8192x1024 ![0, 1] bcast_S1x1024_S8192x1024_0_1 main_v8
  let main_v10 : FVec F S8192x1024 .f32 := addf main_v7 main_v9
  let main_cst : FVec F S_ .f32 := constant S_ .f32 0x00000000#32
  let main_v11 : FVec F S8192x1024 .f32 := broadcastInDim S8192x1024 ![] bcast_S_S8192x1024 main_cst
  let main_v12 : FVec F S8192x1024 .f32 := maximumf main_v10 main_v11
  let main_v13 : FVec F S8192x1 .f32 := (fun l r => Host.dotGeneral dot_S8192x1024_S1024x1_S8192x1_1_0_0_1_n_n none l r) main_v12 main_arg9
  let main_v14 : FVec F S1x1 .f32 := broadcastInDim S1x1 ![1] bcast_S1_S1x1_1 main_arg10
  let main_v15 : FVec F S8192x1 .f32 := broadcastInDim S8192x1 ![0, 1] bcast_S1x1_S8192x1_0_1 main_v14
  let main_v16 : FVec F S8192x1 .f32 := addf main_v13 main_v15
  let main_v17 : FVec F S8192x1 .f32 := Host.exp main_v16
  let main_v18 : FVec F S1024x8192 .f32 := (transpose S1024x8192 [1, 0] · transposes_S8192x1024_S1024x8192_1_0) main_arg3
  let main_v19 : FVec F S1024x1 .f32 := (fun l r => Host.dotGeneral dot_S1024x8192_S8192x1_S1024x1_1_0_0_1_n_n none l r) main_v18 main_v17
  let main_v20 : FVec F S8192x1 .f32 := (fun l r => Host.dotGeneral dot_S8192x1024_S1024x1_S8192x1_1_0_0_1_n_n none l r) main_arg3 main_v19
  let main_v21 : FVec F S8192x1 .f32 := Host.divf main_v17 main_v20
  let main_v22 : FVec F S1024x8192 .f32 := (transpose S1024x8192 [1, 0] · transposes_S8192x1024_S1024x8192_1_0) main_arg3
  fn_part1 (F := F) main_arg0 main_arg1 main_arg2 main_arg3 main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_v20 main_v21 main_v22
-- ==== Kernel.lean ====
abbrev S8192x1024 : Shape := ⟨2, ![8192, 1024]⟩
abbrev S16384 : Shape := ⟨1, ![16384]⟩
abbrev S1024 : Shape := ⟨1, ![1024]⟩
abbrev S1024x32 : Shape := ⟨2, ![1024, 32]⟩
abbrev S16384x32 : Shape := ⟨2, ![16384, 32]⟩
abbrev S2048x1024 : Shape := ⟨2, ![2048, 1024]⟩
abbrev S1024x1 : Shape := ⟨2, ![1024, 1]⟩
abbrev S1 : Shape := ⟨1, ![1]⟩
abbrev S1024x1024 : Shape := ⟨2, ![1024, 1024]⟩
abbrev S3072x1024 : Shape := ⟨2, ![3072, 1024]⟩
abbrev S1x1024 : Shape := ⟨2, ![1, 1024]⟩
abbrev S8192x1 : Shape := ⟨2, ![8192, 1]⟩
abbrev S1x1 : Shape := ⟨2, ![1, 1]⟩
abbrev S1024x8192 : Shape := ⟨2, ![1024, 8192]⟩
abbrev S2048x1 : Shape := ⟨2, ![2048, 1]⟩
abbrev S_ : Shape := ⟨0, ![]⟩
abbrev S32x1024 : Shape := ⟨2, ![32, 1024]⟩
abbrev S32x1 : Shape := ⟨2, ![32, 1]⟩
abbrev S16384x1 : Shape := ⟨2, ![16384, 1]⟩
abbrev S16384x1024 : Shape := ⟨2, ![16384, 1024]⟩
abbrev S32x16384 : Shape := ⟨2, ![32, 16384]⟩
abbrev S1x16384 : Shape := ⟨2, ![1, 16384]⟩

abbrev nBuf : Space → Nat
  | .hbm => 121
  | .vmem => 41
  | .smem => 0
  | _ => 0

abbrev bufTy : (tb : Table) → Fin (tcTables nBuf tb) → BufTy
  | .hbm, ⟨0, _⟩ => ⟨S8192x1024, .f32⟩
  | .hbm, ⟨1, _⟩ => ⟨S16384, .i32⟩
  | .hbm, ⟨2, _⟩ => ⟨S16384, .i32⟩
  | .hbm, ⟨3, _⟩ => ⟨S8192x1024, .f32⟩
  | .hbm, ⟨4, _⟩ => ⟨S1024, .f32⟩
  | .hbm, ⟨5, _⟩ => ⟨S1024x32, .f32⟩
  | .hbm, ⟨6, _⟩ => ⟨S16384x32, .f32⟩
  | .hbm, ⟨7, _⟩ => ⟨S2048x1024, .f32⟩
  | .hbm, ⟨8, _⟩ => ⟨S1024, .f32⟩
  | .hbm, ⟨9, _⟩ => ⟨S1024x1, .f32⟩
  | .hbm, ⟨10, _⟩ => ⟨S1, .f32⟩
  | .hbm, ⟨11, _⟩ => ⟨S1024x1024, .f32⟩
  | .hbm, ⟨12, _⟩ => ⟨S1024, .f32⟩
  | .hbm, ⟨13, _⟩ => ⟨S1024x1024, .f32⟩
  | .hbm, ⟨14, _⟩ => ⟨S1024, .f32⟩
  | .hbm, ⟨15, _⟩ => ⟨S1024x1024, .f32⟩
  | .hbm, ⟨16, _⟩ => ⟨S1024, .f32⟩
  | .hbm, ⟨17, _⟩ => ⟨S1024x1, .f32⟩
  | .hbm, ⟨18, _⟩ => ⟨S1, .f32⟩
  | .hbm, ⟨19, _⟩ => ⟨S1024x1024, .f32⟩
  | .hbm, ⟨20, _⟩ => ⟨S1024, .f32⟩
  | .hbm, ⟨21, _⟩ => ⟨S1024x1024, .f32⟩
  | .hbm, ⟨22, _⟩ => ⟨S1024, .f32⟩
  | .hbm, ⟨23, _⟩ => ⟨S3072x1024, .f32⟩
  | .hbm, ⟨24, _⟩ => ⟨S1024, .f32⟩
  | .hbm, ⟨25, _⟩ => ⟨S1024x1, .f32⟩
  | .hbm, ⟨26, _⟩ => ⟨S1, .f32⟩
  | .hbm, ⟨27, _⟩ => ⟨S1024x1, .f32⟩
  | .hbm, ⟨28, _⟩ => ⟨S8192x1024, .bf16⟩
  | .hbm, ⟨29, _⟩ => ⟨S8192x1024, .bf16⟩
  | .hbm, ⟨30, _⟩ => ⟨S1024x1024, .bf16⟩
  | .hbm, ⟨31, _⟩ => ⟨S8192x1024, .bf16⟩
  | .hbm, ⟨32, _⟩ => ⟨S1024x1024, .f32⟩
  | .hbm, ⟨33, _⟩ => ⟨S1024x1024, .bf16⟩
  | .hbm, ⟨34, _⟩ => ⟨S1024x1024, .f32⟩
  | .hbm, ⟨35, _⟩ => ⟨S1024x1024, .bf16⟩
  | .hbm, ⟨36, _⟩ => ⟨S1x1024, .f32⟩
  | .hbm, ⟨37, _⟩ => ⟨S8192x1024, .f32⟩
  | .hbm, ⟨38, _⟩ => ⟨S8192x1, .f32⟩
  | .hbm, ⟨39, _⟩ => ⟨S1x1, .f32⟩
  | .hbm, ⟨40, _⟩ => ⟨S8192x1, .f32⟩
  | .hbm, ⟨41, _⟩ => ⟨S8192x1, .f32⟩
  | .hbm, ⟨42, _⟩ => ⟨S8192x1, .f32⟩
  | .hbm, ⟨43, _⟩ => ⟨S1024x8192, .f32⟩
  | .hbm, ⟨44, _⟩ => ⟨S1024x1, .f32⟩
  | .hbm, ⟨45, _⟩ => ⟨S8192x1, .f32⟩
  | .hbm, ⟨46, _⟩ => ⟨S8192x1, .f32⟩
  | .hbm, ⟨47, _⟩ => ⟨S1024x1024, .f32⟩
  | .hbm, ⟨48, _⟩ => ⟨S1024x1024, .f32⟩
  | .hbm, ⟨49, _⟩ => ⟨S1x1024, .f32⟩
  | .hbm, ⟨50, _⟩ => ⟨S1024x1024, .f32⟩
  | .hbm, ⟨51, _⟩ => ⟨S1024x1024, .f32⟩
  | .hbm, ⟨52, _⟩ => ⟨S_, .f32⟩
  | .hbm, ⟨53, _⟩ => ⟨S1024x1024, .f32⟩
  | .hbm, ⟨54, _⟩ => ⟨S1024x1024, .f32⟩
  | .hbm, ⟨55, _⟩ => ⟨S1024x1024, .f32⟩
  | .hbm, ⟨56, _⟩ => ⟨S1x1024, .f32⟩
  | .hbm, ⟨57, _⟩ => ⟨S1024x1024, .f32⟩
  | .hbm, ⟨58, _⟩ => ⟨S1024x1024, .f32⟩
  | .hbm, ⟨59, _⟩ => ⟨S1024x1024, .f32⟩
  | .hbm, ⟨60, _⟩ => ⟨S1x1024, .f32⟩
  | .hbm, ⟨61, _⟩ => ⟨S1024x1024, .f32⟩
  | .hbm, ⟨62, _⟩ => ⟨S1024x1024, .f32⟩
  | .hbm, ⟨63, _⟩ => ⟨S_, .f32⟩
  | .hbm, ⟨64, _⟩ => ⟨S1024x1024, .f32⟩
  | .hbm, ⟨65, _⟩ => ⟨S1024x1024, .f32⟩
  | .hbm, ⟨66, _⟩ => ⟨S1024x1, .f32⟩
  | .hbm, ⟨67, _⟩ => ⟨S1x1, .f32⟩
  | .hbm, ⟨68, _⟩ => ⟨S1024x1, .f32⟩
  | .hbm, ⟨69, _⟩ => ⟨S1024x1, .f32⟩
  | .hbm, ⟨70, _⟩ => ⟨S1024x1, .f32⟩
  | .hbm, ⟨71, _⟩ => ⟨S32x1024, .f32⟩
  | .hbm, ⟨72, _⟩ => ⟨S32x1, .f32⟩
  | .hbm, ⟨73, _⟩ => ⟨S1024x1, .f32⟩
  | .hbm, ⟨74, _⟩ => ⟨S1024x1, .f32⟩
  | .hbm, ⟨75, _⟩ => ⟨S32x1024, .f32⟩
  | .hbm, ⟨76, _⟩ => ⟨S1024x1024, .f32⟩
  | .hbm, ⟨77, _⟩ => ⟨S1024x1024, .f32⟩
  | .hbm, ⟨78, _⟩ => ⟨S32x1024, .f32⟩
  | .hbm, ⟨79, _⟩ => ⟨S32x1024, .f32⟩
  | .hbm, ⟨80, _⟩ => ⟨S1x1024, .f32⟩
  | .hbm, ⟨81, _⟩ => ⟨S32x1024, .f32⟩
  | .hbm, ⟨82, _⟩ => ⟨S32x1024, .f32⟩
  | .hbm, ⟨83, _⟩ => ⟨S_, .f32⟩
  | .hbm, ⟨84, _⟩ => ⟨S32x1024, .f32⟩
  | .hbm, ⟨85, _⟩ => ⟨S32x1024, .f32⟩
  | .hbm, ⟨86, _⟩ => ⟨S32x1024, .f32⟩
  | .hbm, ⟨87, _⟩ => ⟨S1x1024, .f32⟩
  | .hbm, ⟨88, _⟩ => ⟨S32x1024, .f32⟩
  | .hbm, ⟨89, _⟩ => ⟨S32x1024, .f32⟩
  | .hbm, ⟨90, _⟩ => ⟨S1024x1024, .f32⟩
  | .hbm, ⟨91, _⟩ => ⟨S1024x1024, .f32⟩
  | .hbm, ⟨92, _⟩ => ⟨S1024x1024, .f32⟩
  | .hbm, ⟨93, _⟩ => ⟨S32x1024, .f32⟩
  | .hbm, ⟨94, _⟩ => ⟨S1024x1024, .f32⟩
  | .hbm, ⟨95, _⟩ => ⟨S1024x1024, .f32⟩
  | .hbm, ⟨96, _⟩ => ⟨S16384x1, .i32⟩
  | .hbm, ⟨97, _⟩ => ⟨S16384x1, .i32⟩
  | .hbm, ⟨98, _⟩ => ⟨S16384x32, .bf16⟩
  | .hbm, ⟨99, _⟩ => ⟨S32x1024, .bf16⟩
  | .hbm, ⟨100, _⟩ => ⟨S1024x1024, .bf16⟩
  | .hbm, ⟨101, _⟩ => ⟨S1024x1024, .bf16⟩
  | .hbm, ⟨102, _⟩ => ⟨S1x1024, .f32⟩
  | .hbm, ⟨103, _⟩ => ⟨S16384x1024, .f32⟩
  | .hbm, ⟨104, _⟩ => ⟨S_, .f32⟩
  | .hbm, ⟨105, _⟩ => ⟨S16384x1024, .f32⟩
  | .hbm, ⟨106, _⟩ => ⟨S16384x1024, .f32⟩
  | .hbm, ⟨107, _⟩ => ⟨S16384x1, .f32⟩
  | .hbm, ⟨108, _⟩ => ⟨S1x1, .f32⟩
  | .hbm, ⟨109, _⟩ => ⟨S16384x1, .f32⟩
  | .hbm, ⟨110, _⟩ => ⟨S16384x1, .f32⟩
  | .hbm, ⟨111, _⟩ => ⟨S16384x1, .f32⟩
  | .hbm, ⟨112, _⟩ => ⟨S16384x1, .f32⟩
  | .hbm, ⟨113, _⟩ => ⟨S32x16384, .f32⟩
  | .hbm, ⟨114, _⟩ => ⟨S32x1, .f32⟩
  | .hbm, ⟨115, _⟩ => ⟨S16384x1, .f32⟩
  | .hbm, ⟨116, _⟩ => ⟨S16384x1, .f32⟩
  | .hbm, ⟨117, _⟩ => ⟨S32x16384, .f32⟩
  | .hbm, ⟨118, _⟩ => ⟨S1x16384, .f32⟩
  | .hbm, ⟨119, _⟩ => ⟨S32x16384, .f32⟩
  | .hbm, ⟨120, _⟩ => ⟨S32x16384, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1, .f32⟩
  | .local _ .vmem, ⟨5, _⟩ => ⟨S1024x1024, .bf16⟩
  | .local _ .vmem, ⟨6, _⟩ => ⟨S1024x1024, .f32⟩
  | .local _ .vmem, ⟨7, _⟩ => ⟨S2048x1024, .bf16⟩
  | .local _ .vmem, ⟨8, _⟩ => ⟨S2048x1024, .bf16⟩
  | .local _ .vmem, ⟨9, _⟩ => ⟨S1024x1024, .bf16⟩
  | .local _ .vmem, ⟨10, _⟩ => ⟨S2048x1024, .bf16⟩
  | .local _ .vmem, ⟨11, _⟩ => ⟨S2048x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1x1024, .f32⟩
  | .local _ .vmem, ⟨19, _⟩ => ⟨S1024x1024, .f32⟩
  | .local _ .vmem, ⟨20, _⟩ => ⟨S1024x1024, .f32⟩
  | .local _ .vmem, ⟨21, _⟩ => ⟨S2048x1024, .bf16⟩
  | .local _ .vmem, ⟨22, _⟩ => ⟨S2048x1024, .bf16⟩
  | .local _ .vmem, ⟨23, _⟩ => ⟨S2048x1024, .bf16⟩
  | .local _ .vmem, ⟨24, _⟩ => ⟨S2048x1024, .bf16⟩
  | .local _ .vmem, ⟨25, _⟩ => ⟨S2048x1, .f32⟩
  | .local _ .vmem, ⟨26, _⟩ => ⟨S2048x1, .f32⟩
  | .local _ .vmem, ⟨27, _⟩ => ⟨S1024x1024, .f32⟩
  | .local _ .vmem, ⟨28, _⟩ => ⟨S1024x1024, .f32⟩
  | .local _ .vmem, ⟨29, _⟩ => ⟨S1024x1, .i32⟩
  | .local _ .vmem, ⟨30, _⟩ => ⟨S1024x1, .i32⟩
  | .local _ .vmem, ⟨31, _⟩ => ⟨S1024x1, .i32⟩
  | .local _ .vmem, ⟨32, _⟩ => ⟨S1024x1, .i32⟩
  | .local _ .vmem, ⟨33, _⟩ => ⟨S1024x32, .bf16⟩
  | .local _ .vmem, ⟨34, _⟩ => ⟨S1024x32, .bf16⟩
  | .local _ .vmem, ⟨35, _⟩ => ⟨S32x1024, .bf16⟩
  | .local _ .vmem, ⟨36, _⟩ => ⟨S1024x1024, .bf16⟩
  | .local _ .vmem, ⟨37, _⟩ => ⟨S1024x1024, .bf16⟩
  | .local _ .vmem, ⟨38, _⟩ => ⟨S1x1024, .f32⟩
  | .local _ .vmem, ⟨39, _⟩ => ⟨S1024x1024, .f32⟩
  | .local _ .vmem, ⟨40, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_call0_cst : Ref sig .tc := ⟨.hbm, 52, rfl⟩
abbrev main_call0_v0 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_call1_cst : Ref sig .tc := ⟨.hbm, 63, rfl⟩
abbrev main_call1_v0 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_call2_cst : Ref sig .tc := ⟨.hbm, 83, rfl⟩
abbrev main_call2_v0 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_call3_cst : Ref sig .tc := ⟨.hbm, 104, rfl⟩
abbrev main_call3_v0 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg5_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg2_1 : Ref sig .tc := ⟨.vmem, 26, rfl⟩
abbrev cc3_stg3_0 : Ref sig .tc := ⟨.vmem, 27, rfl⟩
abbrev cc3_scratch0 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg1_1 : Ref sig .tc := ⟨.vmem, 32, rfl⟩
abbrev cc4_stg2_0 : Ref sig .tc := ⟨.vmem, 33, rfl⟩
abbrev cc4_stg2_1 : Ref sig .tc := ⟨.vmem, 34, rfl⟩
abbrev cc4_stg3_0 : Ref sig .tc := ⟨.vmem, 35, rfl⟩
abbrev cc4_stg4_0 : Ref sig .tc := ⟨.vmem, 36, rfl⟩
abbrev cc4_stg5_0 : Ref sig .tc := ⟨.vmem, 37, rfl⟩
abbrev cc4_stg6_0 : Ref sig .tc := ⟨.vmem, 38, rfl⟩
abbrev cc4_stg7_0 : Ref sig .tc := ⟨.vmem, 39, rfl⟩
abbrev cc4_stg7_1 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem3_0 : DmaSem sig := 16
abbrev cc2_sem4_0 : DmaSem sig := 17
abbrev cc2_sem5_0 : DmaSem sig := 18
abbrev cc2_sem5_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25
abbrev cc3_sem3_0 : DmaSem sig := 26
abbrev cc4_sem0_0 : DmaSem sig := 27
abbrev cc4_sem0_1 : DmaSem sig := 28
abbrev cc4_sem1_0 : DmaSem sig := 29
abbrev cc4_sem1_1 : DmaSem sig := 30
abbrev cc4_sem2_0 : DmaSem sig := 31
abbrev cc4_sem2_1 : DmaSem sig := 32
abbrev cc4_sem3_0 : DmaSem sig := 33
abbrev cc4_sem4_0 : DmaSem sig := 34
abbrev cc4_sem5_0 : DmaSem sig := 35
abbrev cc4_sem6_0 : DmaSem sig := 36
abbrev cc4_sem7_0 : DmaSem sig := 37
abbrev cc4_sem7_1 : DmaSem sig := 38

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v13 : BitVec 1 := Scalar.cmpi .eq arg0 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2048x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1024x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1024x1024 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1024x1024 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1024x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![4], ![false]⟩

def k3_cond2 (i : grid3.Coords) : BitVec 1 :=
  let arg0 : BitVec 32 := BitVec.ofNat 32 (i 0).val
  let c3_i32 : BitVec 32 := 3#32
  let v19 : BitVec 1 := Scalar.cmpi .eq arg0 c3_i32
  let v20 : BitVec 32 := Scalar.extui v19
  let c0_i32_10 : BitVec 32 := 0#32
  let v21 : BitVec 1 := Scalar.cmpi .ne v20 c0_i32_10
  v21

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S2048x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2048x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2048x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1024x1024 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev grid4 : Pipeline.Grid := ⟨1, ![16], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1024x1 .i32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1024x1 .i32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S1024x32 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S32x1024 .bf16 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1024x1024 .bf16 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1024x1024 .bf16 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x1024 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S1024x1024 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

class Facts₀ : Prop where
  shapeCasts_S1024_S1024x1 : S1024.ShapeCasts S1024x1
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x1024 : S1024x1.Broadcasts S1024x1024
  packedbf16_S1024x1024_S1024x1024_0_0 : (Rect.unit (s := S1024x1024) ![0, 0] S1024x1024.size inb_S1024x1024_S1024x1024_0_0).PackedRows (EltTy.packing .bf16)
  packedbf16_S2048x1024_S2048x1024_0_0 : (Rect.unit (s := S2048x1024) ![0, 0] S2048x1024.size inb_S2048x1024_S2048x1024_0_0).PackedRows (EltTy.packing .bf16)
  slices_S2048x1024_S1024x1024_0_0 : S2048x1024.Slices ![0, 0] S1024x1024
  slices_S2048x1024_S1024x1024_1024_0 : S2048x1024.Slices ![1024, 0] S1024x1024
  shapeCasts_S1024_S1x1024 : S1024.ShapeCasts S1x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  transposes_S8192x1024_S1024x8192_1_0 : S8192x1024.Transposes [1, 0] S1024x8192
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x1024 : S2048x1.Broadcasts S2048x1024
  bcast_S1024_S1x1024_1 : S1024.BroadcastsInDim S1x1024 (![1] : Fin 1 → Fin S1x1024.rank)
  bcast_S1x1024_S1024x1024_0_1 : S1x1024.BroadcastsInDim S1024x1024 (![0, 1] : Fin 2 → Fin S1024x1024.rank)
  bcast_S_S1024x1024 : S_.BroadcastsInDim S1024x1024 (![] : Fin 0 → Fin S1024x1024.rank)
  bcast_S1x1_S1024x1_0_1 : S1x1.BroadcastsInDim S1024x1 (![0, 1] : Fin 2 → Fin S1024x1.rank)
  transposes_S1024x32_S32x1024_1_0 : S1024x32.Transposes [1, 0] S32x1024
  bcast_S1024x1_S1024x1024_0_1 : S1024x1.BroadcastsInDim S1024x1024 (![0, 1] : Fin 2 → Fin S1024x1024.rank)
  bcast_S1x1024_S32x1024_0_1 : S1x1024.BroadcastsInDim S32x1024 (![0, 1] : Fin 2 → Fin S32x1024.rank)
  bcast_S_S32x1024 : S_.BroadcastsInDim S32x1024 (![] : Fin 0 → Fin S32x1024.rank)
  slices_S3072x1024_S1024x1024_0_0 : S3072x1024.Slices ![0, 0] S1024x1024
  slices_S3072x1024_S1024x1024_1024_0 : S3072x1024.Slices ![1024, 0] S1024x1024
  slices_S3072x1024_S1024x1024_2048_0 : S3072x1024.Slices ![2048, 0] S1024x1024
  shapeCasts_S16384_S16384x1 : S16384.ShapeCasts S16384x1
  iota_S1024x1024_d1_w32 : S1024x1024.Iotas .tc 32 [1]
  natLt_1_32 : 1 < 32
  inb_S1024x32_S1024x32_0_0 : ∀ a, (![0, 0] : Fin 2 → Nat) a + S1024x32.size a ≤ S1024x32.size a
  h_S1024x32 : 0 < S1024x32.numel
  shapeCasts_S1024x32_S1024x32 : S1024x32.ShapeCasts S1024x32
  inb_S32x1024_S32x1024_0_0 : ∀ a, (![0, 0] : Fin 2 → Nat) a + S32x1024.size a ≤ S32x1024.size a
  h_S32x1024 : 0 < S32x1024.numel
  shapeCasts_S32x1024_S32x1024 : S32x1024.ShapeCasts S32x1024
  bcast_S_S16384x1024 : S_.BroadcastsInDim S16384x1024 (![] : Fin 0 → Fin S16384x1024.rank)
  bcast_S1x1_S16384x1_0_1 : S1x1.BroadcastsInDim S16384x1 (![0, 1] : Fin 2 → Fin S16384x1.rank)
  transposes_S16384x32_S32x16384_1_0 : S16384x32.Transposes [1, 0] S32x16384
  shapeCasts_S16384x1_S1x16384 : S16384x1.ShapeCasts S1x16384
  bcast_S1x16384_S32x16384_0_1 : S1x16384.BroadcastsInDim S32x16384 (![0, 1] : Fin 2 → Fin S32x16384.rank)
  dot_S2048x1024_S2048x1024_S1024x1024_0_0_1_1_n_n_wf : DotDims.WF S2048x1024 S2048x1024 S1024x1024 [0] [0] [1] [1] [] []
  dot_S2048x1024_S1024x1024_S2048x1024_1_0_0_1_n_n_wf : DotDims.WF S2048x1024 S1024x1024 S2048x1024 [1] [0] [0] [1] [] []
  dot_S1024x1024_S1024x1024_S1024x1024_1_0_0_1_n_n_wf : DotDims.WF S1024x1024 S1024x1024 S1024x1024 [1] [0] [0] [1] [] []
  dot_S8192x1024_S1024x1_S8192x1_1_0_0_1_n_n_wf : DotDims.WF S8192x1024 S1024x1 S8192x1 [1] [0] [0] [1] [] []
  dot_S1024x8192_S8192x1_S1024x1_1_0_0_1_n_n_wf : DotDims.WF S1024x8192 S8192x1 S1024x1 [1] [0] [0] [1] [] []
  dot_S1024x1024_S1024x1_S1024x1_1_0_0_1_n_n_wf : DotDims.WF S1024x1024 S1024x1 S1024x1 [1] [0] [0] [1] [] []
  dot_S32x1024_S1024x1_S32x1_1_0_0_1_n_n_wf : DotDims.WF S32x1024 S1024x1 S32x1 [1] [0] [0] [1] [] []
  dot_S1024x32_S32x1_S1024x1_1_0_0_1_n_n_wf : DotDims.WF S1024x32 S32x1 S1024x1 [1] [0] [0] [1] [] []
  dot_S32x1024_S1024x1024_S32x1024_1_0_0_1_n_n_wf : DotDims.WF S32x1024 S1024x1024 S32x1024 [1] [0] [0] [1] [] []
  dot_S1024x32_S32x1024_S1024x1024_1_0_0_1_n_n_wf : DotDims.WF S1024x32 S32x1024 S1024x1024 [1] [0] [0] [1] [] []
  dot_S16384x1024_S1024x1_S16384x1_1_0_0_1_n_n_wf : DotDims.WF S16384x1024 S1024x1 S16384x1 [1] [0] [0] [1] [] []
  dot_S32x16384_S16384x1_S32x1_1_0_0_1_n_n_wf : DotDims.WF S32x16384 S16384x1 S32x1 [1] [0] [0] [1] [] []
  dot_S16384x32_S32x1_S16384x1_1_0_0_1_n_n_wf : DotDims.WF S16384x32 S32x1 S16384x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S8192x1024.size a
  hwx0_0 : ∀ i : grid0.Coords, EltTy.bits .bf16 = 32 ∨ (Rect.block (s := S8192x1024) S2048x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S8192x1024.size a
  hwx0_1 : ∀ i : grid0.Coords, EltTy.bits .bf16 = 32 ∨ (Rect.block (s := S8192x1024) S2048x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S1024x1.size a
  hwx0_2 : ∀ i : grid0.Coords, EltTy.bits .f32 = 32 ∨ (Rect.block (s := S1024x1) S1024x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S8192x1024.size a
  hwx1_0 : ∀ i : grid1.Coords, EltTy.bits .bf16 = 32 ∨ (Rect.block (s := S8192x1024) S2048x1024.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x1024.size a ≤ S8192x1024.size a
  hwx1_2 : ∀ i : grid1.Coords, EltTy.bits .bf16 = 32 ∨ (Rect.block (s := S8192x1024) S2048x1024.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S8192x1024.size a
  hwx2_0 : ∀ i : grid2.Coords, EltTy.bits .bf16 = 32 ∨ (Rect.block (s := S8192x1024) S1024x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S8192x1024.size a
  hwx2_1 : ∀ i : grid2.Coords, EltTy.bits .bf16 = 32 ∨ (Rect.block (s := S8192x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1024x1024.size a ≤ S1024x1024.size a
  hwx2_2 : ∀ i : grid2.Coords, EltTy.bits .bf16 = 32 ∨ (Rect.block (s := S1024x1024) S1024x1024.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S1024x1024.size a
  hwx2_3 : ∀ i : grid2.Coords, EltTy.bits .bf16 = 32 ∨ (Rect.block (s := S1024x1024) S1024x1024.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1024.size a ≤ S1x1024.size a
  hwx2_4 : ∀ i : grid2.Coords, EltTy.bits .f32 = 32 ∨ (Rect.block (s := S1x1024) S1x1024.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1024x1024.size a ≤ S8192x1024.size a
  hwx2_5 : ∀ i : grid2.Coords, EltTy.bits .f32 = 32 ∨ (Rect.block (s := S8192x1024) S1024x1024.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x1024.size a ≤ S8192x1024.size a
  hwx3_0 : ∀ i : grid3.Coords, EltTy.bits .bf16 = 32 ∨ (Rect.block (s := S8192x1024) S2048x1024.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x1024.size a ≤ S8192x1024.size a
  hwx3_1 : ∀ i : grid3.Coords, EltTy.bits .bf16 = 32 ∨ (Rect.block (s := S8192x1024) S2048x1024.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2048x1.size a ≤ S8192x1.size a
  hwx3_2 : ∀ i : grid3.Coords, EltTy.bits .f32 = 32 ∨ (Rect.block (s := S8192x1) S2048x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1024x1024.size a ≤ S1024x1024.size a
  hwx3_3 : ∀ i : grid3.Coords, EltTy.bits .f32 = 32 ∨ (Rect.block (s := S1024x1024) S1024x1024.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x1.size a ≤ S16384x1.size a
  hwx4_0 : ∀ i : grid4.Coords, EltTy.bits .i32 = 32 ∨ (Rect.block (s := S16384x1) S1024x1.size (cc4_transform_0 i) (hinb4_0 i)).WholeWords (EltTy.packing .i32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1024x1.size a ≤ S16384x1.size a
  hwx4_1 : ∀ i : grid4.Coords, EltTy.bits .i32 = 32 ∨ (Rect.block (s := S16384x1) S1024x1.size (cc4_transform_1 i) (hinb4_1 i)).WholeWords (EltTy.packing .i32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1024x32.size a ≤ S16384x32.size a
  hwx4_2 : ∀ i : grid4.Coords, EltTy.bits .bf16 = 32 ∨ (Rect.block (s := S16384x32) S1024x32.size (cc4_transform_2 i) (hinb4_2 i)).WholeWords (EltTy.packing .bf16)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S32x1024.size a ≤ S32x1024.size a
  hwx4_3 : ∀ i : grid4.Coords, EltTy.bits .bf16 = 32 ∨ (Rect.block (s := S32x1024) S32x1024.size (cc4_transform_3 i) (hinb4_3 i)).WholeWords (EltTy.packing .bf16)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1024x1024.size a ≤ S1024x1024.size a
  hwx4_4 : ∀ i : grid4.Coords, EltTy.bits .bf16 = 32 ∨ (Rect.block (s := S1024x1024) S1024x1024.size (cc4_transform_4 i) (hinb4_4 i)).WholeWords (EltTy.packing .bf16)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1024x1024.size a ≤ S1024x1024.size a
  hwx4_5 : ∀ i : grid4.Coords, EltTy.bits .bf16 = 32 ∨ (Rect.block (s := S1024x1024) S1024x1024.size (cc4_transform_5 i) (hinb4_5 i)).WholeWords (EltTy.packing .bf16)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x1024.size a ≤ S1x1024.size a
  hwx4_6 : ∀ i : grid4.Coords, EltTy.bits .f32 = 32 ∨ (Rect.block (s := S1x1024) S1x1024.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S1024x1024.size a ≤ S16384x1024.size a
  hwx4_7 : ∀ i : grid4.Coords, EltTy.bits .f32 = 32 ∨ (Rect.block (s := S16384x1024) S1024x1024.size (cc4_transform_7 i) (hinb4_7 i)).WholeWords (EltTy.packing .f32)

variable [Facts₀]

def dot_S2048x1024_S2048x1024_S1024x1024_0_0_1_1_n_n : DotDims S2048x1024 S2048x1024 S1024x1024 where
  lhsContracting := [0]
  rhsContracting := [0]
  lhsNonContracting := [1]
  rhsNonContracting := [1]
  lhsBatch := []
  rhsBatch := []
  wf := dot_S2048x1024_S2048x1024_S1024x1024_0_0_1_1_n_n_wf
def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S8192x1024_S1024x1_S8192x1_1_0_0_1_n_n : DotDims S8192x1024 S1024x1 S8192x1 where
  lhsContracting := [1]
  rhsContracting := [0]
  lhsNonContracting := [0]
  rhsNonContracting := [1]
  lhsBatch := []
  rhsBatch := []
  wf := dot_S8192x1024_S1024x1_S8192x1_1_0_0_1_n_n_wf
def dot_S1024x8192_S8192x1_S1024x1_1_0_0_1_n_n : DotDims S1024x8192 S8192x1 S1024x1 where
  lhsContracting := [1]
  rhsContracting := [0]
  lhsNonContracting := [0]
  rhsNonContracting := [1]
  lhsBatch := []
  rhsBatch := []
  wf := dot_S1024x8192_S8192x1_S1024x1_1_0_0_1_n_n_wf
def dot_S1024x1024_S1024x1_S1024x1_1_0_0_1_n_n : DotDims S1024x1024 S1024x1 S1024x1 where
  lhsContracting := [1]
  rhsContracting := [0]
  lhsNonContracting := [0]
  rhsNonContracting := [1]
  lhsBatch := []
  rhsBatch := []
  wf := dot_S1024x1024_S1024x1_S1024x1_1_0_0_1_n_n_wf
def dot_S32x1024_S1024x1_S32x1_1_0_0_1_n_n : DotDims S32x1024 S1024x1 S32x1 where
  lhsContracting := [1]
  rhsContracting := [0]
  lhsNonContracting := [0]
  rhsNonContracting := [1]
  lhsBatch := []
  rhsBatch := []
  wf := dot_S32x1024_S1024x1_S32x1_1_0_0_1_n_n_wf
def dot_S1024x32_S32x1_S1024x1_1_0_0_1_n_n : DotDims S1024x32 S32x1 S1024x1 where
  lhsContracting := [1]
  rhsContracting := [0]
  lhsNonContracting := [0]
  rhsNonContracting := [1]
  lhsBatch := []
  rhsBatch := []
  wf := dot_S1024x32_S32x1_S1024x1_1_0_0_1_n_n_wf
def dot_S32x1024_S1024x1024_S32x1024_1_0_0_1_n_n : DotDims S32x1024 S1024x1024 S32x1024 where
  lhsContracting := [1]
  rhsContracting := [0]
  lhsNonContracting := [0]
  rhsNonContracting := [1]
  lhsBatch := []
  rhsBatch := []
  wf := dot_S32x1024_S1024x1024_S32x1024_1_0_0_1_n_n_wf
def dot_S1024x32_S32x1024_S1024x1024_1_0_0_1_n_n : DotDims S1024x32 S32x1024 S1024x1024 where
  lhsContracting := [1]
  rhsContracting := [0]
  lhsNonContracting := [0]
  rhsNonContracting := [1]
  lhsBatch := []
  rhsBatch := []
  wf := dot_S1024x32_S32x1024_S1024x1024_1_0_0_1_n_n_wf
def dot_S16384x1024_S1024x1_S16384x1_1_0_0_1_n_n : DotDims S16384x1024 S1024x1 S16384x1 where
  lhsContracting := [1]
  rhsContracting := [0]
  lhsNonContracting := [0]
  rhsNonContracting := [1]
  lhsBatch := []
  rhsBatch := []
  wf := dot_S16384x1024_S1024x1_S16384x1_1_0_0_1_n_n_wf
def dot_S32x16384_S16384x1_S32x1_1_0_0_1_n_n : DotDims S32x16384 S16384x1 S32x1 where
  lhsContracting := [1]
  rhsContracting := [0]
  lhsNonContracting := [0]
  rhsNonContracting := [1]
  lhsBatch := []
  rhsBatch := []
  wf := dot_S32x16384_S16384x1_S32x1_1_0_0_1_n_n_wf
def dot_S16384x32_S32x1_S16384x1_1_0_0_1_n_n : DotDims S16384x32 S32x1 S16384x1 where
  lhsContracting := [1]
  rhsContracting := [0]
  lhsNonContracting := [0]
  rhsNonContracting := [1]
  lhsBatch := []
  rhsBatch := []
  wf := dot_S16384x32_S32x1_S16384x1_1_0_0_1_n_n_wf

abbrev win0_0 : Pipeline.Window sig grid0 :=
  Pipeline.Window.ofSpec (Memref.whole main_v1) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1024.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v1) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S2048x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v2) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4) S1024x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v6) S1024x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v8) S1024x1024.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v9) S1x1024.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v10) S1024x1024.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v1) S2048x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v2) S2048x1024.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v19) S2048x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v20) S1024x1024.size cc3_transform_3 reads3_3 true true 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

abbrev win4_0 : Pipeline.Window sig grid4 :=
  Pipeline.Window.ofSpec (Memref.whole main_v63) S1024x1.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v64) S1024x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v65) S1024x32.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v66) S32x1024.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v67) S1024x1024.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v68) S1024x1024.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v69) S1x1024.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v70) S1024x1024.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

class Facts : Prop extends Facts₀ where

variable [Facts]
-- ==== ReferenceIdeal.lean ====
abbrev S8192x1024 : Shape := ⟨2, ![8192, 1024]⟩
abbrev S16384 : Shape := ⟨1, ![16384]⟩
abbrev S1024 : Shape := ⟨1, ![1024]⟩
abbrev S1024x32 : Shape := ⟨2, ![1024, 32]⟩
abbrev S16384x32 : Shape := ⟨2, ![16384, 32]⟩
abbrev S2048x1024 : Shape := ⟨2, ![2048, 1024]⟩
abbrev S1024x1 : Shape := ⟨2, ![1024, 1]⟩
abbrev S1 : Shape := ⟨1, ![1]⟩
abbrev S1024x1024 : Shape := ⟨2, ![1024, 1024]⟩
abbrev S3072x1024 : Shape := ⟨2, ![3072, 1024]⟩
abbrev S1024x8192 : Shape := ⟨2, ![1024, 8192]⟩
abbrev S8192x2048 : Shape := ⟨2, ![8192, 2048]⟩
abbrev S1x1024 : Shape := ⟨2, ![1, 1024]⟩
abbrev S_ : Shape := ⟨0, ![]⟩
abbrev S8192x1 : Shape := ⟨2, ![8192, 1]⟩
abbrev S1x1 : Shape := ⟨2, ![1, 1]⟩
abbrev S32x1024 : Shape := ⟨2, ![32, 1024]⟩
abbrev S32x1 : Shape := ⟨2, ![32, 1]⟩
abbrev S16384x1024 : Shape := ⟨2, ![16384, 1024]⟩
abbrev S16384x1 : Shape := ⟨2, ![16384, 1]⟩
abbrev S16384x3072 : Shape := ⟨2, ![16384, 3072]⟩
abbrev S32x16384 : Shape := ⟨2, ![32, 16384]⟩
abbrev S1x16384 : Shape := ⟨2, ![1, 16384]⟩

abbrev nBuf : Space → Nat
  | .hbm => 137
  | .vmem => 0
  | .smem => 0
  | _ => 0

abbrev hbmTy0_0 (i : Nat) : BufTy := match i % 128 with
  | 0 => ⟨S8192x1024, .f32⟩
  | 1 => ⟨S16384, .i32⟩
  | 2 => ⟨S16384, .i32⟩
  | 3 => ⟨S8192x1024, .f32⟩
  | 4 => ⟨S1024, .f32⟩
  | 5 => ⟨S1024x32, .f32⟩
  | 6 => ⟨S16384x32, .f32⟩
  | 7 => ⟨S2048x1024, .f32⟩
  | 8 => ⟨S1024, .f32⟩
  | 9 => ⟨S1024x1, .f32⟩
  | 10 => ⟨S1, .f32⟩
  | 11 => ⟨S1024x1024, .f32⟩
  | 12 => ⟨S1024, .f32⟩
  | 13 => ⟨S1024x1024, .f32⟩
  | 14 => ⟨S1024, .f32⟩
  | 15 => ⟨S1024x1024, .f32⟩
  | 16 => ⟨S1024, .f32⟩
  | 17 => ⟨S1024x1, .f32⟩
  | 18 => ⟨S1, .f32⟩
  | 19 => ⟨S1024x1024, .f32⟩
  | 20 => ⟨S1024, .f32⟩
  | 21 => ⟨S1024x1024, .f32⟩
  | 22 => ⟨S1024, .f32⟩
  | 23 => ⟨S3072x1024, .f32⟩
  | 24 => ⟨S1024, .f32⟩
  | 25 => ⟨S1024x1, .f32⟩
  | 26 => ⟨S1, .f32⟩
  | 27 => ⟨S1024x1, .f32⟩
  | 28 => ⟨S1024x8192, .f32⟩
  | 29 => ⟨S1024x1024, .f32⟩
  | 30 => ⟨S1024x1024, .f32⟩
  | 31 => ⟨S1024x1024, .f32⟩
  | 32 => ⟨S8192x1024, .f32⟩
  | 33 => ⟨S8192x2048, .f32⟩
  | 34 => ⟨S8192x1024, .f32⟩
  | 35 => ⟨S1x1024, .f32⟩
  | 36 => ⟨S8192x1024, .f32⟩
  | 37 => ⟨S8192x1024, .f32⟩
  | 38 => ⟨S_, .f32⟩
  | 39 => ⟨S8192x1024, .f32⟩
  | 40 => ⟨S8192x1024, .f32⟩
  | 41 => ⟨S8192x1, .f32⟩
  | 42 => ⟨S1x1, .f32⟩
  | 43 => ⟨S8192x1, .f32⟩
  | 44 => ⟨S8192x1, .f32⟩
  | 45 => ⟨S8192x1, .f32⟩
  | 46 => ⟨S1024x8192, .f32⟩
  | 47 => ⟨S1024x1, .f32⟩
  | 48 => ⟨S8192x1, .f32⟩
  | 49 => ⟨S8192x1, .f32⟩
  | 50 => ⟨S1024x8192, .f32⟩
  | 51 => ⟨S8192x1024, .f32⟩
  | 52 => ⟨S8192x1024, .f32⟩
  | 53 => ⟨S1024x1024, .f32⟩
  | 54 => ⟨S1024x1024, .f32⟩
  | 55 => ⟨S1x1024, .f32⟩
  | 56 => ⟨S1024x1024, .f32⟩
  | 57 => ⟨S1024x1024, .f32⟩
  | 58 => ⟨S_, .f32⟩
  | 59 => ⟨S1024x1024, .f32⟩
  | 60 => ⟨S1024x1024, .f32⟩
  | 61 => ⟨S1024x1024, .f32⟩
  | 62 => ⟨S1x1024, .f32⟩
  | 63 => ⟨S1024x1024, .f32⟩
  | 64 => ⟨S1024x1024, .f32⟩
  | 65 => ⟨S1024x1024, .f32⟩
  | 66 => ⟨S1x1024, .f32⟩
  | 67 => ⟨S1024x1024, .f32⟩
  | 68 => ⟨S1024x1024, .f32⟩
  | 69 => ⟨S_, .f32⟩
  | 70 => ⟨S1024x1024, .f32⟩
  | 71 => ⟨S1024x1024, .f32⟩
  | 72 => ⟨S1024x1, .f32⟩
  | 73 => ⟨S1x1, .f32⟩
  | 74 => ⟨S1024x1, .f32⟩
  | 75 => ⟨S1024x1, .f32⟩
  | 76 => ⟨S1024x1, .f32⟩
  | 77 => ⟨S32x1024, .f32⟩
  | 78 => ⟨S32x1, .f32⟩
  | 79 => ⟨S1024x1, .f32⟩
  | 80 => ⟨S1024x1, .f32⟩
  | 81 => ⟨S32x1024, .f32⟩
  | 82 => ⟨S1024x1024, .f32⟩
  | 83 => ⟨S1024x1024, .f32⟩
  | 84 => ⟨S32x1024, .f32⟩
  | 85 => ⟨S32x1024, .f32⟩
  | 86 => ⟨S1x1024, .f32⟩
  | 87 => ⟨S32x1024, .f32⟩
  | 88 => ⟨S32x1024, .f32⟩
  | 89 => ⟨S_, .f32⟩
  | 90 => ⟨S32x1024, .f32⟩
  | 91 => ⟨S32x1024, .f32⟩
  | 92 => ⟨S32x1024, .f32⟩
  | 93 => ⟨S1x1024, .f32⟩
  | 94 => ⟨S32x1024, .f32⟩
  | 95 => ⟨S32x1024, .f32⟩
  | 96 => ⟨S16384x1024, .f32⟩
  | 97 => ⟨S_, .i32⟩
  | 98 => ⟨S16384, .i32⟩
  | 99 => ⟨S16384, .i1⟩
  | 100 => ⟨S_, .i32⟩
  | 101 => ⟨S16384, .i32⟩
  | 102 => ⟨S16384, .i32⟩
  | 103 => ⟨S16384, .i32⟩
  | 104 => ⟨S16384x1, .i32⟩
  | 105 => ⟨S16384x1024, .f32⟩
  | 106 => ⟨S_, .i32⟩
  | 107 => ⟨S16384, .i32⟩
  | 108 => ⟨S16384, .i1⟩
  | 109 => ⟨S_, .i32⟩
  | 110 => ⟨S16384, .i32⟩
  | 111 => ⟨S16384, .i32⟩
  | 112 => ⟨S16384, .i32⟩
  | 113 => ⟨S16384x1, .i32⟩
  | 114 => ⟨S16384x1024, .f32⟩
  | 115 => ⟨S16384x3072, .f32⟩
  | 116 => ⟨S16384x1024, .f32⟩
  | 117 => ⟨S1x1024, .f32⟩
  | 118 => ⟨S16384x1024, .f32⟩
  | 119 => ⟨S16384x1024, .f32⟩
  | 120 => ⟨S_, .f32⟩
  | 121 => ⟨S16384x1024, .f32⟩
  | 122 => ⟨S16384x1024, .f32⟩
  | 123 => ⟨S16384x1, .f32⟩
  | 124 => ⟨S1x1, .f32⟩
  | 125 => ⟨S16384x1, .f32⟩
  | 126 => ⟨S16384x1, .f32⟩
  | 127 => ⟨S16384x1, .f32⟩
  | _ => ⟨S8192x1024, .f32⟩

abbrev hbmTy0_1 (i : Nat) : BufTy := match i % 128 with
  | 0 => ⟨S16384x1, .f32⟩
  | 1 => ⟨S32x16384, .f32⟩
  | 2 => ⟨S32x1, .f32⟩
  | 3 => ⟨S16384x1, .f32⟩
  | 4 => ⟨S16384x1, .f32⟩
  | 5 => ⟨S32x16384, .f32⟩
  | 6 => ⟨S1x16384, .f32⟩
  | 7 => ⟨S32x16384, .f32⟩
  | 8 => ⟨S32x16384, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_call0_cst : Ref sig .tc := ⟨.hbm, 38, rfl⟩
abbrev main_call0_v0 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_call1_cst : Ref sig .tc := ⟨.hbm, 58, rfl⟩
abbrev main_call1_v0 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_call2_cst : Ref sig .tc := ⟨.hbm, 69, rfl⟩
abbrev main_call2_v0 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_call3_cst : Ref sig .tc := ⟨.hbm, 89, rfl⟩
abbrev main_call3_v0 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_c : Ref sig .tc := ⟨.hbm, 97, rfl⟩
abbrev main_v62 : Ref sig .tc := ⟨.hbm, 98, rfl⟩
abbrev main_v63 : Ref sig .tc := ⟨.hbm, 99, rfl⟩
abbrev main_c_0 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_c_1 : Ref sig .tc := ⟨.hbm, 106, rfl⟩
abbrev main_v69 : Ref sig .tc := ⟨.hbm, 107, rfl⟩
abbrev main_v70 : Ref sig .tc := ⟨.hbm, 108, rfl⟩
abbrev main_c_2 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_call4_cst : Ref sig .tc := ⟨.hbm, 120, rfl⟩
abbrev main_call4_v0 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩

abbrev nD : Nat := 1
abbrev τ : Topo := Topo.v7x

variable {F : FTy → Type} [FloatOps F]

class Facts₀ : Prop where
  shapeCasts_S1024_S1024x1 : S1024.ShapeCasts S1024x1
  transposes_S8192x1024_S1024x8192_1_0 : S8192x1024.Transposes [1, 0] S1024x8192
  bcast_S1024x1_S1024x1024_0_1 : S1024x1.BroadcastsInDim S1024x1024 (![0, 1] : Fin 2 → Fin S1024x1024.rank)
  concatenates_S8192x1024_S8192x1024_S8192x2048_d1 : Shape.Concatenates [S8192x1024, S8192x1024] S8192x2048 1
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  bcast_S_S8192x1024 : S_.BroadcastsInDim S8192x1024 (![] : Fin 0 → Fin S8192x1024.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  bcast_S8192x1_S8192x1024_0_1 : S8192x1.BroadcastsInDim S8192x1024 (![0, 1] : Fin 2 → Fin S8192x1024.rank)
  bcast_S1x1024_S1024x1024_0_1 : S1x1024.BroadcastsInDim S1024x1024 (![0, 1] : Fin 2 → Fin S1024x1024.rank)
  bcast_S_S1024x1024 : S_.BroadcastsInDim S1024x1024 (![] : Fin 0 → Fin S1024x1024.rank)
  bcast_S1x1_S1024x1_0_1 : S1x1.BroadcastsInDim S1024x1 (![0, 1] : Fin 2 → Fin S1024x1.rank)
  transposes_S1024x32_S32x1024_1_0 : S1024x32.Transposes [1, 0] S32x1024
  bcast_S1x1024_S32x1024_0_1 : S1x1024.BroadcastsInDim S32x1024 (![0, 1] : Fin 2 → Fin S32x1024.rank)
  bcast_S_S32x1024 : S_.BroadcastsInDim S32x1024 (![] : Fin 0 → Fin S32x1024.rank)
  bcast_S_S16384 : S_.BroadcastsInDim S16384 (![] : Fin 0 → Fin S16384.rank)
  bcast_S16384_S16384x1_0 : S16384.BroadcastsInDim S16384x1 (![0] : Fin 1 → Fin S16384x1.rank)
  concatenates_S16384x1024_S16384x1024_S16384x1024_S16384x3072_d1 : Shape.Concatenates [S16384x1024, S16384x1024, S16384x1024] S16384x3072 1
  bcast_S1x1024_S16384x1024_0_1 : S1x1024.BroadcastsInDim S16384x1024 (![0, 1] : Fin 2 → Fin S16384x1024.rank)
  bcast_S_S16384x1024 : S_.BroadcastsInDim S16384x1024 (![] : Fin 0 → Fin S16384x1024.rank)
  bcast_S1x1_S16384x1_0_1 : S1x1.BroadcastsInDim S16384x1 (![0, 1] : Fin 2 → Fin S16384x1.rank)
  transposes_S16384x32_S32x16384_1_0 : S16384x32.Transposes [1, 0] S32x16384
  shapeCasts_S16384x1_S1x16384 : S16384x1.ShapeCasts S1x16384
  bcast_S1x16384_S32x16384_0_1 : S1x16384.BroadcastsInDim S32x16384 (![0, 1] : Fin 2 → Fin S32x16384.rank)
  dot_S1024x8192_S8192x1024_S1024x1024_1_0_0_1_n_n_wf : DotDims.WF S1024x8192 S8192x1024 S1024x1024 [1] [0] [0] [1] [] []
  dot_S8192x1024_S1024x1024_S8192x1024_1_0_0_1_n_n_wf : DotDims.WF S8192x1024 S1024x1024 S8192x1024 [1] [0] [0] [1] [] []
  dot_S8192x2048_S2048x1024_S8192x1024_1_0_0_1_n_n_wf : DotDims.WF S8192x2048 S2048x1024 S8192x1024 [1] [0] [0] [1] [] []
  dot_S8192x1024_S1024x1_S8192x1_1_0_0_1_n_n_wf : DotDims.WF S8192x1024 S1024x1 S8192x1 [1] [0] [0] [1] [] []
  dot_S1024x8192_S8192x1_S1024x1_1_0_0_1_n_n_wf : DotDims.WF S1024x8192 S8192x1 S1024x1 [1] [0] [0] [1] [] []
  dot_S1024x1024_S1024x1024_S1024x1024_1_0_0_1_n_n_wf : DotDims.WF S1024x1024 S1024x1024 S1024x1024 [1] [0] [0] [1] [] []
  dot_S1024x1024_S1024x1_S1024x1_1_0_0_1_n_n_wf : DotDims.WF S1024x1024 S1024x1 S1024x1 [1] [0] [0] [1] [] []
  dot_S32x1024_S1024x1_S32x1_1_0_0_1_n_n_wf : DotDims.WF S32x1024 S1024x1 S32x1 [1] [0] [0] [1] [] []
  dot_S1024x32_S32x1_S1024x1_1_0_0_1_n_n_wf : DotDims.WF S1024x32 S32x1 S1024x1 [1] [0] [0] [1] [] []
  dot_S32x1024_S1024x1024_S32x1024_1_0_0_1_n_n_wf : DotDims.WF S32x1024 S1024x1024 S32x1024 [1] [0] [0] [1] [] []
  dot_S16384x32_S32x1024_S16384x1024_1_0_0_1_n_n_wf : DotDims.WF S16384x32 S32x1024 S16384x1024 [1] [0] [0] [1] [] []
  gather_S1024x1024_S16384x1_S16384x1024_1_0_n_n_0_1_11024_wf : GatherDims.WF S1024x1024 S16384x1 S16384x1024 [1] [0] [] [0] [] 1 ![1, 1024]
  dot_S16384x3072_S3072x1024_S16384x1024_1_0_0_1_n_n_wf : DotDims.WF S16384x3072 S3072x1024 S16384x1024 [1] [0] [0] [1] [] []
  dot_S16384x1024_S1024x1_S16384x1_1_0_0_1_n_n_wf : DotDims.WF S16384x1024 S1024x1 S16384x1 [1] [0] [0] [1] [] []
  dot_S32x16384_S16384x1_S32x1_1_0_0_1_n_n_wf : DotDims.WF S32x16384 S16384x1 S32x1 [1] [0] [0] [1] [] []
  dot_S16384x32_S32x1_S16384x1_1_0_0_1_n_n_wf : DotDims.WF S16384x32 S32x1 S16384x1 [1] [0] [0] [1] [] []

variable [Facts₀]

def dot_S1024x8192_S8192x1024_S1024x1024_1_0_0_1_n_n : DotDims S1024x8192 S8192x1024 S1024x1024 where
  lhsContracting := [1]
  rhsContracting := [0]
  lhsNonContracting := [0]
  rhsNonContracting := [1]
  lhsBatch := []
  rhsBatch := []
  wf := dot_S1024x8192_S8192x1024_S1024x1024_1_0_0_1_n_n_wf
def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf
def dot_S8192x2048_S2048x1024_S8192x1024_1_0_0_1_n_n : DotDims S8192x2048 S2048x1024 S8192x1024 where
  lhsContracting := [1]
  rhsContracting := [0]
  lhsNonContracting := [0]
  rhsNonContracting := [1]
  lhsBatch := []
  rhsBatch := []
  wf := dot_S8192x2048_S2048x1024_S8192x1024_1_0_0_1_n_n_wf
def dot_S8192x1024_S1024x1_S8192x1_1_0_0_1_n_n : DotDims S8192x1024 S1024x1 S8192x1 where
  lhsContracting := [1]
  rhsContracting := [0]
  lhsNonContracting := [0]
  rhsNonContracting := [1]
  lhsBatch := []
  rhsBatch := []
  wf := dot_S8192x1024_S1024x1_S8192x1_1_0_0_1_n_n_wf
def dot_S1024x8192_S8192x1_S1024x1_1_0_0_1_n_n : DotDims S1024x8192 S8192x1 S1024x1 where
  lhsContracting := [1]
  rhsContracting := [0]
  lhsNonContracting := [0]
  rhsNonContracting := [1]
  lhsBatch := []
  rhsBatch := []
  wf := dot_S1024x8192_S8192x1_S1024x1_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x1_S1024x1_1_0_0_1_n_n : DotDims S1024x1024 S1024x1 S1024x1 where
  lhsContracting := [1]
  rhsContracting := [0]
  lhsNonContracting := [0]
  rhsNonContracting := [1]
  lhsBatch := []
  rhsBatch := []
  wf := dot_S1024x1024_S1024x1_S1024x1_1_0_0_1_n_n_wf
def dot_S32x1024_S1024x1_S32x1_1_0_0_1_n_n : DotDims S32x1024 S1024x1 S32x1 where
  lhsContracting := [1]
  rhsContracting := [0]
  lhsNonContracting := [0]
  rhsNonContracting := [1]
  lhsBatch := []
  rhsBatch := []
  wf := dot_S32x1024_S1024x1_S32x1_1_0_0_1_n_n_wf
def dot_S1024x32_S32x1_S1024x1_1_0_0_1_n_n : DotDims S1024x32 S32x1 S1024x1 where
  lhsContracting := [1]
  rhsContracting := [0]
  lhsNonContracting := [0]
  rhsNonContracting := [1]
  lhsBatch := []
  rhsBatch := []
  wf := dot_S1024x32_S32x1_S1024x1_1_0_0_1_n_n_wf
def dot_S32x1024_S1024x1024_S32x1024_1_0_0_1_n_n : DotDims S32x1024 S1024x1024 S32x1024 where
  lhsContracting := [1]
  rhsContracting := [0]
  lhsNonContracting := [0]
  rhsNonContracting := [1]
  lhsBatch := []
  rhsBatch := []
  wf := dot_S32x1024_S1024x1024_S32x1024_1_0_0_1_n_n_wf
def dot_S16384x32_S32x1024_S16384x1024_1_0_0_1_n_n : DotDims S16384x32 S32x1024 S16384x1024 where
  lhsContracting := [1]
  rhsContracting := [0]
  lhsNonContracting := [0]
  rhsNonContracting := [1]
  lhsBatch := []
  rhsBatch := []
  wf := dot_S16384x32_S32x1024_S16384x1024_1_0_0_1_n_n_wf
def gather_S1024x1024_S16384x1_S16384x1024_1_0_n_n_0_1_11024 : GatherDims S1024x1024 S16384x1 S16384x1024 where
  offsetDims := [1]
  collapsedSliceDims := [0]
  operandBatchingDims := []
  startIndicesBatchingDims := []
  startIndexMap := [0]
  indexVectorDim := 1
  sliceSizes := ![1, 1024]
  wf := gather_S1024x1024_S16384x1_S16384x1024_1_0_n_n_0_1_11024_wf
def dot_S16384x3072_S3072x1024_S16384x1024_1_0_0_1_n_n : DotDims S16384x3072 S3072x1024 S16384x1024 where
  lhsContracting := [1]
  rhsContracting := [0]
  lhsNonContracting := [0]
  rhsNonContracting := [1]
  lhsBatch := []
  rhsBatch := []
  wf := dot_S16384x3072_S3072x1024_S16384x1024_1_0_0_1_n_n_wf
def dot_S16384x1024_S1024x1_S16384x1_1_0_0_1_n_n : DotDims S16384x1024 S1024x1 S16384x1 where
  lhsContracting := [1]
  rhsContracting := [0]
  lhsNonContracting := [0]
  rhsNonContracting := [1]
  lhsBatch := []
  rhsBatch := []
  wf := dot_S16384x1024_S1024x1_S16384x1_1_0_0_1_n_n_wf
def dot_S32x16384_S16384x1_S32x1_1_0_0_1_n_n : DotDims S32x16384 S16384x1 S32x1 where
  lhsContracting := [1]
  rhsContracting := [0]
  lhsNonContracting := [0]
  rhsNonContracting := [1]
  lhsBatch := []
  rhsBatch := []
  wf := dot_S32x16384_S16384x1_S32x1_1_0_0_1_n_n_wf
def dot_S16384x32_S32x1_S16384x1_1_0_0_1_n_n : DotDims S16384x32 S32x1 S16384x1 where
  lhsContracting := [1]
  rhsContracting := [0]
  lhsNonContracting := [0]
  rhsNonContracting := [1]
  lhsBatch := []
  rhsBatch := []
  wf := dot_S16384x32_S32x1_S16384x1_1_0_0_1_n_n_wf

class Facts : Prop extends Facts₀ where

variable [Facts]
-- ==== Proof.K.Region0.lean ====
import proofs.«418604_j2156073583116_1_alg».proof.Proof.Gen.Kernel.Launch
import proofs.«418604_j2156073583116_1_alg».proof.Proof.Gen.Kernel.Skeleton
import proofs.«418604_j2156073583116_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def acc0 (c : Dev nD) : (n : ℕ) → n < cfg0.N → Vec F S1024x1024 .f32
  | 0, h => k0_pay2 (iblk0 V c 0 ⟨0, h⟩) (iblk0 V c 1 ⟨0, h⟩) (k0_pay1 (F := F))
  | n + 1, h => k0_pay2 (iblk0 V c 0 ⟨n + 1, h⟩) (iblk0 V c 1 ⟨n + 1, h⟩) (acc0 c n (Nat.lt_of_succ_lt h))

abbrev scM0 : Memref sig .tc .vmem S1024x1024 .f32 := Memref.whole cc0_scratch0

def PhiS0 (c : Dev nD) : (n : ℕ) → n ≤ cfg0.N → sProp 𝕄
  | 0, _ => Pipeline.ΦA spec0 c
  | n + 1, hn => iprop(owns (c : Thread nD τ) scM0 fullShare (acc0 V c n hn)
      ∗ Pipeline.scopedRestBut (Ix := Unit) (Name := ℕ) (U := UR sig nD τ) (Lvl := ℕ) (Val := Elt F) spec0 c [cc0_scratch0]
      ∗ (∃ r, prngReg c r))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay3 (acc0 V c t.val t.isLt) (iblk0 V c 2 t)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem owed0 (c : Dev nD) (t : Fin (cfg0.N + 1)) : (dat0 V c).owed t = 0 := rfl
theorem q0 (c : Dev nD) (w : Fin cfg0.W) : (dat0 V c).q w = fullShare := rfl

abbrev cond0_0 (i : grid0.Coords) : Prop := (Scalar.cmpi .ne (Scalar.extui (Scalar.cmpi .eq (BitVec.ofNat 32 (i 0).val) 0#32)) 0#32) = 1#1
abbrev cond0_1 (i : grid0.Coords) : Prop := k0_cond2 i = 1#1
theorem hcond0 : ∀ t : Fin cfg0.N, (cond0_0 (grid0.coords t) ↔ t.val = 0) ∧ (cond0_1 (grid0.coords t) ↔ t.val = 3) := by
  decide +kernel

theorem hz0 : (![0, 0] : Fin 2 → Nat) = fun _ => 0 := funext fun a => by fin_cases a <;> rfl

theorem cover0 {S : Shape} {e : EltTy} {off : Fin S.rank → Nat} (h : off = fun _ => 0)
    (inb : ∀ a, off a + S.size a ≤ S.size a) (w : S.Idx → Elt F e) (L : List (View.Piece (Elt F) S e)) (y : S.Idx) :
    ∃ pc ∈ ((⟨Rect.unit off S.size inb, w⟩ : View.Piece (Elt F) S e) :: L), y ∈ pc.1.set :=
  ⟨_, List.mem_cons_self, View.mem_set_unit_zero h inb y⟩

set_option maxHeartbeats 4000000 in
/-- The body at any point: the reset where taken zeroes the scratch, the product is added to it, and the store where taken leaves the output at that sum scaled and rounded. -/
theorem sound_kernel0 (c : Dev nD) (E : Set ℕ) (i : grid0.Coords)
    (arg1 : Memref sig .tc .vmem S2048x1024 .bf16) (harg1 : arg1.IsWhole) (arg2 : Memref sig .tc .vmem S2048x1024 .bf16) (harg2 : arg2.IsWhole)
    (arg3 : Memref sig .tc .vmem S1024x1 .f32) (harg3 : arg3.IsWhole) (arg4 : Memref sig .tc .vmem S1024x1024 .bf16) (harg4 : arg4.IsWhole)
    (arg5 : Memref sig .tc .vmem S1024x1024 .f32) (harg5 : arg5.IsWhole) (hx : cond0_0 i → ¬cond0_1 i)
    (x0 x1 : Vec F S2048x1024 .bf16) (x2 : Vec F S1024x1 .f32) (xo : Vec F S1024x1024 .bf16) (xs : Vec F S1024x1024 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare xo ∗ owns (c : Thread nD τ) arg5 fullShare xs
        ∗ (iprop(owns (c : Thread nD τ) arg1 fullShare x0 ∗ owns (c : Thread nD τ) arg2 fullShare x1 ∗ owns (c : Thread nD τ) arg3 fullShare x2
            ∗ owns (c : Thread nD τ) arg4 fullShare (if cond0_1 i then k0_pay3 (k0_pay2 x0 x1 (if cond0_0 i then k0_pay1 (F := F) else xs)) x2 else xo)
            ∗ owns (c : Thread nD τ) arg5 fullShare (k0_pay2 x0 x1 (if cond0_0 i then k0_pay1 (F := F) else xs))) -∗ K ⟨⟩))
      ⊢ wp frame (wpE (defs₀ (F := F)) Variants.none c none) E (cc0__all_means_kernel i arg1 harg1 arg2 harg2 arg3 harg3 arg4 harg4 arg5 harg5) K := by
  by_cases hc0 : cond0_0 i <;> by_cases hc1 : cond0_1 i
  · exact absurd hc1 (hx hc0)
  all_goals
    first | rw [if_pos hc0] | rw [if_neg hc0]
    first | rw [if_pos hc1] | rw [if_neg hc1]
    simp only [cc0__all_means_kernel_eq_skeleton]; unfold cc0__all_means_kernel_skel owns
    iintro ⟨⟨%f0, %h0, H0⟩, ⟨%f1, %h1, H1⟩, ⟨%f2, %h2, H2⟩, ⟨%fo, %ho, Ho⟩, ⟨%fs, %hs, HS⟩, Hk⟩
    subst h0 h1 h2 ho hs
    sl_exec (disch := first | exact hc0 | exact hc1)
    sl_step
    iapply Hk
    isplitl [H0]; swap; isplitl [H1]; swap; isplitl [H2]; swap; isplitl [Ho]
    all_goals
      iexists _; isplitr; swap; · iassumption
      ipureintro; sl_unfold_words
      first
      | rewrite [View.read_writes_eq_canon _ _ _ (cover0 hz0 _ _ _), View.canon_cons_unit_zero hz0]
        simp only [View.readCov_unit_zero (S := S1024x1024) _ hz0, View.readAt_eq_ld, View.ld_unit_zero (S := S2048x1024) hz0,
          View.ld_unit_zero (S := S1024x1024) hz0, View.ld_unit_zero (S := S1024x1) hz0]
      | rfl

theorem PhiA0_eq (c : Dev nD) :
    (Pipeline.ΦA spec0 c : sProp 𝕄)
      = iprop(iprop((∃ d, owns (c : Thread nD τ) scM0 fullShare d)
          ∗ Pipeline.scopedRestBut spec0 c [cc0_scratch0])
        ∗ (∃ r, prngReg c r)) := by
  unfold Pipeline.ΦA; rw [scopedRest0_split]; simp only [scM0, owns_whole]; try rfl

/-- Before point `t` the invariant holds the scratch at some `xs` from which the body's sum is `acc0` at `t`. -/
theorem PhiS0_open (c : Dev nD) : ∀ t : Fin cfg0.N, (dat0 V c).Φ t.castSucc ⊢ iprop(∃ xs, owns (c : Thread nD τ) scM0 fullShare xs
      ∗ Pipeline.scopedRestBut spec0 c [cc0_scratch0]
      ∗ (∃ r, prngReg c r)
      ∗ ⌜k0_pay2 (iblk0 V c 0 t) (iblk0 V c 1 t) (if cond0_0 (grid0.coords t) then k0_pay1 (F := F) else xs) = acc0 V c t.val t.isLt⌝)
  | ⟨0, h⟩ => by
    rw [show (dat0 V c).Φ (Fin.castSucc ⟨0, h⟩) = Pipeline.ΦA spec0 c from rfl, PhiA0_eq]
    iintro ⟨⟨⟨%d, HS⟩, Hr⟩, Hg⟩
    iexists d; iframe; ipureintro; rw [if_pos ((hcond0 ⟨0, h⟩).1.mpr rfl)]; rfl
  | ⟨n + 1, h⟩ => by
    rw [show (dat0 V c).Φ (Fin.castSucc ⟨n + 1, h⟩) = PhiS0 V c (n + 1) (Nat.le_of_lt h) from rfl]
    unfold PhiS0; iintro ⟨HS, Hr, Hg⟩
    iexists _; iframe; ipureintro; rw [if_neg fun hc => Nat.succ_ne_zero n ((hcond0 ⟨n + 1, h⟩).1.mp hc)]; rfl

theorem idle0 : ∀ t : Fin cfg0.N, (∀ w : Fin cfg0.W, w.val < 3 → cfg0.idle w (grid0.coords t) = false)
    ∧ (cond0_1 (grid0.coords t) → cfg0.idle 3 (grid0.coords t) = false)
    ∧ (¬cond0_1 (grid0.coords t) → cfg0.idle 3 (grid0.coords t) = true ∧ (cfg0.win 3).flush t = false) := by decide +kernel

theorem before0 (c : Dev nD) : ∀ w : Fin cfg0.W, w.val < 3 → ∀ t d, (dat0 V c).before w t d = (dat0 V c).after w t
  | ⟨0, _⟩, _ | ⟨1, _⟩, _ | ⟨2, _⟩, _ => fun t d =>
    ((dat0 V c).before_in_eq_fetched _ rfl (fun _ => rfl) (fun _ _ _ => rfl)
      (fun t => by unfold Dat.blockOf; dsimp only [dat0, iblk0]; try rfl) t d).trans
      (by unfold Dat.fetched Dat.blockOf; dsimp only [dat0, iblk0]; try rfl)
  | ⟨3, _⟩, h => absurd h (Nat.lt_irrefl 3)

theorem leaves0_3 (c : Dev nD) (t : Fin cfg0.N) (d) :
    owns (c : Thread nD τ) ((cfg0.win 3).stage (cfg0.slots t 3)) fullShare
        (if cond0_1 (grid0.coords t) then k0_pay3 (acc0 V c t.val t.isLt) (iblk0 V c 2 t) else (dat0 V c).before 3 t d)
      ⊢ (dat0 V c).leavesExact 3 t := by
  by_cases hc1 : cond0_1 (grid0.coords t)
  · rw [if_pos hc1]; unfold Dat.leavesExact; rw [(idle0 t).2.1 hc1]; dsimp only [dat0]; exact .rfl
  · rw [if_neg hc1, Dat.leavesExact_idle _ 3 t ((idle0 t).2.2 hc1).1 ((idle0 t).2.2 hc1).2]
    iintro H; iexists d; iexact H

theorem hin0 (c : Dev nD) :
    (iprop((∃ r, prngReg c r) ∗ Pipeline.prefHeld (pcfgs (F := F) 0).pre c (fun _ => fullShare) ((cfgs 0).toPCfg_adm (Val := Elt F)).1 ∗ Pipeline.scopedRest spec0 c) : sProp 𝕄)
      ⊢ (dat0 V c).Φ 0 := by
  rw [show (dat0 V c).Φ 0 = Pipeline.ΦA spec0 c from rfl]; unfold Pipeline.ΦA
  iintro ⟨Hp, -, Hr⟩
  iframe

theorem PhiS0_out (c : Dev nD) : ∀ n h, PhiS0 V c n h ⊢ Pipeline.ΦA spec0 c
  | 0, _ => .rfl
  | n + 1, _ => by
    rw [PhiA0_eq]; unfold PhiS0; iintro ⟨HS, Hr, Hg⟩
    iframe; iexists _; iexact HS

theorem hout0 (c : Dev nD) :
    (dat0 V c).Φ (Fin.last cfg0.N)
      ⊢ iprop((∃ r, prngReg c r) ∗ Pipeline.ownSems0 (fun k : PEmpty => k.elim) c
          ∗ Pipeline.scopedRest (Ix := Unit) (Name := ℕ) (U := UR sig nD τ) (Lvl := ℕ) (Val := Elt F) spec0 c) := by
  rw [Pipeline.ownSems0_none, show (dat0 V c).Φ (Fin.last cfg0.N) = PhiS0 V c _ (Nat.le_of_lt_succ (Fin.last cfg0.N).isLt) from rfl]
  refine (PhiS0_out V c _ _).trans ?_; unfold Pipeline.ΦA
  iintro ⟨Hr, Hg⟩
  iframe; iempintro

theorem body_obligation0 (c : Dev nD) : BodyObligation (dat0 (F := F) V c) (defs₀ (F := F)) Variants.none () Set.univ := fun t => by
  rw [bigSep_W0, bigSep_W0]
  show _ ⊢ wp _ _ _ (bodyAt0 t) _
  unfold bodyAt0
  simp only [before0 V c 0 (by decide), before0 V c 1 (by decide), before0 V c 2 (by decide),
    (idle0 t).1 0 (by decide), (idle0 t).1 1 (by decide), (idle0 t).1 2 (by decide)]
  rw [show (dat0 V c).after 0 t = iblk0 V c 0 t from rfl, show (dat0 V c).after 1 t = iblk0 V c 1 t from rfl,
    show (dat0 V c).after 2 t = iblk0 V c 2 t from rfl,
    show (dat0 V c).owesAt () t.succ = (dat0 V c).owesAt () t.castSucc from rfl,
    show (dat0 V c).Φ t.succ = iprop(owns (c : Thread nD τ) scM0 fullShare (acc0 V c t.val t.isLt)
      ∗ Pipeline.scopedRestBut spec0 c [cc0_scratch0]
      ∗ (∃ r, prngReg c r)) from rfl]
  iintro ⟨HΦ, Ho, ⟨%d0, H0⟩, ⟨%d1, H1⟩, ⟨%d2, H2⟩, ⟨%d3, H3⟩⟩
  icases PhiS0_open V c t $$ HΦ with ⟨%xs, HS, Hr, Hg, %hacc⟩
  iapply (sound_kernel0 c Set.univ (grid0.coords t) _ _ _ _ _ _ _ _ _ _
    (fun h0 h1 => by have := (hcond0 t).1.mp h0; have := (hcond0 t).2.mp h1; omega)
    (iblk0 V c 0 t) (iblk0 V c 1 t) (iblk0 V c 2 t) ((dat0 V c).before 3 t d3) xs _)
  iframe H0 H1 H2 H3 HS
  iintro ⟨H0, H1, H2, H3, HS⟩
  rw [hacc]
  iframe
  iapply leaves0_3 V c t d3 $$ H3

end Region0

end Cert.Kernel.Hand

end
-- ==== Proof.K.Region1.lean ====
import proofs.«418604_j2156073583116_1_alg».proof.Proof.Gen.Kernel.Launch
import proofs.«418604_j2156073583116_1_alg».proof.Proof.Gen.Kernel.Skeleton
import proofs.«418604_j2156073583116_1_alg».proof.Proof.Gen.Kernel.Points
import Idealize.ShloMosaic.Lib.Pipeline.FrameBody
import Idealize.ShloMosaic.Lib.Pipeline.TableIdle
import Idealize.ShloMosaic.Lib.Ring

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

section Generic

variable {F : FTy → Type} [FloatOps F]

variable (V : (c : Dev nD) → (b : Ref sig .tc) → Buf (Elt F) ((c : Thread nD τ).loc b))

def iblk1 (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

abbrev rP : Rect S2048x1024 := Rect.unit (s := S2048x1024) ![0, 0] S2048x1024.size inb_S2048x1024_S2048x1024_0_0
abbrev rM : Rect S1024x1024 := Rect.unit (s := S1024x1024) ![0, 0] S1024x1024.size inb_S1024x1024_S1024x1024_0_0

-- The stored block: the matrix product x0 · x1, rounded to bf16.
def out1_2 (x0 : Vec F S2048x1024 .bf16) (x1 : Vec F S1024x1024 .bf16) : Vec F S2048x1024 .bf16 :=
  View.canon [⟨rP, k1_pay1 (View.ld x0 rP) (View.ld x1 rM)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem owed1 (c : Dev nD) (t) : (dat1 V c).owed t = 0 := rfl
theorem q1 (c : Dev nD) (w) : (dat1 V c).q w = fullShare := rfl
theorem Phi1 (c : Dev nD) (t) : (dat1 V c).Φ t = Pipeline.ΦA spec1 c := rfl
theorem after1_2 (c : Dev nD) (t : Fin cfg1.N) :
    (dat1 V c).after 2 t = out1_2 (iblk1 V c 0 t) (iblk1 V c 1 t) := by dsimp only [dat1]

theorem before1 (c : Dev nD) (t : Fin cfg1.N) :
    (∀ d, (dat1 V c).before 0 t d = iblk1 V c 0 t) ∧ (∀ d, (dat1 V c).before 1 t d = iblk1 V c 1 t) := by
  refine ⟨?_, ?_⟩ <;> exact fun d => ((dat1 V c).before_in_eq_fetched _ rfl (fun _ => rfl) (fun _ _ _ => rfl)
    (fun _ => by dsimp only [dat1]; rfl) t d).trans (by unfold Dat.fetched Dat.blockOf iblk1; dsimp only [dat1]; rfl)

theorem body_obligation1 (c : Dev nD) :
    BodyObligation (dat1 (F := F) V c) (defs₀ (F := F)) Variants.none () Set.univ := fun t => by
  rw [bigSep_W1, bigSep_W1]
  show _ ⊢ wp frame _ Set.univ (bodyAt1 t) _
  obtain ⟨b0, b1⟩ := before1 V c t
  unfold bodyAt1
  simp only [b0, b1, cc1__tile_means_kernel_eq_skeleton, owns_eq_rep]; dsimp only [dat1]; unfold cc1__tile_means_kernel_skel
  iintro ⟨HΦ, Ho, ⟨%_, H0⟩, ⟨%_, H1⟩, ⟨%_, H2⟩⟩
  sl_exec
  sl_step
  iframe
  isplitl [Ho]; · iexact Ho
  rw [← owns_eq_rep]; unfold owns
  iexists _; isplitr
  swap; · iexact H2
  ipureintro
  sl_unfold_run_names
  simp only [View.readAt_rep]
  exact View.read_writes_eq_canon _ _ _ (View.cover_of_tiled _ S2048x1024.size (by rfl))

end Generic

end Cert.Kernel.Hand

end
-- ==== Proof.K.Region2.lean ====
import proofs.«418604_j2156073583116_1_alg».proof.Proof.Gen.Kernel.Launch
import proofs.«418604_j2156073583116_1_alg».proof.Proof.Gen.Kernel.Skeleton
import proofs.«418604_j2156073583116_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.TableIdle
import Idealize.ShloMosaic.Lib.Ring

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

section Region2
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rM2 : Rect S1024x1024 := Rect.unit (s := S1024x1024) ![0, 0] S1024x1024.size inb_S1024x1024_S1024x1024_0_0
abbrev rB2 : Rect S1x1024 := Rect.unit (s := S1x1024) ![0, 0] S1x1024.size inb_S1x1024_S1x1024_0_0

-- The stored block: max(x0 · x2 + x1 · x3 + b, 0), with b the row x4 repeated down the rows.
def out2_5 (x0 x1 x2 x3 : Vec F S1024x1024 .bf16) (x4 : Vec F S1x1024 .f32) : Vec F S1024x1024 .f32 :=
  View.canon [⟨rM2, k2_pay1 (View.ld x0 rM2) (View.ld x1 rM2) (View.ld x2 rM2) (View.ld x3 rM2) (View.ld x4 rB2)⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem owed2 (c : Dev nD) (t) : (dat2 V c).owed t = 0 := rfl
theorem q2 (c : Dev nD) (w) : (dat2 V c).q w = fullShare := rfl
theorem Phi2 (c : Dev nD) (t) : (dat2 V c).Φ t = Pipeline.ΦA spec2 c := rfl
theorem after2_5 (c : Dev nD) (t : Fin cfg2.N) : (dat2 V c).after 5 t
    = out2_5 (iblk2 V c 0 t) (iblk2 V c 1 t) (iblk2 V c 2 t) (iblk2 V c 3 t) (iblk2 V c 4 t) := by dsimp only [dat2]

theorem before2 (c : Dev nD) (t : Fin cfg2.N) :
    (∀ d, (dat2 V c).before 0 t d = iblk2 V c 0 t) ∧ (∀ d, (dat2 V c).before 1 t d = iblk2 V c 1 t)
    ∧ (∀ d, (dat2 V c).before 2 t d = iblk2 V c 2 t) ∧ (∀ d, (dat2 V c).before 3 t d = iblk2 V c 3 t)
    ∧ (∀ d, (dat2 V c).before 4 t d = iblk2 V c 4 t) := by
  refine ⟨?_, ?_, ?_, ?_, ?_⟩ <;> exact fun d => ((dat2 V c).before_in_eq_fetched _ rfl (fun _ => rfl) (fun _ _ _ => rfl)
    (fun _ => by dsimp only [dat2]; rfl) t d).trans (by unfold Dat.fetched Dat.blockOf iblk2; dsimp only [dat2]; rfl)

theorem body_obligation2 (c : Dev nD) : BodyObligation (dat2 (F := F) V c) (defs₀ (F := F)) Variants.none () Set.univ := fun t => by
  rw [bigSep_W2, bigSep_W2]
  show _ ⊢ wp frame _ Set.univ (bodyAt2 t) _
  obtain ⟨b0, b1, b2, b3, b4⟩ := before2 V c t
  unfold bodyAt2
  simp only [b0, b1, b2, b3, b4, cc2__hidden_kernel_eq_skeleton, owns_eq_rep]; dsimp only [dat2]; unfold cc2__hidden_kernel_skel
  iintro ⟨HΦ, Ho, ⟨%_, H0⟩, ⟨%_, H1⟩, ⟨%_, H2⟩, ⟨%_, H3⟩, ⟨%_, H4⟩, ⟨%_, H5⟩⟩
  sl_exec
  sl_step
  iframe
  isplitl [Ho]; · iexact Ho
  rw [← owns_eq_rep]; unfold owns
  iexists _; isplitr
  swap; · iexact H5
  ipureintro
  sl_unfold_run_names
  simp only [View.readAt_rep]
  exact View.read_writes_eq_canon _ _ _ (View.cover_of_tiled _ S1024x1024.size (by rfl))

end Region2

end Cert.Kernel.Hand

end
-- ==== Proof.K.Region3.lean ====
import proofs.«418604_j2156073583116_1_alg».proof.Proof.Gen.Kernel.Launch
import proofs.«418604_j2156073583116_1_alg».proof.Proof.Gen.Kernel.Skeleton
import proofs.«418604_j2156073583116_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Generic

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3S : Rect S1024x1024 := Rect.unit (s := S1024x1024) ![0, 0] S1024x1024.size inb_S1024x1024_S1024x1024_0_0
abbrev r3A : Rect S2048x1024 := Rect.unit (s := S2048x1024) ![0, 0] S2048x1024.size inb_S2048x1024_S2048x1024_0_0
abbrev r3G : Rect S2048x1 := Rect.unit (s := S2048x1) ![0, 0] S2048x1.size inb_S2048x1_S2048x1_0_0

abbrev scM3 : Memref sig .tc .vmem S1024x1024 .f32 := Memref.whole cc3_scratch0

def reset3 : Vec F S1024x1024 .f32 :=
  View.canon [⟨r3S, k3_pay1 (F := F)⟩]

def step3 (x0 x1 : Vec F S2048x1024 .bf16) (x2 : Vec F S2048x1 .f32) (s : Vec F S1024x1024 .f32) : Vec F S1024x1024 .f32 :=
  View.canon [⟨r3S, k3_pay2 (View.ld x0 r3A) (View.ld x1 r3A) (View.ld x2 r3G) (View.ld s r3S)⟩]

def out3 (s : Vec F S1024x1024 .f32) : Vec F S1024x1024 .f32 :=
  View.canon [⟨r3S, View.ld s r3S⟩]

def acc3 (c : Dev nD) : (n : ℕ) → n < cfg3.N → Vec F S1024x1024 .f32
  | 0, hn => step3 (iblk3 V c 0 ⟨0, hn⟩) (iblk3 V c 1 ⟨0, hn⟩) (iblk3 V c 2 ⟨0, hn⟩) reset3
  | n + 1, hn => step3 (iblk3 V c 0 ⟨n + 1, hn⟩) (iblk3 V c 1 ⟨n + 1, hn⟩) (iblk3 V c 2 ⟨n + 1, hn⟩) (acc3 c n (Nat.lt_of_succ_lt hn))

def rest3 (c : Dev nD) : sProp 𝕄 :=
  iprop(Pipeline.scopedRestBut (Ix := Unit) (Name := ℕ) (U := UR sig nD τ) (Lvl := ℕ) (Val := Elt F) spec3 c [cc3_scratch0] ∗ ∃ r, prngReg c r)

/-- The invariant: past the first point the scratch holds the sum the point before left. -/
def Phi3 (c : Dev nD) : (n : ℕ) → n ≤ cfg3.N → sProp 𝕄
  | 0, _ => Pipeline.ΦA spec3 c
  | n + 1, hn => iprop(owns c scM3 fullShare (acc3 V c n hn) ∗ rest3 c)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3 (acc3 V c t.val t.isLt)
  Φ t := Phi3 V c t.val (Nat.le_of_lt_succ t.isLt)
  q _ := fullShare
  owed _ := 0

theorem A_eq3 (c : Dev nD) (w : Fin cfg3.W) : (dat3 V c).A w = V c (Pipeline.arrRef spec3 w) := rfl

theorem owed3 (c : Dev nD) (t : Fin (cfg3.N + 1)) : (dat3 V c).owed t = 0 := rfl

theorem q3 (c : Dev nD) (w : Fin cfg3.W) : (dat3 V c).q w = fullShare := rfl

theorem after3_3 (c : Dev nD) (t : Fin cfg3.N) : (dat3 V c).after 3 t = out3 (acc3 V c t.val t.isLt) := by dsimp only [dat3]

/-- Before a point the scratch is at some s; this point's sum adds its block to the cleared scratch at the first point, to s later. -/
theorem Phi3_elim (c : Dev nD) (t : Fin cfg3.N) :
    (dat3 V c).Φ t.castSucc ⊢ iprop(∃ s, ⌜acc3 V c t.val t.isLt
        = step3 ((dat3 V c).after 0 t) ((dat3 V c).after 1 t) ((dat3 V c).after 2 t) (if t.val = 0 then reset3 else s)⌝
      ∗ owns c scM3 fullShare s ∗ rest3 c) := by
  obtain ⟨_ | n, hn⟩ := t
  · show Pipeline.ΦA spec3 c ⊢ _
    unfold Pipeline.ΦA rest3; rw [scopedRest3_split]; simp only [scM3, owns_whole, if_true]
    iintro ⟨⟨⟨%s, HS⟩, Hrest⟩, Hg⟩
    iexists s; isplitr; · ipureintro; rfl
    iframe
  · show iprop(owns (c : Thread nD τ) scM3 fullShare (acc3 V c n (Nat.lt_of_succ_lt hn)) ∗ rest3 c) ⊢ _
    iintro H
    iexists acc3 V c n (Nat.lt_of_succ_lt hn); isplitr; · ipureintro; rw [if_neg (Nat.succ_ne_zero n)]; rfl
    iexact H

theorem before3 (c : Dev nD) (t : Fin cfg3.N) : (∀ d, (dat3 V c).before 0 t d = (dat3 V c).after 0 t)
    ∧ (∀ d, (dat3 V c).before 1 t d = (dat3 V c).after 1 t) ∧ ∀ d, (dat3 V c).before 2 t d = (dat3 V c).after 2 t := by
  refine ⟨fun d => ?_, fun d => ?_, fun d => ?_⟩ <;>
    exact ((dat3 V c).before_in_eq_fetched _ rfl (fun _ => rfl) (fun _ _ _ => rfl) (fun _ => rfl) t d).trans rfl

theorem hz3 : (![0, 0] : Fin 2 → Nat) = fun _ => 0 := funext fun a => by fin_cases a <;> rfl

theorem cover3_head (p : r3S.shape.Idx → Elt F .f32) (L : List (View.Piece (Elt F) S1024x1024 .f32)) (y : S1024x1024.Idx) :
    ∃ pc ∈ ((⟨r3S, p⟩ : View.Piece (Elt F) S1024x1024 .f32) :: L), y ∈ pc.1.set :=
  ⟨_, List.mem_cons_self, View.mem_set_unit_zero hz3 inb_S1024x1024_S1024x1024_0_0 y⟩

abbrev cond3_0 (i : grid3.Coords) : Prop := (Scalar.cmpi .ne (Scalar.extui (Scalar.cmpi .eq (BitVec.ofNat 32 (i 0).val) 0#32)) 0#32) = 1#1
abbrev cond3_1 (i : grid3.Coords) : Prop := k3_cond2 i = 1#1

/-- The body clears the scratch at the first point only and copies it out at the last only. -/
theorem hcond3 : ∀ t : Fin cfg3.N, (cond3_0 (grid3.coords t) ↔ t.val = 0) ∧ (cond3_1 (grid3.coords t) ↔ t.val = 3) := by
  decide +kernel

theorem idle3 : ∀ t : Fin cfg3.N, (∀ w : Fin cfg3.W, w ≠ 3 → cfg3.idle w (grid3.coords t) = false)
    ∧ (t.val = 3 → cfg3.idle 3 (grid3.coords t) = false)
    ∧ (t.val ≠ 3 → cfg3.idle 3 (grid3.coords t) = true ∧ (cfg3.win 3).flush t = false) := by decide +kernel

def Case3 (i : grid3.Coords) (x0 x1 : Vec F S2048x1024 .bf16) (x2 : Vec F S2048x1 .f32) (o s a o' : Vec F S1024x1024 .f32) : Prop :=
  cond3_0 i ∧ ¬cond3_1 i ∧ a = step3 x0 x1 x2 reset3 ∧ o' = o ∨ ¬cond3_0 i ∧ ¬cond3_1 i ∧ a = step3 x0 x1 x2 s ∧ o' = o
    ∨ ¬cond3_0 i ∧ cond3_1 i ∧ a = step3 x0 x1 x2 s ∧ o' = out3 a

/-- The body, once per case: its stores leave the scratch at this point's sum and, at the last point, the output buffer at the scratch. -/
theorem sound_kernel3 (c : Dev nD) (E : Set ℕ) (i : grid3.Coords)
    (arg1 : Memref sig .tc .vmem S2048x1024 .bf16) (harg1 : arg1.IsWhole) (arg2 : Memref sig .tc .vmem S2048x1024 .bf16) (harg2 : arg2.IsWhole)
    (arg3 : Memref sig .tc .vmem S2048x1 .f32) (harg3 : arg3.IsWhole) (arg4 : Memref sig .tc .vmem S1024x1024 .f32) (harg4 : arg4.IsWhole)
    (x0 x1 : Vec F S2048x1024 .bf16) (x2 : Vec F S2048x1 .f32) (o s a o' : Vec F S1024x1024 .f32) (K : PUnit → sProp 𝕄)
    (h : Case3 i x0 x1 x2 o s a o') :
    iprop(owns c scM3 fullShare s ∗ owns c arg4 fullShare o
        ∗ owns c arg1 fullShare x0 ∗ owns c arg2 fullShare x1 ∗ owns c arg3 fullShare x2
        ∗ (iprop(owns c scM3 fullShare a ∗ owns c arg4 fullShare o'
            ∗ owns c arg1 fullShare x0 ∗ owns c arg2 fullShare x1 ∗ owns c arg3 fullShare x2) -∗ K ⟨⟩))
      ⊢ wp frame (wpE (defs₀ (F := F)) Variants.none c none) E (cc3__cluster_in_kernel i arg1 harg1 arg2 harg2 arg3 harg3 arg4 harg4 scM3 (Memref.isWhole_whole _)) K := by
  simp only [cc3__cluster_in_kernel_eq_skeleton]; unfold cc3__cluster_in_kernel_skel owns
  iintro ⟨⟨%f5, %hf5, H5⟩, ⟨%f3, %hf3, H3⟩, ⟨%f0, %hf0, H0⟩, ⟨%f1, %hf1, H1⟩, ⟨%f2, %hf2, H2⟩, Hk⟩
  subst hf0 hf1 hf2 hf3 hf5
  rcases h with ⟨hc0, hc1, rfl, rfl⟩ | ⟨hc0, hc1, rfl, rfl⟩ | ⟨hc0, hc1, rfl, rfl⟩ <;>
  · sl_exec (disch := first | exact hc0 | exact hc1)
    sl_step
    iapply Hk
    isplitl [H5]
    on_goal 2 => isplitl [H3]
    on_goal 3 => sl_close
    all_goals
      iexists _; isplitr
      swap; · iassumption
      ipureintro
      sl_unfold_words
      simp only [step3, reset3, out3, View.read_writes_eq_canon _ _ _ (cover3_head _ _), View.canon_cons_unit_zero (S := S1024x1024) hz3,
        View.readCov_unit_zero (S := S1024x1024) _ hz3, View.readAt_eq_ld, View.ld_unit_zero (S := S2048x1024) hz3,
        View.ld_unit_zero (S := S2048x1) hz3, View.ld_unit_zero (S := S1024x1024) hz3]

/-- The position decides the case: the scratch ends at this point's sum, and only the last point changes the output buffer. -/
theorem case3 (c : Dev nD) (t : Fin cfg3.N) (s : Vec F S1024x1024 .f32) (d)
    (hs : acc3 V c t.val t.isLt = step3 ((dat3 V c).after 0 t) ((dat3 V c).after 1 t) ((dat3 V c).after 2 t) (if t.val = 0 then reset3 else s)) :
    ∃ o', Case3 (grid3.coords t) ((dat3 V c).after 0 t) ((dat3 V c).after 1 t) ((dat3 V c).after 2 t) ((dat3 V c).before 3 t d) s (acc3 V c t.val t.isLt) o'
      ∧ (owns c (st3_3 t) fullShare o' ⊢ (dat3 V c).leavesExact 3 t) := by
  obtain ⟨h0, h1⟩ := hcond3 t
  by_cases h3 : t.val = 3
  · refine ⟨out3 (acc3 V c t.val t.isLt), .inr (.inr ⟨fun h => by have := h0.mp h; omega, h1.mpr h3, by rw [hs, if_neg (by omega)], rfl⟩), ?_⟩
    unfold Dat.leavesExact; rw [(idle3 t).2.1 h3, after3_3]
  · refine ⟨(dat3 V c).before 3 t d, ?_, ?_⟩
    · by_cases hz : t.val = 0
      · exact .inl ⟨h0.mpr hz, fun h => h3 (h1.mp h), by rw [hs, if_pos hz], rfl⟩
      · exact .inr (.inl ⟨fun h => hz (h0.mp h), fun h => h3 (h1.mp h), by rw [hs, if_neg hz], rfl⟩)
    · rw [Dat.leavesExact_idle _ 3 t ((idle3 t).2.2 h3).1 ((idle3 t).2.2 h3).2]
      iintro H; iexists d; iexact H

theorem body_obligation3 (c : Dev nD) : BodyObligation (dat3 (F := F) V c) (defs₀ (F := F)) Variants.none () Set.univ := by
  intro t
  rw [bigSep_W3, bigSep_W3]
  show _ ⊢ wp _ _ _ (bodyAt3 t) _
  simp only [(before3 V c t).1, (before3 V c t).2.1, (before3 V c t).2.2, (idle3 t).1 0 (by decide), (idle3 t).1 1 (by decide), (idle3 t).1 2 (by decide)]
  rw [show (dat3 V c).owesAt () t.succ = (dat3 V c).owesAt () t.castSucc from rfl,
    show (dat3 V c).Φ t.succ = iprop(owns c scM3 fullShare (acc3 V c t.val t.isLt) ∗ rest3 c) from rfl]
  iintro ⟨HΦ, Ho, ⟨%d0, H0⟩, ⟨%d1, H1⟩, ⟨%d2, H2⟩, ⟨%d3, H3⟩⟩
  ihave HΦ' := (Phi3_elim V c t) $$ HΦ
  icases HΦ' with ⟨%s, %hs, HS, Hrest⟩
  obtain ⟨o', hcase, hout⟩ := case3 V c t s d3 hs
  iapply (sound_kernel3 c Set.univ (grid3.coords t) _ _ _ _ _ _ _ _ _ _ _ _ s _ o' _ hcase)
  iframe
  iintro ⟨HS, H3, H0, H1, H2⟩
  iframe
  iapply hout; iexact H3

theorem hin3 (c : Dev nD) :
    (iprop((∃ r, prngReg c r) ∗ Pipeline.prefHeld (pcfgs (F := F) 3).pre c (fun _ => fullShare) ((cfgs 3).toPCfg_adm (Val := Elt F)).1 ∗ Pipeline.scopedRest spec3 c) : sProp 𝕄)
      ⊢ (dat3 V c).Φ 0 := by
  rw [show (dat3 V c).Φ 0 = Pipeline.ΦA spec3 c from rfl]; unfold Pipeline.ΦA
  iintro ⟨Hp, -, Hr⟩
  iframe

theorem hout3 (c : Dev nD) :
    (dat3 V c).Φ (Fin.last cfg3.N)
      ⊢ (iprop((∃ r, prngReg c r) ∗ Pipeline.ownSems0 (fun k : PEmpty => k.elim) c ∗ Pipeline.scopedRest spec3 c) : sProp 𝕄) := by
  rw [Pipeline.ownSems0_none, scopedRest3_split]
  show iprop(owns (c : Thread nD τ) scM3 fullShare (acc3 V c 3 (by decide)) ∗ rest3 c) ⊢ _
  unfold rest3; simp only [scM3, owns_whole]
  iintro ⟨HS, Hrest, Hg⟩
  iframe Hg Hrest; isplitr; · iempintro
  iexists _; iexact HS

end Generic

end Cert.Kernel.Hand

end
-- ==== Proof.K.Region4.lean ====
import proofs.«418604_j2156073583116_1_alg».proof.Proof.Gen.Kernel.Launch
import proofs.«418604_j2156073583116_1_alg».proof.Proof.Gen.Kernel.Skeleton
import proofs.«418604_j2156073583116_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.TableIdle
import Idealize.ShloMosaic.Lib.Ring

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

section Region4
variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev rIdx4 : Rect S1024x1 := Rect.unit (s := S1024x1) ![0, 0] S1024x1.size inb_S1024x1_S1024x1_0_0
abbrev rFeat4 : Rect S1024x32 := Rect.unit (s := S1024x32) ![0, 0] S1024x32.size inb_S1024x32_S1024x32_0_0
abbrev rW04 : Rect S32x1024 := Rect.unit (s := S32x1024) ![0, 0] S32x1024.size inb_S32x1024_S32x1024_0_0
abbrev rSq4 : Rect S1024x1024 := Rect.unit (s := S1024x1024) ![0, 0] S1024x1024.size inb_S1024x1024_S1024x1024_0_0
abbrev rBias4 : Rect S1x1024 := Rect.unit (s := S1x1024) ![0, 0] S1x1024.size inb_S1x1024_S1x1024_0_0

-- The stored block: x2 · x3 + E0 · x4 + E1 · x5 + b, where Ek has a one where the column number equals the index xk and zeros elsewhere, and b is the row x6 repeated down the rows.
def out4_7 (x0 x1 : Vec F S1024x1 .i32) (x2 : Vec F S1024x32 .bf16) (x3 : Vec F S32x1024 .bf16)
    (x4 x5 : Vec F S1024x1024 .bf16) (x6 : Vec F S1x1024 .f32) : Vec F S1024x1024 .f32 :=
  View.canon [⟨rSq4, k4_pay1 (View.ld x0 rIdx4) (View.ld x1 rIdx4) (View.ld x2 rFeat4) (View.ld x3 rW04) (View.ld x4 rSq4) (View.ld x5 rSq4) (View.ld x6 rBias4)⟩]

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => out4_7 (iblk4 V c 0 t) (iblk4 V c 1 t) (iblk4 V c 2 t) (iblk4 V c 3 t) (iblk4 V c 4 t) (iblk4 V c 5 t) (iblk4 V c 6 t)
  Φ _ := Pipeline.ΦA spec4 c
  q _ := fullShare
  owed _ := 0

theorem A_eq4 (c : Dev nD) (w : Fin cfg4.W) : (dat4 V c).A w = V c (Pipeline.arrRef spec4 w) := by
  dsimp only [dat4]
theorem owed4 (c : Dev nD) (t : Fin (cfg4.N + 1)) : (dat4 V c).owed t = 0 := rfl
theorem q4 (c : Dev nD) (w : Fin cfg4.W) : (dat4 V c).q w = fullShare := rfl
theorem Phi4 (c : Dev nD) (t : Fin (cfg4.N + 1)) : (dat4 V c).Φ t = Pipeline.ΦA spec4 c := rfl
theorem after4_7 (c : Dev nD) (t : Fin cfg4.N) : (dat4 V c).after 7 t
    = out4_7 (iblk4 V c 0 t) (iblk4 V c 1 t) (iblk4 V c 2 t) (iblk4 V c 3 t) (iblk4 V c 4 t) (iblk4 V c 5 t) (iblk4 V c 6 t) := by dsimp only [dat4]

theorem before4 (c : Dev nD) (t : Fin cfg4.N) :
    (∀ d, (dat4 V c).before 0 t d = iblk4 V c 0 t) ∧ (∀ d, (dat4 V c).before 1 t d = iblk4 V c 1 t)
    ∧ (∀ d, (dat4 V c).before 2 t d = iblk4 V c 2 t) ∧ (∀ d, (dat4 V c).before 3 t d = iblk4 V c 3 t)
    ∧ (∀ d, (dat4 V c).before 4 t d = iblk4 V c 4 t) ∧ (∀ d, (dat4 V c).before 5 t d = iblk4 V c 5 t)
    ∧ (∀ d, (dat4 V c).before 6 t d = iblk4 V c 6 t) := by
  refine ⟨?_, ?_, ?_, ?_, ?_, ?_, ?_⟩ <;> exact fun d => ((dat4 V c).before_in_eq_fetched _ rfl (fun _ => rfl) (fun _ _ _ => rfl)
    (fun _ => by dsimp only [dat4]; rfl) t d).trans (by unfold Dat.fetched Dat.blockOf iblk4; dsimp only [dat4]; rfl)

theorem body_obligation4 (c : Dev nD) : BodyObligation (dat4 (F := F) V c) (defs₀ (F := F)) Variants.none () Set.univ := fun t => by
  rw [bigSep_W4, bigSep_W4]
  show _ ⊢ wp frame _ Set.univ (bodyAt4 t) _
  obtain ⟨b0, b1, b2, b3, b4, b5, b6⟩ := before4 V c t
  unfold bodyAt4
  simp only [b0, b1, b2, b3, b4, b5, b6, cc4__gather_action_kernel_eq_skeleton, owns_eq_rep]; dsimp only [dat4]; unfold cc4__gather_action_kernel_skel
  iintro ⟨HΦ, Ho, ⟨%_, H0⟩, ⟨%_, H1⟩, ⟨%_, H2⟩, ⟨%_, H3⟩, ⟨%_, H4⟩, ⟨%_, H5⟩, ⟨%_, H6⟩, ⟨%_, H7⟩⟩
  sl_exec
  sl_step
  iframe
  isplitl [Ho]; · iexact Ho
  rw [← owns_eq_rep]; unfold owns
  iexists _; isplitr
  swap; · iexact H7
  ipureintro
  sl_unfold_run_names
  simp only [View.readAt_rep]
  exact View.read_writes_eq_canon _ _ _ (View.cover_of_tiled _ S1024x1024.size (by rfl))

end Region4

end Cert.Kernel.Hand

end
-- ==== Proof.K.Launch.lean ====
import proofs.«418604_j2156073583116_1_alg».proof.Proof.Gen.Kernel.Regions
import proofs.«418604_j2156073583116_1_alg».proof.Proof.Gen.Kernel.Skeleton
import proofs.«418604_j2156073583116_1_alg».proof.Proof.K.Region0
import proofs.«418604_j2156073583116_1_alg».proof.Proof.K.Region1
import proofs.«418604_j2156073583116_1_alg».proof.Proof.K.Region2
import proofs.«418604_j2156073583116_1_alg».proof.Proof.K.Region3
import proofs.«418604_j2156073583116_1_alg».proof.Proof.K.Region4
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Run

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev tcOf (W : Dev nD → Valuation τ sig (Elt F)) :
    (c : Dev nD) → (b : Ref sig .tc) → Buf (Elt F) ((c : Thread nD τ).loc b) := fun c b => W c b

abbrev W0 : Dev nD → Valuation τ sig (Elt F) := fun c b => (s₀ m ρ).mem ((c : Dev nD), b)

abbrev W1 : Dev nD → Valuation τ sig (Elt F) := fun c => StableHlo.after hostOps0 (W0 m ρ c)

def W2 (c : Dev nD) : Valuation τ sig (Elt F) :=
  Pipeline.withArrays spec0 c (W1 m ρ c) fun w => (dat0 (tcOf (W1 m ρ)) c).arrAt w cfg0.N

def W3 (c : Dev nD) : Valuation τ sig (Elt F) :=
  Pipeline.withArrays spec1 c (W2 m ρ c) fun w => (dat1 (tcOf (W2 m ρ)) c).arrAt w cfg1.N

abbrev W4 : Dev nD → Valuation τ sig (Elt F) := fun c => StableHlo.after hostOps2 (W3 m ρ c)

def W5 (c : Dev nD) : Valuation τ sig (Elt F) :=
  Pipeline.withArrays spec2 c (W4 m ρ c) fun w => (dat2 (tcOf (W4 m ρ)) c).arrAt w cfg2.N

abbrev W6 : Dev nD → Valuation τ sig (Elt F) := fun c => StableHlo.after hostOps3 (W5 m ρ c)

def W7 (c : Dev nD) : Valuation τ sig (Elt F) :=
  Pipeline.withArrays spec3 c (W6 m ρ c) fun w => (dat3 (tcOf (W6 m ρ)) c).arrAt w cfg3.N

abbrev W8 : Dev nD → Valuation τ sig (Elt F) := fun c => StableHlo.after hostOps4 (W7 m ρ c)
abbrev W9 : Dev nD → Valuation τ sig (Elt F) := fun c => StableHlo.after hostOps4_1 (W8 m ρ c)
abbrev W10 : Dev nD → Valuation τ sig (Elt F) := fun c => StableHlo.after hostOps4_2 (W9 m ρ c)
abbrev W11 : Dev nD → Valuation τ sig (Elt F) := fun c => StableHlo.after hostOps4_3 (W10 m ρ c)
abbrev W12 : Dev nD → Valuation τ sig (Elt F) := fun c => StableHlo.after hostOps4_4 (W11 m ρ c)
abbrev W13 : Dev nD → Valuation τ sig (Elt F) := fun c => StableHlo.after hostOps4_5 (W12 m ρ c)
abbrev W14 : Dev nD → Valuation τ sig (Elt F) := fun c => StableHlo.after hostOps4_6 (W13 m ρ c)

def W15 (c : Dev nD) : Valuation τ sig (Elt F) :=
  Pipeline.withArrays spec4 c (W14 m ρ c) fun w => (dat4 (tcOf (W14 m ρ)) c).arrAt w cfg4.N

abbrev W16 : Dev nD → Valuation τ sig (Elt F) := fun c => StableHlo.after hostOps5 (W15 m ρ c)
abbrev W17 : Dev nD → Valuation τ sig (Elt F) := fun c => StableHlo.after hostOps5_1 (W16 m ρ c)

theorem W2_arr (c : Dev nD) (w : Fin cfg0.W) :
    W2 m ρ c (Proc.devRef .tc (Pipeline.arrRef spec0 w)) = (dat0 (tcOf (W1 m ρ)) c).arrAt w cfg0.N :=
  Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) :=
  Pipeline.withArrays_of_ne spec0 c _ _ b hb
theorem W3_arr (c : Dev nD) (w : Fin cfg1.W) :
    W3 m ρ c (Proc.devRef .tc (Pipeline.arrRef spec1 w)) = (dat1 (tcOf (W2 m ρ)) c).arrAt w cfg1.N :=
  Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) :=
  Pipeline.withArrays_of_ne spec1 c _ _ b hb
theorem W5_arr (c : Dev nD) (w : Fin cfg2.W) :
    W5 m ρ c (Proc.devRef .tc (Pipeline.arrRef spec2 w)) = (dat2 (tcOf (W4 m ρ)) c).arrAt w cfg2.N :=
  Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) :=
  Pipeline.withArrays_of_ne spec2 c _ _ b hb
theorem W7_arr (c : Dev nD) (w : Fin cfg3.W) :
    W7 m ρ c (Proc.devRef .tc (Pipeline.arrRef spec3 w)) = (dat3 (tcOf (W6 m ρ)) c).arrAt w cfg3.N :=
  Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) :=
  Pipeline.withArrays_of_ne spec3 c _ _ b hb
theorem W15_arr (c : Dev nD) (w : Fin cfg4.W) :
    W15 m ρ c (Proc.devRef .tc (Pipeline.arrRef spec4 w)) = (dat4 (tcOf (W14 m ρ)) c).arrAt w cfg4.N :=
  Pipeline.withArrays_arr spec4 launch4.win.arr_inj c _ _ w
theorem W15_of_ne (c : Dev nD) (b : Ref sig .tc) (hb : ∀ w, Pipeline.arrRef spec4 w ≠ b) :
    W15 m ρ c (Proc.devRef .tc b) = W14 m ρ c (Proc.devRef .tc b) :=
  Pipeline.withArrays_of_ne spec4 c _ _ b hb

theorem W1_of (c : Dev nD) (r : Ref sig .tc) (h : r ∉ hostOps0_W) : W1 m ρ c r = W0 m ρ c r :=
  StableHlo.after_of_writes_sub hostOps0 _ hostOps0_writes h
theorem W4_of (c : Dev nD) (r : Ref sig .tc) (h : r ∉ hostOps2_W) : W4 m ρ c r = W3 m ρ c r :=
  StableHlo.after_of_writes_sub hostOps2 _ hostOps2_writes h
theorem W6_of (c : Dev nD) (r : Ref sig .tc) (h : r ∉ hostOps3_W) : W6 m ρ c r = W5 m ρ c r :=
  StableHlo.after_of_writes_sub hostOps3 _ hostOps3_writes h
theorem W8_of (c : Dev nD) (r : Ref sig .tc) (h : r ∉ hostOps4_W) : W8 m ρ c r = W7 m ρ c r :=
  StableHlo.after_of_writes_sub hostOps4 _ hostOps4_writes h
theorem W9_of (c : Dev nD) (r : Ref sig .tc) (h : r ∉ hostOps4_1_W) : W9 m ρ c r = W8 m ρ c r :=
  StableHlo.after_of_writes_sub hostOps4_1 _ hostOps4_1_writes h
theorem W10_of (c : Dev nD) (r : Ref sig .tc) (h : r ∉ hostOps4_2_W) : W10 m ρ c r = W9 m ρ c r :=
  StableHlo.after_of_writes_sub hostOps4_2 _ hostOps4_2_writes h
theorem W11_of (c : Dev nD) (r : Ref sig .tc) (h : r ∉ hostOps4_3_W) : W11 m ρ c r = W10 m ρ c r :=
  StableHlo.after_of_writes_sub hostOps4_3 _ hostOps4_3_writes h
theorem W12_of (c : Dev nD) (r : Ref sig .tc) (h : r ∉ hostOps4_4_W) : W12 m ρ c r = W11 m ρ c r :=
  StableHlo.after_of_writes_sub hostOps4_4 _ hostOps4_4_writes h
theorem W13_of (c : Dev nD) (r : Ref sig .tc) (h : r ∉ hostOps4_5_W) : W13 m ρ c r = W12 m ρ c r :=
  StableHlo.after_of_writes_sub hostOps4_5 _ hostOps4_5_writes h
theorem W14_of (c : Dev nD) (r : Ref sig .tc) (h : r ∉ hostOps4_6_W) : W14 m ρ c r = W13 m ρ c r :=
  StableHlo.after_of_writes_sub hostOps4_6 _ hostOps4_6_writes h
theorem W16_of (c : Dev nD) (r : Ref sig .tc) (h : r ∉ hostOps5_W) : W16 m ρ c r = W15 m ρ c r :=
  StableHlo.after_of_writes_sub hostOps5 _ hostOps5_writes h
theorem W17_of (c : Dev nD) (r : Ref sig .tc) (h : r ∉ hostOps5_1_W) : W17 m ρ c r = W16 m ρ c r :=
  StableHlo.after_of_writes_sub hostOps5_1 _ hostOps5_1_writes h

abbrev hostWritten : List (Ref sig .tc) :=
  hostOps0_W ++ hostOps2_W ++ hostOps3_W ++ hostOps4_W ++ hostOps4_1_W ++ hostOps4_2_W ++ hostOps4_3_W
    ++ hostOps4_4_W ++ hostOps4_5_W ++ hostOps4_6_W ++ hostOps5_W ++ hostOps5_1_W

theorem W17_untouched (c : Dev nD) (r : Ref sig .tc) (h : r ∉ (hostWritten : List (Ref sig .tc)))
    (h0 : ∀ w, Pipeline.arrRef spec0 w ≠ r) (h1 : ∀ w, Pipeline.arrRef spec1 w ≠ r)
    (h2 : ∀ w, Pipeline.arrRef spec2 w ≠ r) (h3 : ∀ w, Pipeline.arrRef spec3 w ≠ r)
    (h4 : ∀ w, Pipeline.arrRef spec4 w ≠ r) :
    W17 m ρ c (Proc.devRef .tc r) = m ((c : Thread nD τ).loc r) := by
  have e := h
  simp only [hostWritten, List.mem_append, not_or] at e
  obtain ⟨⟨⟨⟨⟨⟨⟨⟨⟨⟨⟨a0, a2⟩, a3⟩, a4⟩, a41⟩, a42⟩, a43⟩, a44⟩, a45⟩, a46⟩, a5⟩, a51⟩ := e
  exact (W17_of m ρ c r a51).trans <| (W16_of m ρ c r a5).trans <| (W15_of_ne m ρ c r h4).trans <|
    (W14_of m ρ c r a46).trans <| (W13_of m ρ c r a45).trans <| (W12_of m ρ c r a44).trans <|
    (W11_of m ρ c r a43).trans <| (W10_of m ρ c r a42).trans <| (W9_of m ρ c r a41).trans <|
    (W8_of m ρ c r a4).trans <| (W7_of_ne m ρ c r h3).trans <| (W6_of m ρ c r a3).trans <|
    (W5_of_ne m ρ c r h2).trans <| (W4_of m ρ c r a2).trans <| (W3_of_ne m ρ c r h1).trans <|
    (W2_of_ne m ρ c r h0).trans <| W1_of m ρ c r a0

def pdats : (p : Fin 5) → (c : Dev nD) → Dat τ (Elt F) Unit ℕ (UR sig nD τ) ℕ (Pipeline.pin (pcfgs (F := F)) adm p) c
  | ⟨0, _⟩ => fun c => dat0 (tcOf (W1 m ρ)) c
  | ⟨1, _⟩ => fun c => dat1 (tcOf (W2 m ρ)) c
  | ⟨2, _⟩ => fun c => dat2 (tcOf (W4 m ρ)) c
  | ⟨3, _⟩ => fun c => dat3 (tcOf (W6 m ρ)) c
  | ⟨4, _⟩ => fun c => dat4 (tcOf (W14 m ρ)) c

abbrev 𝒱₀ : Variants := Variants.none

abbrev L : GSem nD τ sig → Finset Unit := fun _ => ∅
abbrev lv : GSem nD τ sig → Unit → ℕ := fun _ _ => 0

abbrev R (c : Dev nD) : sProp 𝕄 :=
  iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

section Protocol

variable (pd : (p : Fin 5) → (c : Dev nD) → Dat τ (Elt F) Unit ℕ (UR sig nD τ) ℕ (Pipeline.pin (pcfgs (F := F)) adm p) c)

set_option backward.isDefEq.respectTransparency.types false in

theorem entry_of (p : Fin 5) (hw : Pipeline.WinFacts (Pipeline.pin (pcfgs (F := F)) adm p).spec)
    (harr : ∀ w, ((Pipeline.pin (pcfgs (F := F)) adm p).spec w).arr.IsWhole) (c : Dev nD)
    (hq : ∀ w, (pd p c).q w = fullShare) (howed : ∀ t, (pd p c).owed t = 0)
    (hrec : (pd p c).recorded 0 = Set.univ) (W : Valuation τ sig (Elt F))
    (hA : ∀ w, (pd p c).A w = W (Proc.devRef .tc (Pipeline.arrRef (Pipeline.pin (pcfgs (F := F)) adm p).spec w)))
    (hP : (BI.emp : sProp 𝕄) ⊢ Pipeline.prefHeld (pcfgs (F := F) p).pre c (fun _ => fullShare) (adm p).1) :
    (iprop((StableHlo.held (c : Thread nD τ) (Pipeline.ucRefs τ sig) W ∗ R c)
        ∗ Pipeline.ownSems0 (fun k : PEmpty => k.elim) c ∗ levAts L lv) : sProp 𝕄)
      ⊢ |={Set.univ}=> iprop((pd p c).arrays ((pd p c).arrAt · 0)
          ∗ Pipeline.prefHeld (pcfgs (F := F) p).pre c (fun _ => fullShare) (adm p).1
          ∗ (pd p c).owesAt () 0 ∗ (∃ r, prngReg c r)
          ∗ Pipeline.unscopedRest (Ix := Unit) (Name := ℕ) (U := UR sig nD τ) (Lvl := ℕ) (Pipeline.pin (pcfgs (F := F)) adm p).spec c (fun b => W b)) := by
  have hsplit := Pipeline.arrays_of_unscopedBufs (p := p) (pcfgs (F := F)) adm pd hw harr c
    ((pd p c).share_full hq) (fun b => W b) hA
  rw [Pipeline.unscopedBufs_held] at hsplit
  iintro ⟨⟨Hub, Hg, HO⟩, -, -⟩
  ihave H := hsplit $$ Hub
  icases H with ⟨Ha, Hrest⟩
  imodintro
  isplitl [Ha]; · iexact Ha
  isplitr; · iapply hP; iempintro
  isplitl [HO]
  · unfold Pipeline.Dat.owesAt Pipeline.owesWithin
    icases HO with ⟨%T, HO⟩; iexists T
    isplitr; · ipureintro; exact fun x _ => Or.inl (by rw [hrec]; exact Set.mem_univ x)
    rw [howed 0]; iexact HO
  isplitl [Hg]; · iexact Hg
  iexact Hrest

set_option backward.isDefEq.respectTransparency.types false in

theorem exit_of (p : Fin 5) (hw : Pipeline.WinFacts (Pipeline.pin (pcfgs (F := F)) adm p).spec)
    (harr : ∀ w, ((Pipeline.pin (pcfgs (F := F)) adm p).spec w).arr.IsWhole) (c : Dev nD)
    (hq : ∀ w, (pd p c).q w = fullShare) (howed : ∀ t, (pd p c).owed t = 0) (W W' : Valuation τ sig (Elt F))
    (hF : ∀ w, (pd p c).arrAt w (Pipeline.pin (pcfgs (F := F)) adm p).N = W' (Proc.devRef .tc (Pipeline.arrRef (Pipeline.pin (pcfgs (F := F)) adm p).spec w)))
    (hrest : ∀ b : Ref sig .tc, (∀ w, Pipeline.arrRef (Pipeline.pin (pcfgs (F := F)) adm p).spec w ≠ b) → W' (Proc.devRef .tc b) = W (Proc.devRef .tc b)) :
    (iprop((pd p c).arrays ((pd p c).arrAt · (Pipeline.pin (pcfgs (F := F)) adm p).N) ∗ (pd p c).owesAt () (Fin.last (Pipeline.pin (pcfgs (F := F)) adm p).N)
        ∗ (∃ r, prngReg c r)
        ∗ Pipeline.unscopedRest (Ix := Unit) (Name := ℕ) (U := UR sig nD τ) (Lvl := ℕ) (Pipeline.pin (pcfgs (F := F)) adm p).spec c (fun b => W b)) : sProp 𝕄)
      ⊢ |={Set.univ}=> iprop(StableHlo.held (c : Thread nD τ) (Pipeline.ucRefs τ sig) W' ∗ R c) := by
  have hjoin := Pipeline.unscopedBufs_of_arrays (p := p) (pcfgs (F := F)) adm (Ix := Unit) (Name := ℕ) (U := UR sig nD τ) (Lvl := ℕ)
    hw harr c pd ((pd p c).share_full hq) (fun b => W b) (fun b => W' b) ((pd p c).arrAt · (Pipeline.pin (pcfgs (F := F)) adm p).N) hF
    (fun b hb => hrest b fun w e => hb (Finset.mem_image.mpr ⟨w, Finset.mem_univ _, e⟩))
  rw [Pipeline.unscopedBufs_held] at hjoin
  iintro ⟨Ha, HO, Hg, Hrest⟩
  imodintro
  isplitl [Ha Hrest]
  · iapply hjoin; isplitl [Ha] <;> iassumption
  isplitl [Hg]; · iexact Hg
  unfold Pipeline.Dat.owesAt Pipeline.owesWithin
  rw [howed (Fin.last _)]
  icases HO with ⟨%T, -, HO⟩; iexists T; iexact HO

end Protocol

theorem hinA {gr Wn : Nat} (win : Fin Wn → Pipeline.WinSpec sig gr) (c : Dev nD) (P : sProp 𝕄) :
    (iprop((∃ r, prngReg c r) ∗ P ∗ Pipeline.scopedRest win c) : sProp 𝕄) ⊢ Pipeline.ΦA win c := by
  unfold Pipeline.ΦA
  iintro ⟨Hg, -, Hs⟩
  isplitl [Hs]; · iexact Hs
  iexact Hg

theorem houtA {gr Wn : Nat} (win : Fin Wn → Pipeline.WinSpec sig gr) (c : Dev nD) :
    (Pipeline.ΦA win c : sProp 𝕄)
      ⊢ iprop((∃ r, prngReg c r) ∗ Pipeline.ownSems0 (fun k : PEmpty => k.elim) c ∗ Pipeline.scopedRest win c) := by
  rw [Pipeline.ownSems0_none]; unfold Pipeline.ΦA
  iintro ⟨Hs, Hg⟩
  isplitl [Hg]; · iexact Hg
  isplitr; · iempintro
  iexact Hs

theorem prefHeld_emp (c : Dev nD) : ∀ p : Fin 5, (BI.emp : sProp 𝕄) ⊢ Pipeline.prefHeld (pcfgs (F := F) p).pre c (fun _ => fullShare) (adm p).1
  | ⟨0, _⟩ | ⟨1, _⟩ | ⟨2, _⟩ | ⟨3, _⟩ | ⟨4, _⟩ => by
    unfold Pipeline.prefHeld; rw [show (Finset.univ : Finset (Fin 0)) = ∅ from rfl, BI.bigSep_empty]; try exact .rfl

set_option backward.isDefEq.respectTransparency.types false in
def regOf (p : Fin 5) (lf : Pipeline.LaunchFacts (nD := nD) (τ := τ) cfgs p) (W W' : Dev nD → Valuation τ sig (Elt F))
    (hbody : ∀ c, BodyObligation (pdats m ρ p c) (defs₀ (F := F)) 𝒱₀ () Set.univ)
    (hq : ∀ c w, (pdats m ρ p c).q w = fullShare) (howed : ∀ c t, (pdats m ρ p c).owed t = 0)
    (hrec : ∀ c, (pdats m ρ p c).recorded 0 = Set.univ)
    (hA : ∀ c w, (pdats m ρ p c).A w = W c (Proc.devRef .tc (Pipeline.arrRef (Pipeline.pin (pcfgs (F := F)) adm p).spec w)))
    (hin : ∀ c, (iprop((∃ r, prngReg c r) ∗ Pipeline.prefHeld (pcfgs (F := F) p).pre c (fun _ => fullShare) (adm p).1
      ∗ Pipeline.scopedRest (Pipeline.pin (pcfgs (F := F)) adm p).spec c) : sProp 𝕄) ⊢ (pdats m ρ p c).Φ 0)
    (hout : ∀ c, (pdats m ρ p c).Φ (Fin.last (Pipeline.pin (pcfgs (F := F)) adm p).N)
      ⊢ (iprop((∃ r, prngReg c r) ∗ Pipeline.ownSems0 (fun k : PEmpty => k.elim) c ∗ Pipeline.scopedRest (Pipeline.pin (pcfgs (F := F)) adm p).spec c) : sProp 𝕄))
    (hF : ∀ c w, (pdats m ρ p c).arrAt w (Pipeline.pin (pcfgs (F := F)) adm p).N = W' c (Proc.devRef .tc (Pipeline.arrRef (Pipeline.pin (pcfgs (F := F)) adm p).spec w)))
    (hrest : ∀ c (b : Ref sig .tc), (∀ w, Pipeline.arrRef (Pipeline.pin (pcfgs (F := F)) adm p).spec w ≠ b) → W' c (Proc.devRef .tc b) = W c (Proc.devRef .tc b)) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (W c) ∗ R c)
  post c := iprop(StableHlo.held (c : Thread nD τ) (Pipeline.ucRefs τ sig) (W' c) ∗ R c)
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c (tcOf W c)
  hentry c := entry_of (pdats m ρ) p lf.win lf.arr_whole c (hq c) (howed c) (hrec c) (W c) (hA c) (prefHeld_emp c p)
  hin := hin
  hout := hout
  hexit c := exit_of (pdats m ρ) p lf.win lf.arr_whole c (hq c) (howed c) (W c) (W' c) (hF c) (hrest c)

def reg0 : Pipeline.RegionSeg (pcfgs (F := F)) adm (pdats m ρ) () defs₀ 𝒱₀ L lv 0 :=
  regOf m ρ 0 launch0 (W1 m ρ) (W2 m ρ) (body_obligation0 (tcOf (W1 m ρ))) (q0 (tcOf (W1 m ρ))) (owed0 (tcOf (W1 m ρ))) (fun _ => rfl)
    (A_eq0 (tcOf (W1 m ρ))) (hin0 (tcOf (W1 m ρ))) (hout0 (tcOf (W1 m ρ))) (fun c w => (W2_arr m ρ c w).symm) (W2_of_ne m ρ)

def reg1 : Pipeline.RegionSeg (pcfgs (F := F)) adm (pdats m ρ) () defs₀ 𝒱₀ L lv 1 :=
  regOf m ρ 1 launch1 (W2 m ρ) (W3 m ρ) (body_obligation1 (tcOf (W2 m ρ))) (q1 (tcOf (W2 m ρ))) (owed1 (tcOf (W2 m ρ))) (fun _ => rfl)
    (A_eq1 (tcOf (W2 m ρ)))
    (fun c => by show _ ⊢ (dat1 (tcOf (W2 m ρ)) c).Φ 0; rw [Phi1]; exact hinA spec1 c _)
    (fun c => by show (dat1 (tcOf (W2 m ρ)) c).Φ (Fin.last cfg1.N) ⊢ _; rw [Phi1]; exact houtA spec1 c)
    (fun c w => (W3_arr m ρ c w).symm) (W3_of_ne m ρ)

def reg2 : Pipeline.RegionSeg (pcfgs (F := F)) adm (pdats m ρ) () defs₀ 𝒱₀ L lv 2 :=
  regOf m ρ 2 launch2 (W4 m ρ) (W5 m ρ) (body_obligation2 (tcOf (W4 m ρ))) (q2 (tcOf (W4 m ρ))) (owed2 (tcOf (W4 m ρ))) (fun _ => rfl)
    (A_eq2 (tcOf (W4 m ρ)))
    (fun c => by show _ ⊢ (dat2 (tcOf (W4 m ρ)) c).Φ 0; rw [Phi2]; exact hinA spec2 c _)
    (fun c => by show (dat2 (tcOf (W4 m ρ)) c).Φ (Fin.last cfg2.N) ⊢ _; rw [Phi2]; exact houtA spec2 c)
    (fun c w => (W5_arr m ρ c w).symm) (W5_of_ne m ρ)

def reg3 : Pipeline.RegionSeg (pcfgs (F := F)) adm (pdats m ρ) () defs₀ 𝒱₀ L lv 3 :=
  regOf m ρ 3 launch3 (W6 m ρ) (W7 m ρ) (body_obligation3 (tcOf (W6 m ρ))) (q3 (tcOf (W6 m ρ))) (owed3 (tcOf (W6 m ρ))) (fun _ => rfl)
    (A_eq3 (tcOf (W6 m ρ))) (hin3 (tcOf (W6 m ρ))) (hout3 (tcOf (W6 m ρ))) (fun c w => (W7_arr m ρ c w).symm) (W7_of_ne m ρ)

def reg4 : Pipeline.RegionSeg (pcfgs (F := F)) adm (pdats m ρ) () defs₀ 𝒱₀ L lv 4 :=
  regOf m ρ 4 launch4 (W14 m ρ) (W15 m ρ) (body_obligation4 (tcOf (W14 m ρ))) (q4 (tcOf (W14 m ρ))) (owed4 (tcOf (W14 m ρ))) (fun _ => rfl)
    (A_eq4 (tcOf (W14 m ρ)))
    (fun c => by show _ ⊢ (dat4 (tcOf (W14 m ρ)) c).Φ 0; rw [Phi4]; exact hinA spec4 c _)
    (fun c => by show (dat4 (tcOf (W14 m ρ)) c).Φ (Fin.last cfg4.N) ⊢ _; rw [Phi4]; exact houtA spec4 c)
    (fun c w => (W15_arr m ρ c w).symm) (W15_of_ne m ρ)

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)),
    .region (reg2 m ρ),
    .host (hseg hostOps3 hostOps3_sub hostOps3_fresh (W5 m ρ)),
    .region (reg3 m ρ),
    .host (hseg hostOps4 hostOps4_sub hostOps4_fresh (W7 m ρ)),
    .host (hseg hostOps4_1 hostOps4_1_sub hostOps4_1_fresh (W8 m ρ)),
    .host (hseg hostOps4_2 hostOps4_2_sub hostOps4_2_fresh (W9 m ρ)),
    .host (hseg hostOps4_3 hostOps4_3_sub hostOps4_3_fresh (W10 m ρ)),
    .host (hseg hostOps4_4 hostOps4_4_sub hostOps4_4_fresh (W11 m ρ)),
    .host (hseg hostOps4_5 hostOps4_5_sub hostOps4_5_fresh (W12 m ρ)),
    .host (hseg hostOps4_6 hostOps4_6_sub hostOps4_6_fresh (W13 m ρ)),
    .region (reg4 m ρ),
    .host (hseg hostOps5 hostOps5_sub hostOps5_fresh (W15 m ρ)),
    .host (hseg hostOps5_1 hostOps5_1_sub hostOps5_1_fresh (W16 m ρ)) ]

theorem main_run (c : Dev nD) : main (F := F) c = Pipeline.Seg.run (segs m ρ) := by
  rw [main_chain c, Pipeline.Seg.run_eq_chain]; rfl

set_option backward.isDefEq.respectTransparency.types false in

theorem run_all : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W17 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c))
    (Tₙ := fun c => iprop(StableHlo.held (c : Thread nD τ) (Pipeline.ucRefs τ sig) (W17 m ρ c) ∗ ∃ r, prngReg c r))
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => by
        show (iprop(StableHlo.held (c : Thread nD τ) (Pipeline.ucRefs τ sig) (W17 m ρ c) ∗ R c) : sProp 𝕄) ⊢ _
        iintro ⟨Hh, Hg, HO⟩
        isplitl [Hh Hg]
        · isplitl [Hh]; · iexact Hh
          iexact Hg
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hg, -⟩, -⟩
      imodintro
      isplitl [Hh]; · iexact Hh
      isplitl [Hg]; · iexists _; iexact Hg
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h c b hb => h c _ (mem_uc b hb))

theorem kept {mem : (ℓ : Loc nD τ sig) → Buf (Elt F) ℓ}
    (h : ∀ c : Dev nD, ∀ b : Ref sig .tc, ¬ (Proc.devRef .tc b : DevRef τ sig).isScoped →
      mem ((c.tc : Thread nD τ).loc b) = W17 m ρ c (Proc.devRef .tc b)) (c : Dev nD) (b : Ref sig .tc)
    (hs : ¬ (Proc.devRef .tc b : DevRef τ sig).isScoped := by decide)
    (hw : b ∉ (hostWritten : List (Ref sig .tc)) := by decide)
    (h0 : ∀ w, Pipeline.arrRef spec0 w ≠ b := by decide) (h1 : ∀ w, Pipeline.arrRef spec1 w ≠ b := by decide)
    (h2 : ∀ w, Pipeline.arrRef spec2 w ≠ b := by decide) (h3 : ∀ w, Pipeline.arrRef spec3 w ≠ b := by decide)
    (h4 : ∀ w, Pipeline.arrRef spec4 w ≠ b := by decide) :
    mem ((c.tc : Thread nD τ).loc b) = m ((c : Thread nD τ).loc b) :=
  (h c b hs).trans (W17_untouched m ρ c b hw h0 h1 h2 h3 h4)

end Run

end Cert.Kernel.Hand

end
-- ==== Proof.KI.Region0.lean ====
import proofs.«418604_j2156073583116_1_alg».proof.Proof.Gen.KernelIdeal.Launch
import proofs.«418604_j2156073583116_1_alg».proof.Proof.Gen.KernelIdeal.Skeleton
import proofs.«418604_j2156073583116_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def acc0 (c : Dev nD) : (n : ℕ) → n < cfg0.N → Vec F S1024x1024 .f32
  | 0, h => k0_pay2 (iblk0 V c 0 ⟨0, h⟩) (iblk0 V c 1 ⟨0, h⟩) (k0_pay1 (F := F))
  | n + 1, h => k0_pay2 (iblk0 V c 0 ⟨n + 1, h⟩) (iblk0 V c 1 ⟨n + 1, h⟩) (acc0 c n (Nat.lt_of_succ_lt h))

abbrev scM0 : Memref sig .tc .vmem S1024x1024 .f32 := Memref.whole cc0_scratch0

def PhiS0 (c : Dev nD) : (n : ℕ) → n ≤ cfg0.N → sProp 𝕄
  | 0, _ => Pipeline.ΦA spec0 c
  | n + 1, hn => iprop(owns (c : Thread nD τ) scM0 fullShare (acc0 V c n hn)
      ∗ Pipeline.scopedRestBut (Ix := Unit) (Name := ℕ) (U := UR sig nD τ) (Lvl := ℕ) (Val := Elt F) spec0 c [cc0_scratch0]
      ∗ (∃ r, prngReg c r))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay3 (acc0 V c t.val t.isLt) (iblk0 V c 2 t)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem owed0 (c : Dev nD) (t : Fin (cfg0.N + 1)) : (dat0 V c).owed t = 0 := rfl
theorem q0 (c : Dev nD) (w : Fin cfg0.W) : (dat0 V c).q w = fullShare := rfl

abbrev cond0_0 (i : grid0.Coords) : Prop := (Scalar.cmpi .ne (Scalar.extui (Scalar.cmpi .eq (BitVec.ofNat 32 (i 0).val) 0#32)) 0#32) = 1#1
abbrev cond0_1 (i : grid0.Coords) : Prop := k0_cond2 i = 1#1
theorem hcond0 : ∀ t : Fin cfg0.N, (cond0_0 (grid0.coords t) ↔ t.val = 0) ∧ (cond0_1 (grid0.coords t) ↔ t.val = 3) := by
  decide +kernel

theorem hz0 : (![0, 0] : Fin 2 → Nat) = fun _ => 0 := funext fun a => by fin_cases a <;> rfl

theorem cover0 {S : Shape} {e : EltTy} {off : Fin S.rank → Nat} (h : off = fun _ => 0)
    (inb : ∀ a, off a + S.size a ≤ S.size a) (w : S.Idx → Elt F e) (L : List (View.Piece (Elt F) S e)) (y : S.Idx) :
    ∃ pc ∈ ((⟨Rect.unit off S.size inb, w⟩ : View.Piece (Elt F) S e) :: L), y ∈ pc.1.set :=
  ⟨_, List.mem_cons_self, View.mem_set_unit_zero h inb y⟩

set_option maxHeartbeats 4000000 in
/-- The body at any point: the reset where taken zeroes the scratch, the product is added to it, and the store where taken leaves the output at that sum scaled and rounded. -/
theorem sound_kernel0 (c : Dev nD) (E : Set ℕ) (i : grid0.Coords)
    (arg1 : Memref sig .tc .vmem S2048x1024 .bf16) (harg1 : arg1.IsWhole) (arg2 : Memref sig .tc .vmem S2048x1024 .bf16) (harg2 : arg2.IsWhole)
    (arg3 : Memref sig .tc .vmem S1024x1 .f32) (harg3 : arg3.IsWhole) (arg4 : Memref sig .tc .vmem S1024x1024 .bf16) (harg4 : arg4.IsWhole)
    (arg5 : Memref sig .tc .vmem S1024x1024 .f32) (harg5 : arg5.IsWhole) (hx : cond0_0 i → ¬cond0_1 i)
    (x0 x1 : Vec F S2048x1024 .bf16) (x2 : Vec F S1024x1 .f32) (xo : Vec F S1024x1024 .bf16) (xs : Vec F S1024x1024 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare xo ∗ owns (c : Thread nD τ) arg5 fullShare xs
        ∗ (iprop(owns (c : Thread nD τ) arg1 fullShare x0 ∗ owns (c : Thread nD τ) arg2 fullShare x1 ∗ owns (c : Thread nD τ) arg3 fullShare x2
            ∗ owns (c : Thread nD τ) arg4 fullShare (if cond0_1 i then k0_pay3 (k0_pay2 x0 x1 (if cond0_0 i then k0_pay1 (F := F) else xs)) x2 else xo)
            ∗ owns (c : Thread nD τ) arg5 fullShare (k0_pay2 x0 x1 (if cond0_0 i then k0_pay1 (F := F) else xs))) -∗ K ⟨⟩))
      ⊢ wp frame (wpE (defs₀ (F := F)) Variants.none c none) E (cc0__all_means_kernel i arg1 harg1 arg2 harg2 arg3 harg3 arg4 harg4 arg5 harg5) K := by
  by_cases hc0 : cond0_0 i <;> by_cases hc1 : cond0_1 i
  · exact absurd hc1 (hx hc0)
  all_goals
    first | rw [if_pos hc0] | rw [if_neg hc0]
    first | rw [if_pos hc1] | rw [if_neg hc1]
    simp only [cc0__all_means_kernel_eq_skeleton]; unfold cc0__all_means_kernel_skel owns
    iintro ⟨⟨%f0, %h0, H0⟩, ⟨%f1, %h1, H1⟩, ⟨%f2, %h2, H2⟩, ⟨%fo, %ho, Ho⟩, ⟨%fs, %hs, HS⟩, Hk⟩
    subst h0 h1 h2 ho hs
    sl_exec (disch := first | exact hc0 | exact hc1)
    sl_step
    iapply Hk
    isplitl [H0]; swap; isplitl [H1]; swap; isplitl [H2]; swap; isplitl [Ho]
    all_goals
      iexists _; isplitr; swap; · iassumption
      ipureintro; sl_unfold_words
      first
      | rewrite [View.read_writes_eq_canon _ _ _ (cover0 hz0 _ _ _), View.canon_cons_unit_zero hz0]
        simp only [View.readCov_unit_zero (S := S1024x1024) _ hz0, View.readAt_eq_ld, View.ld_unit_zero (S := S2048x1024) hz0,
          View.ld_unit_zero (S := S1024x1024) hz0, View.ld_unit_zero (S := S1024x1) hz0]
      | rfl

theorem PhiA0_eq (c : Dev nD) :
    (Pipeline.ΦA spec0 c : sProp 𝕄)
      = iprop(iprop((∃ d, owns (c : Thread nD τ) scM0 fullShare d)
          ∗ Pipeline.scopedRestBut spec0 c [cc0_scratch0])
        ∗ (∃ r, prngReg c r)) := by
  unfold Pipeline.ΦA; rw [scopedRest0_split]; simp only [scM0, owns_whole]; try rfl

/-- Before point `t` the invariant holds the scratch at some `xs` from which the body's sum is `acc0` at `t`. -/
theorem PhiS0_open (c : Dev nD) : ∀ t : Fin cfg0.N, (dat0 V c).Φ t.castSucc ⊢ iprop(∃ xs, owns (c : Thread nD τ) scM0 fullShare xs
      ∗ Pipeline.scopedRestBut spec0 c [cc0_scratch0]
      ∗ (∃ r, prngReg c r)
      ∗ ⌜k0_pay2 (iblk0 V c 0 t) (iblk0 V c 1 t) (if cond0_0 (grid0.coords t) then k0_pay1 (F := F) else xs) = acc0 V c t.val t.isLt⌝)
  | ⟨0, h⟩ => by
    rw [show (dat0 V c).Φ (Fin.castSucc ⟨0, h⟩) = Pipeline.ΦA spec0 c from rfl, PhiA0_eq]
    iintro ⟨⟨⟨%d, HS⟩, Hr⟩, Hg⟩
    iexists d; iframe; ipureintro; rw [if_pos ((hcond0 ⟨0, h⟩).1.mpr rfl)]; rfl
  | ⟨n + 1, h⟩ => by
    rw [show (dat0 V c).Φ (Fin.castSucc ⟨n + 1, h⟩) = PhiS0 V c (n + 1) (Nat.le_of_lt h) from rfl]
    unfold PhiS0; iintro ⟨HS, Hr, Hg⟩
    iexists _; iframe; ipureintro; rw [if_neg fun hc => Nat.succ_ne_zero n ((hcond0 ⟨n + 1, h⟩).1.mp hc)]; rfl

theorem idle0 : ∀ t : Fin cfg0.N, (∀ w : Fin cfg0.W, w.val < 3 → cfg0.idle w (grid0.coords t) = false)
    ∧ (cond0_1 (grid0.coords t) → cfg0.idle 3 (grid0.coords t) = false)
    ∧ (¬cond0_1 (grid0.coords t) → cfg0.idle 3 (grid0.coords t) = true ∧ (cfg0.win 3).flush t = false) := by decide +kernel

theorem before0 (c : Dev nD) : ∀ w : Fin cfg0.W, w.val < 3 → ∀ t d, (dat0 V c).before w t d = (dat0 V c).after w t
  | ⟨0, _⟩, _ | ⟨1, _⟩, _ | ⟨2, _⟩, _ => fun t d =>
    ((dat0 V c).before_in_eq_fetched _ rfl (fun _ => rfl) (fun _ _ _ => rfl)
      (fun t => by unfold Dat.blockOf; dsimp only [dat0, iblk0]; try rfl) t d).trans
      (by unfold Dat.fetched Dat.blockOf; dsimp only [dat0, iblk0]; try rfl)
  | ⟨3, _⟩, h => absurd h (Nat.lt_irrefl 3)

theorem leaves0_3 (c : Dev nD) (t : Fin cfg0.N) (d) :
    owns (c : Thread nD τ) ((cfg0.win 3).stage (cfg0.slots t 3)) fullShare
        (if cond0_1 (grid0.coords t) then k0_pay3 (acc0 V c t.val t.isLt) (iblk0 V c 2 t) else (dat0 V c).before 3 t d)
      ⊢ (dat0 V c).leavesExact 3 t := by
  by_cases hc1 : cond0_1 (grid0.coords t)
  · rw [if_pos hc1]; unfold Dat.leavesExact; rw [(idle0 t).2.1 hc1]; dsimp only [dat0]; exact .rfl
  · rw [if_neg hc1, Dat.leavesExact_idle _ 3 t ((idle0 t).2.2 hc1).1 ((idle0 t).2.2 hc1).2]
    iintro H; iexists d; iexact H

theorem hin0 (c : Dev nD) :
    (iprop((∃ r, prngReg c r) ∗ Pipeline.prefHeld (pcfgs (F := F) 0).pre c (fun _ => fullShare) ((cfgs 0).toPCfg_adm (Val := Elt F)).1 ∗ Pipeline.scopedRest spec0 c) : sProp 𝕄)
      ⊢ (dat0 V c).Φ 0 := by
  rw [show (dat0 V c).Φ 0 = Pipeline.ΦA spec0 c from rfl]; unfold Pipeline.ΦA
  iintro ⟨Hp, -, Hr⟩
  iframe

theorem PhiS0_out (c : Dev nD) : ∀ n h, PhiS0 V c n h ⊢ Pipeline.ΦA spec0 c
  | 0, _ => .rfl
  | n + 1, _ => by
    rw [PhiA0_eq]; unfold PhiS0; iintro ⟨HS, Hr, Hg⟩
    iframe; iexists _; iexact HS

theorem hout0 (c : Dev nD) :
    (dat0 V c).Φ (Fin.last cfg0.N)
      ⊢ iprop((∃ r, prngReg c r) ∗ Pipeline.ownSems0 (fun k : PEmpty => k.elim) c
          ∗ Pipeline.scopedRest (Ix := Unit) (Name := ℕ) (U := UR sig nD τ) (Lvl := ℕ) (Val := Elt F) spec0 c) := by
  rw [Pipeline.ownSems0_none, show (dat0 V c).Φ (Fin.last cfg0.N) = PhiS0 V c _ (Nat.le_of_lt_succ (Fin.last cfg0.N).isLt) from rfl]
  refine (PhiS0_out V c _ _).trans ?_; unfold Pipeline.ΦA
  iintro ⟨Hr, Hg⟩
  iframe; iempintro

theorem body_obligation0 (c : Dev nD) : BodyObligation (dat0 (F := F) V c) (defs₀ (F := F)) Variants.none () Set.univ := fun t => by
  rw [bigSep_W0, bigSep_W0]
  show _ ⊢ wp _ _ _ (bodyAt0 t) _
  unfold bodyAt0
  simp only [before0 V c 0 (by decide), before0 V c 1 (by decide), before0 V c 2 (by decide),
    (idle0 t).1 0 (by decide), (idle0 t).1 1 (by decide), (idle0 t).1 2 (by decide)]
  rw [show (dat0 V c).after 0 t = iblk0 V c 0 t from rfl, show (dat0 V c).after 1 t = iblk0 V c 1 t from rfl,
    show (dat0 V c).after 2 t = iblk0 V c 2 t from rfl,
    show (dat0 V c).owesAt () t.succ = (dat0 V c).owesAt () t.castSucc from rfl,
    show (dat0 V c).Φ t.succ = iprop(owns (c : Thread nD τ) scM0 fullShare (acc0 V c t.val t.isLt)
      ∗ Pipeline.scopedRestBut spec0 c [cc0_scratch0]
      ∗ (∃ r, prngReg c r)) from rfl]
  iintro ⟨HΦ, Ho, ⟨%d0, H0⟩, ⟨%d1, H1⟩, ⟨%d2, H2⟩, ⟨%d3, H3⟩⟩
  icases PhiS0_open V c t $$ HΦ with ⟨%xs, HS, Hr, Hg, %hacc⟩
  iapply (sound_kernel0 c Set.univ (grid0.coords t) _ _ _ _ _ _ _ _ _ _
    (fun h0 h1 => by have := (hcond0 t).1.mp h0; have := (hcond0 t).2.mp h1; omega)
    (iblk0 V c 0 t) (iblk0 V c 1 t) (iblk0 V c 2 t) ((dat0 V c).before 3 t d3) xs _)
  iframe H0 H1 H2 H3 HS
  iintro ⟨H0, H1, H2, H3, HS⟩
  rw [hacc]
  iframe
  iapply leaves0_3 V c t d3 $$ H3

end Region0

end Cert.KernelIdeal.Hand

end
-- ==== Proof.KI.Region1.lean ====
import proofs.«418604_j2156073583116_1_alg».proof.Proof.Gen.KernelIdeal.Launch
import proofs.«418604_j2156073583116_1_alg».proof.Proof.Gen.KernelIdeal.Skeleton
import proofs.«418604_j2156073583116_1_alg».proof.Proof.Gen.KernelIdeal.Points
import Idealize.ShloMosaic.Lib.Pipeline.FrameBody
import Idealize.ShloMosaic.Lib.Pipeline.TableIdle
import Idealize.ShloMosaic.Lib.Ring

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

section Generic

variable {F : FTy → Type} [FloatOps F]

variable (V : (c : Dev nD) → (b : Ref sig .tc) → Buf (Elt F) ((c : Thread nD τ).loc b))

def iblk1 (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

abbrev rP : Rect S2048x1024 := Rect.unit (s := S2048x1024) ![0, 0] S2048x1024.size inb_S2048x1024_S2048x1024_0_0
abbrev rM : Rect S1024x1024 := Rect.unit (s := S1024x1024) ![0, 0] S1024x1024.size inb_S1024x1024_S1024x1024_0_0

-- The stored block: the matrix product x0 · x1, rounded to bf16.
def out1_2 (x0 : Vec F S2048x1024 .bf16) (x1 : Vec F S1024x1024 .bf16) : Vec F S2048x1024 .bf16 :=
  View.canon [⟨rP, k1_pay1 (View.ld x0 rP) (View.ld x1 rM)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem owed1 (c : Dev nD) (t) : (dat1 V c).owed t = 0 := rfl
theorem q1 (c : Dev nD) (w) : (dat1 V c).q w = fullShare := rfl
theorem Phi1 (c : Dev nD) (t) : (dat1 V c).Φ t = Pipeline.ΦA spec1 c := rfl
theorem after1_2 (c : Dev nD) (t : Fin cfg1.N) :
    (dat1 V c).after 2 t = out1_2 (iblk1 V c 0 t) (iblk1 V c 1 t) := by dsimp only [dat1]

theorem before1 (c : Dev nD) (t : Fin cfg1.N) :
    (∀ d, (dat1 V c).before 0 t d = iblk1 V c 0 t) ∧ (∀ d, (dat1 V c).before 1 t d = iblk1 V c 1 t) := by
  refine ⟨?_, ?_⟩ <;> exact fun d => ((dat1 V c).before_in_eq_fetched _ rfl (fun _ => rfl) (fun _ _ _ => rfl)
    (fun _ => by dsimp only [dat1]; rfl) t d).trans (by unfold Dat.fetched Dat.blockOf iblk1; dsimp only [dat1]; rfl)

theorem body_obligation1 (c : Dev nD) :
    BodyObligation (dat1 (F := F) V c) (defs₀ (F := F)) Variants.none () Set.univ := fun t => by
  rw [bigSep_W1, bigSep_W1]
  show _ ⊢ wp frame _ Set.univ (bodyAt1 t) _
  obtain ⟨b0, b1⟩ := before1 V c t
  unfold bodyAt1
  simp only [b0, b1, cc1__tile_means_kernel_eq_skeleton, owns_eq_rep]; dsimp only [dat1]; unfold cc1__tile_means_kernel_skel
  iintro ⟨HΦ, Ho, ⟨%_, H0⟩, ⟨%_, H1⟩, ⟨%_, H2⟩⟩
  sl_exec
  sl_step
  iframe
  isplitl [Ho]; · iexact Ho
  rw [← owns_eq_rep]; unfold owns
  iexists _; isplitr
  swap; · iexact H2
  ipureintro
  sl_unfold_run_names
  simp only [View.readAt_rep]
  exact View.read_writes_eq_canon _ _ _ (View.cover_of_tiled _ S2048x1024.size (by rfl))

end Generic

end Cert.KernelIdeal.Hand

end
-- ==== Proof.KI.Region2.lean ====
import proofs.«418604_j2156073583116_1_alg».proof.Proof.Gen.KernelIdeal.Launch
import proofs.«418604_j2156073583116_1_alg».proof.Proof.Gen.KernelIdeal.Skeleton
import proofs.«418604_j2156073583116_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.TableIdle
import Idealize.ShloMosaic.Lib.Ring

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

section Region2
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rM2 : Rect S1024x1024 := Rect.unit (s := S1024x1024) ![0, 0] S1024x1024.size inb_S1024x1024_S1024x1024_0_0
abbrev rB2 : Rect S1x1024 := Rect.unit (s := S1x1024) ![0, 0] S1x1024.size inb_S1x1024_S1x1024_0_0

-- The stored block: max(x0 · x2 + x1 · x3 + b, 0), with b the row x4 repeated down the rows.
def out2_5 (x0 x1 x2 x3 : Vec F S1024x1024 .bf16) (x4 : Vec F S1x1024 .f32) : Vec F S1024x1024 .f32 :=
  View.canon [⟨rM2, k2_pay1 (View.ld x0 rM2) (View.ld x1 rM2) (View.ld x2 rM2) (View.ld x3 rM2) (View.ld x4 rB2)⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem owed2 (c : Dev nD) (t) : (dat2 V c).owed t = 0 := rfl
theorem q2 (c : Dev nD) (w) : (dat2 V c).q w = fullShare := rfl
theorem Phi2 (c : Dev nD) (t) : (dat2 V c).Φ t = Pipeline.ΦA spec2 c := rfl
theorem after2_5 (c : Dev nD) (t : Fin cfg2.N) : (dat2 V c).after 5 t
    = out2_5 (iblk2 V c 0 t) (iblk2 V c 1 t) (iblk2 V c 2 t) (iblk2 V c 3 t) (iblk2 V c 4 t) := by dsimp only [dat2]

theorem before2 (c : Dev nD) (t : Fin cfg2.N) :
    (∀ d, (dat2 V c).before 0 t d = iblk2 V c 0 t) ∧ (∀ d, (dat2 V c).before 1 t d = iblk2 V c 1 t)
    ∧ (∀ d, (dat2 V c).before 2 t d = iblk2 V c 2 t) ∧ (∀ d, (dat2 V c).before 3 t d = iblk2 V c 3 t)
    ∧ (∀ d, (dat2 V c).before 4 t d = iblk2 V c 4 t) := by
  refine ⟨?_, ?_, ?_, ?_, ?_⟩ <;> exact fun d => ((dat2 V c).before_in_eq_fetched _ rfl (fun _ => rfl) (fun _ _ _ => rfl)
    (fun _ => by dsimp only [dat2]; rfl) t d).trans (by unfold Dat.fetched Dat.blockOf iblk2; dsimp only [dat2]; rfl)

theorem body_obligation2 (c : Dev nD) : BodyObligation (dat2 (F := F) V c) (defs₀ (F := F)) Variants.none () Set.univ := fun t => by
  rw [bigSep_W2, bigSep_W2]
  show _ ⊢ wp frame _ Set.univ (bodyAt2 t) _
  obtain ⟨b0, b1, b2, b3, b4⟩ := before2 V c t
  unfold bodyAt2
  simp only [b0, b1, b2, b3, b4, cc2__hidden_kernel_eq_skeleton, owns_eq_rep]; dsimp only [dat2]; unfold cc2__hidden_kernel_skel
  iintro ⟨HΦ, Ho, ⟨%_, H0⟩, ⟨%_, H1⟩, ⟨%_, H2⟩, ⟨%_, H3⟩, ⟨%_, H4⟩, ⟨%_, H5⟩⟩
  sl_exec
  sl_step
  iframe
  isplitl [Ho]; · iexact Ho
  rw [← owns_eq_rep]; unfold owns
  iexists _; isplitr
  swap; · iexact H5
  ipureintro
  sl_unfold_run_names
  simp only [View.readAt_rep]
  exact View.read_writes_eq_canon _ _ _ (View.cover_of_tiled _ S1024x1024.size (by rfl))

end Region2

end Cert.KernelIdeal.Hand

end
-- ==== Proof.KI.Region3.lean ====
import proofs.«418604_j2156073583116_1_alg».proof.Proof.Gen.KernelIdeal.Launch
import proofs.«418604_j2156073583116_1_alg».proof.Proof.Gen.KernelIdeal.Skeleton
import proofs.«418604_j2156073583116_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Generic

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3S : Rect S1024x1024 := Rect.unit (s := S1024x1024) ![0, 0] S1024x1024.size inb_S1024x1024_S1024x1024_0_0
abbrev r3A : Rect S2048x1024 := Rect.unit (s := S2048x1024) ![0, 0] S2048x1024.size inb_S2048x1024_S2048x1024_0_0
abbrev r3G : Rect S2048x1 := Rect.unit (s := S2048x1) ![0, 0] S2048x1.size inb_S2048x1_S2048x1_0_0

abbrev scM3 : Memref sig .tc .vmem S1024x1024 .f32 := Memref.whole cc3_scratch0

def reset3 : Vec F S1024x1024 .f32 :=
  View.canon [⟨r3S, k3_pay1 (F := F)⟩]

def step3 (x0 x1 : Vec F S2048x1024 .bf16) (x2 : Vec F S2048x1 .f32) (s : Vec F S1024x1024 .f32) : Vec F S1024x1024 .f32 :=
  View.canon [⟨r3S, k3_pay2 (View.ld x0 r3A) (View.ld x1 r3A) (View.ld x2 r3G) (View.ld s r3S)⟩]

def out3 (s : Vec F S1024x1024 .f32) : Vec F S1024x1024 .f32 :=
  View.canon [⟨r3S, View.ld s r3S⟩]

def acc3 (c : Dev nD) : (n : ℕ) → n < cfg3.N → Vec F S1024x1024 .f32
  | 0, hn => step3 (iblk3 V c 0 ⟨0, hn⟩) (iblk3 V c 1 ⟨0, hn⟩) (iblk3 V c 2 ⟨0, hn⟩) reset3
  | n + 1, hn => step3 (iblk3 V c 0 ⟨n + 1, hn⟩) (iblk3 V c 1 ⟨n + 1, hn⟩) (iblk3 V c 2 ⟨n + 1, hn⟩) (acc3 c n (Nat.lt_of_succ_lt hn))

def rest3 (c : Dev nD) : sProp 𝕄 :=
  iprop(Pipeline.scopedRestBut (Ix := Unit) (Name := ℕ) (U := UR sig nD τ) (Lvl := ℕ) (Val := Elt F) spec3 c [cc3_scratch0] ∗ ∃ r, prngReg c r)

/-- The invariant: past the first point the scratch holds the sum the point before left. -/
def Phi3 (c : Dev nD) : (n : ℕ) → n ≤ cfg3.N → sProp 𝕄
  | 0, _ => Pipeline.ΦA spec3 c
  | n + 1, hn => iprop(owns c scM3 fullShare (acc3 V c n hn) ∗ rest3 c)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3 (acc3 V c t.val t.isLt)
  Φ t := Phi3 V c t.val (Nat.le_of_lt_succ t.isLt)
  q _ := fullShare
  owed _ := 0

theorem A_eq3 (c : Dev nD) (w : Fin cfg3.W) : (dat3 V c).A w = V c (Pipeline.arrRef spec3 w) := rfl

theorem owed3 (c : Dev nD) (t : Fin (cfg3.N + 1)) : (dat3 V c).owed t = 0 := rfl

theorem q3 (c : Dev nD) (w : Fin cfg3.W) : (dat3 V c).q w = fullShare := rfl

theorem after3_3 (c : Dev nD) (t : Fin cfg3.N) : (dat3 V c).after 3 t = out3 (acc3 V c t.val t.isLt) := by dsimp only [dat3]

/-- Before a point the scratch is at some s; this point's sum adds its block to the cleared scratch at the first point, to s later. -/
theorem Phi3_elim (c : Dev nD) (t : Fin cfg3.N) :
    (dat3 V c).Φ t.castSucc ⊢ iprop(∃ s, ⌜acc3 V c t.val t.isLt
        = step3 ((dat3 V c).after 0 t) ((dat3 V c).after 1 t) ((dat3 V c).after 2 t) (if t.val = 0 then reset3 else s)⌝
      ∗ owns c scM3 fullShare s ∗ rest3 c) := by
  obtain ⟨_ | n, hn⟩ := t
  · show Pipeline.ΦA spec3 c ⊢ _
    unfold Pipeline.ΦA rest3; rw [scopedRest3_split]; simp only [scM3, owns_whole, if_true]
    iintro ⟨⟨⟨%s, HS⟩, Hrest⟩, Hg⟩
    iexists s; isplitr; · ipureintro; rfl
    iframe
  · show iprop(owns (c : Thread nD τ) scM3 fullShare (acc3 V c n (Nat.lt_of_succ_lt hn)) ∗ rest3 c) ⊢ _
    iintro H
    iexists acc3 V c n (Nat.lt_of_succ_lt hn); isplitr; · ipureintro; rw [if_neg (Nat.succ_ne_zero n)]; rfl
    iexact H

theorem before3 (c : Dev nD) (t : Fin cfg3.N) : (∀ d, (dat3 V c).before 0 t d = (dat3 V c).after 0 t)
    ∧ (∀ d, (dat3 V c).before 1 t d = (dat3 V c).after 1 t) ∧ ∀ d, (dat3 V c).before 2 t d = (dat3 V c).after 2 t := by
  refine ⟨fun d => ?_, fun d => ?_, fun d => ?_⟩ <;>
    exact ((dat3 V c).before_in_eq_fetched _ rfl (fun _ => rfl) (fun _ _ _ => rfl) (fun _ => rfl) t d).trans rfl

theorem hz3 : (![0, 0] : Fin 2 → Nat) = fun _ => 0 := funext fun a => by fin_cases a <;> rfl

theorem cover3_head (p : r3S.shape.Idx → Elt F .f32) (L : List (View.Piece (Elt F) S1024x1024 .f32)) (y : S1024x1024.Idx) :
    ∃ pc ∈ ((⟨r3S, p⟩ : View.Piece (Elt F) S1024x1024 .f32) :: L), y ∈ pc.1.set :=
  ⟨_, List.mem_cons_self, View.mem_set_unit_zero hz3 inb_S1024x1024_S1024x1024_0_0 y⟩

abbrev cond3_0 (i : grid3.Coords) : Prop := (Scalar.cmpi .ne (Scalar.extui (Scalar.cmpi .eq (BitVec.ofNat 32 (i 0).val) 0#32)) 0#32) = 1#1
abbrev cond3_1 (i : grid3.Coords) : Prop := k3_cond2 i = 1#1

/-- The body clears the scratch at the first point only and copies it out at the last only. -/
theorem hcond3 : ∀ t : Fin cfg3.N, (cond3_0 (grid3.coords t) ↔ t.val = 0) ∧ (cond3_1 (grid3.coords t) ↔ t.val = 3) := by
  decide +kernel

theorem idle3 : ∀ t : Fin cfg3.N, (∀ w : Fin cfg3.W, w ≠ 3 → cfg3.idle w (grid3.coords t) = false)
    ∧ (t.val = 3 → cfg3.idle 3 (grid3.coords t) = false)
    ∧ (t.val ≠ 3 → cfg3.idle 3 (grid3.coords t) = true ∧ (cfg3.win 3).flush t = false) := by decide +kernel

def Case3 (i : grid3.Coords) (x0 x1 : Vec F S2048x1024 .bf16) (x2 : Vec F S2048x1 .f32) (o s a o' : Vec F S1024x1024 .f32) : Prop :=
  cond3_0 i ∧ ¬cond3_1 i ∧ a = step3 x0 x1 x2 reset3 ∧ o' = o ∨ ¬cond3_0 i ∧ ¬cond3_1 i ∧ a = step3 x0 x1 x2 s ∧ o' = o
    ∨ ¬cond3_0 i ∧ cond3_1 i ∧ a = step3 x0 x1 x2 s ∧ o' = out3 a

/-- The body, once per case: its stores leave the scratch at this point's sum and, at the last point, the output buffer at the scratch. -/
theorem sound_kernel3 (c : Dev nD) (E : Set ℕ) (i : grid3.Coords)
    (arg1 : Memref sig .tc .vmem S2048x1024 .bf16) (harg1 : arg1.IsWhole) (arg2 : Memref sig .tc .vmem S2048x1024 .bf16) (harg2 : arg2.IsWhole)
    (arg3 : Memref sig .tc .vmem S2048x1 .f32) (harg3 : arg3.IsWhole) (arg4 : Memref sig .tc .vmem S1024x1024 .f32) (harg4 : arg4.IsWhole)
    (x0 x1 : Vec F S2048x1024 .bf16) (x2 : Vec F S2048x1 .f32) (o s a o' : Vec F S1024x1024 .f32) (K : PUnit → sProp 𝕄)
    (h : Case3 i x0 x1 x2 o s a o') :
    iprop(owns c scM3 fullShare s ∗ owns c arg4 fullShare o
        ∗ owns c arg1 fullShare x0 ∗ owns c arg2 fullShare x1 ∗ owns c arg3 fullShare x2
        ∗ (iprop(owns c scM3 fullShare a ∗ owns c arg4 fullShare o'
            ∗ owns c arg1 fullShare x0 ∗ owns c arg2 fullShare x1 ∗ owns c arg3 fullShare x2) -∗ K ⟨⟩))
      ⊢ wp frame (wpE (defs₀ (F := F)) Variants.none c none) E (cc3__cluster_in_kernel i arg1 harg1 arg2 harg2 arg3 harg3 arg4 harg4 scM3 (Memref.isWhole_whole _)) K := by
  simp only [cc3__cluster_in_kernel_eq_skeleton]; unfold cc3__cluster_in_kernel_skel owns
  iintro ⟨⟨%f5, %hf5, H5⟩, ⟨%f3, %hf3, H3⟩, ⟨%f0, %hf0, H0⟩, ⟨%f1, %hf1, H1⟩, ⟨%f2, %hf2, H2⟩, Hk⟩
  subst hf0 hf1 hf2 hf3 hf5
  rcases h with ⟨hc0, hc1, rfl, rfl⟩ | ⟨hc0, hc1, rfl, rfl⟩ | ⟨hc0, hc1, rfl, rfl⟩ <;>
  · sl_exec (disch := first | exact hc0 | exact hc1)
    sl_step
    iapply Hk
    isplitl [H5]
    on_goal 2 => isplitl [H3]
    on_goal 3 => sl_close
    all_goals
      iexists _; isplitr
      swap; · iassumption
      ipureintro
      sl_unfold_words
      simp only [step3, reset3, out3, View.read_writes_eq_canon _ _ _ (cover3_head _ _), View.canon_cons_unit_zero (S := S1024x1024) hz3,
        View.readCov_unit_zero (S := S1024x1024) _ hz3, View.readAt_eq_ld, View.ld_unit_zero (S := S2048x1024) hz3,
        View.ld_unit_zero (S := S2048x1) hz3, View.ld_unit_zero (S := S1024x1024) hz3]

/-- The position decides the case: the scratch ends at this point's sum, and only the last point changes the output buffer. -/
theorem case3 (c : Dev nD) (t : Fin cfg3.N) (s : Vec F S1024x1024 .f32) (d)
    (hs : acc3 V c t.val t.isLt = step3 ((dat3 V c).after 0 t) ((dat3 V c).after 1 t) ((dat3 V c).after 2 t) (if t.val = 0 then reset3 else s)) :
    ∃ o', Case3 (grid3.coords t) ((dat3 V c).after 0 t) ((dat3 V c).after 1 t) ((dat3 V c).after 2 t) ((dat3 V c).before 3 t d) s (acc3 V c t.val t.isLt) o'
      ∧ (owns c (st3_3 t) fullShare o' ⊢ (dat3 V c).leavesExact 3 t) := by
  obtain ⟨h0, h1⟩ := hcond3 t
  by_cases h3 : t.val = 3
  · refine ⟨out3 (acc3 V c t.val t.isLt), .inr (.inr ⟨fun h => by have := h0.mp h; omega, h1.mpr h3, by rw [hs, if_neg (by omega)], rfl⟩), ?_⟩
    unfold Dat.leavesExact; rw [(idle3 t).2.1 h3, after3_3]
  · refine ⟨(dat3 V c).before 3 t d, ?_, ?_⟩
    · by_cases hz : t.val = 0
      · exact .inl ⟨h0.mpr hz, fun h => h3 (h1.mp h), by rw [hs, if_pos hz], rfl⟩
      · exact .inr (.inl ⟨fun h => hz (h0.mp h), fun h => h3 (h1.mp h), by rw [hs, if_neg hz], rfl⟩)
    · rw [Dat.leavesExact_idle _ 3 t ((idle3 t).2.2 h3).1 ((idle3 t).2.2 h3).2]
      iintro H; iexists d; iexact H

theorem body_obligation3 (c : Dev nD) : BodyObligation (dat3 (F := F) V c) (defs₀ (F := F)) Variants.none () Set.univ := by
  intro t
  rw [bigSep_W3, bigSep_W3]
  show _ ⊢ wp _ _ _ (bodyAt3 t) _
  simp only [(before3 V c t).1, (before3 V c t).2.1, (before3 V c t).2.2, (idle3 t).1 0 (by decide), (idle3 t).1 1 (by decide), (idle3 t).1 2 (by decide)]
  rw [show (dat3 V c).owesAt () t.succ = (dat3 V c).owesAt () t.castSucc from rfl,
    show (dat3 V c).Φ t.succ = iprop(owns c scM3 fullShare (acc3 V c t.val t.isLt) ∗ rest3 c) from rfl]
  iintro ⟨HΦ, Ho, ⟨%d0, H0⟩, ⟨%d1, H1⟩, ⟨%d2, H2⟩, ⟨%d3, H3⟩⟩
  ihave HΦ' := (Phi3_elim V c t) $$ HΦ
  icases HΦ' with ⟨%s, %hs, HS, Hrest⟩
  obtain ⟨o', hcase, hout⟩ := case3 V c t s d3 hs
  iapply (sound_kernel3 c Set.univ (grid3.coords t) _ _ _ _ _ _ _ _ _ _ _ _ s _ o' _ hcase)
  iframe
  iintro ⟨HS, H3, H0, H1, H2⟩
  iframe
  iapply hout; iexact H3

theorem hin3 (c : Dev nD) :
    (iprop((∃ r, prngReg c r) ∗ Pipeline.prefHeld (pcfgs (F := F) 3).pre c (fun _ => fullShare) ((cfgs 3).toPCfg_adm (Val := Elt F)).1 ∗ Pipeline.scopedRest spec3 c) : sProp 𝕄)
      ⊢ (dat3 V c).Φ 0 := by
  rw [show (dat3 V c).Φ 0 = Pipeline.ΦA spec3 c from rfl]; unfold Pipeline.ΦA
  iintro ⟨Hp, -, Hr⟩
  iframe

theorem hout3 (c : Dev nD) :
    (dat3 V c).Φ (Fin.last cfg3.N)
      ⊢ (iprop((∃ r, prngReg c r) ∗ Pipeline.ownSems0 (fun k : PEmpty => k.elim) c ∗ Pipeline.scopedRest spec3 c) : sProp 𝕄) := by
  rw [Pipeline.ownSems0_none, scopedRest3_split]
  show iprop(owns (c : Thread nD τ) scM3 fullShare (acc3 V c 3 (by decide)) ∗ rest3 c) ⊢ _
  unfold rest3; simp only [scM3, owns_whole]
  iintro ⟨HS, Hrest, Hg⟩
  iframe Hg Hrest; isplitr; · iempintro
  iexists _; iexact HS

end Generic

end Cert.KernelIdeal.Hand

end
-- ==== Proof.KI.Region4.lean ====
import proofs.«418604_j2156073583116_1_alg».proof.Proof.Gen.KernelIdeal.Launch
import proofs.«418604_j2156073583116_1_alg».proof.Proof.Gen.KernelIdeal.Skeleton
import proofs.«418604_j2156073583116_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.TableIdle
import Idealize.ShloMosaic.Lib.Ring

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

section Region4
variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev rIdx4 : Rect S1024x1 := Rect.unit (s := S1024x1) ![0, 0] S1024x1.size inb_S1024x1_S1024x1_0_0
abbrev rFeat4 : Rect S1024x32 := Rect.unit (s := S1024x32) ![0, 0] S1024x32.size inb_S1024x32_S1024x32_0_0
abbrev rW04 : Rect S32x1024 := Rect.unit (s := S32x1024) ![0, 0] S32x1024.size inb_S32x1024_S32x1024_0_0
abbrev rSq4 : Rect S1024x1024 := Rect.unit (s := S1024x1024) ![0, 0] S1024x1024.size inb_S1024x1024_S1024x1024_0_0
abbrev rBias4 : Rect S1x1024 := Rect.unit (s := S1x1024) ![0, 0] S1x1024.size inb_S1x1024_S1x1024_0_0

-- The stored block: x2 · x3 + E0 · x4 + E1 · x5 + b, where Ek has a one where the column number equals the index xk and zeros elsewhere, and b is the row x6 repeated down the rows.
def out4_7 (x0 x1 : Vec F S1024x1 .i32) (x2 : Vec F S1024x32 .bf16) (x3 : Vec F S32x1024 .bf16)
    (x4 x5 : Vec F S1024x1024 .bf16) (x6 : Vec F S1x1024 .f32) : Vec F S1024x1024 .f32 :=
  View.canon [⟨rSq4, k4_pay1 (View.ld x0 rIdx4) (View.ld x1 rIdx4) (View.ld x2 rFeat4) (View.ld x3 rW04) (View.ld x4 rSq4) (View.ld x5 rSq4) (View.ld x6 rBias4)⟩]

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => out4_7 (iblk4 V c 0 t) (iblk4 V c 1 t) (iblk4 V c 2 t) (iblk4 V c 3 t) (iblk4 V c 4 t) (iblk4 V c 5 t) (iblk4 V c 6 t)
  Φ _ := Pipeline.ΦA spec4 c
  q _ := fullShare
  owed _ := 0

theorem A_eq4 (c : Dev nD) (w : Fin cfg4.W) : (dat4 V c).A w = V c (Pipeline.arrRef spec4 w) := by
  dsimp only [dat4]
theorem owed4 (c : Dev nD) (t : Fin (cfg4.N + 1)) : (dat4 V c).owed t = 0 := rfl
theorem q4 (c : Dev nD) (w : Fin cfg4.W) : (dat4 V c).q w = fullShare := rfl
theorem Phi4 (c : Dev nD) (t : Fin (cfg4.N + 1)) : (dat4 V c).Φ t = Pipeline.ΦA spec4 c := rfl
theorem after4_7 (c : Dev nD) (t : Fin cfg4.N) : (dat4 V c).after 7 t
    = out4_7 (iblk4 V c 0 t) (iblk4 V c 1 t) (iblk4 V c 2 t) (iblk4 V c 3 t) (iblk4 V c 4 t) (iblk4 V c 5 t) (iblk4 V c 6 t) := by dsimp only [dat4]

theorem before4 (c : Dev nD) (t : Fin cfg4.N) :
    (∀ d, (dat4 V c).before 0 t d = iblk4 V c 0 t) ∧ (∀ d, (dat4 V c).before 1 t d = iblk4 V c 1 t)
    ∧ (∀ d, (dat4 V c).before 2 t d = iblk4 V c 2 t) ∧ (∀ d, (dat4 V c).before 3 t d = iblk4 V c 3 t)
    ∧ (∀ d, (dat4 V c).before 4 t d = iblk4 V c 4 t) ∧ (∀ d, (dat4 V c).before 5 t d = iblk4 V c 5 t)
    ∧ (∀ d, (dat4 V c).before 6 t d = iblk4 V c 6 t) := by
  refine ⟨?_, ?_, ?_, ?_, ?_, ?_, ?_⟩ <;> exact fun d => ((dat4 V c).before_in_eq_fetched _ rfl (fun _ => rfl) (fun _ _ _ => rfl)
    (fun _ => by dsimp only [dat4]; rfl) t d).trans (by unfold Dat.fetched Dat.blockOf iblk4; dsimp only [dat4]; rfl)

theorem body_obligation4 (c : Dev nD) : BodyObligation (dat4 (F := F) V c) (defs₀ (F := F)) Variants.none () Set.univ := fun t => by
  rw [bigSep_W4, bigSep_W4]
  show _ ⊢ wp frame _ Set.univ (bodyAt4 t) _
  obtain ⟨b0, b1, b2, b3, b4, b5, b6⟩ := before4 V c t
  unfold bodyAt4
  simp only [b0, b1, b2, b3, b4, b5, b6, cc4__gather_action_kernel_eq_skeleton, owns_eq_rep]; dsimp only [dat4]; unfold cc4__gather_action_kernel_skel
  iintro ⟨HΦ, Ho, ⟨%_, H0⟩, ⟨%_, H1⟩, ⟨%_, H2⟩, ⟨%_, H3⟩, ⟨%_, H4⟩, ⟨%_, H5⟩, ⟨%_, H6⟩, ⟨%_, H7⟩⟩
  sl_exec
  sl_step
  iframe
  isplitl [Ho]; · iexact Ho
  rw [← owns_eq_rep]; unfold owns
  iexists _; isplitr
  swap; · iexact H7
  ipureintro
  sl_unfold_run_names
  simp only [View.readAt_rep]
  exact View.read_writes_eq_canon _ _ _ (View.cover_of_tiled _ S1024x1024.size (by rfl))

end Region4

end Cert.KernelIdeal.Hand

end
-- ==== Proof.KI.Launch.lean ====
import proofs.«418604_j2156073583116_1_alg».proof.Proof.Gen.KernelIdeal.Regions
import proofs.«418604_j2156073583116_1_alg».proof.Proof.Gen.KernelIdeal.Skeleton
import proofs.«418604_j2156073583116_1_alg».proof.Proof.KI.Region0
import proofs.«418604_j2156073583116_1_alg».proof.Proof.KI.Region1
import proofs.«418604_j2156073583116_1_alg».proof.Proof.KI.Region2
import proofs.«418604_j2156073583116_1_alg».proof.Proof.KI.Region3
import proofs.«418604_j2156073583116_1_alg».proof.Proof.KI.Region4
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Run

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev tcOf (W : Dev nD → Valuation τ sig (Elt F)) :
    (c : Dev nD) → (b : Ref sig .tc) → Buf (Elt F) ((c : Thread nD τ).loc b) := fun c b => W c b

abbrev W0 : Dev nD → Valuation τ sig (Elt F) := fun c b => (s₀ m ρ).mem ((c : Dev nD), b)

abbrev W1 : Dev nD → Valuation τ sig (Elt F) := fun c => StableHlo.after hostOps0 (W0 m ρ c)

def W2 (c : Dev nD) : Valuation τ sig (Elt F) :=
  Pipeline.withArrays spec0 c (W1 m ρ c) fun w => (dat0 (tcOf (W1 m ρ)) c).arrAt w cfg0.N

def W3 (c : Dev nD) : Valuation τ sig (Elt F) :=
  Pipeline.withArrays spec1 c (W2 m ρ c) fun w => (dat1 (tcOf (W2 m ρ)) c).arrAt w cfg1.N

abbrev W4 : Dev nD → Valuation τ sig (Elt F) := fun c => StableHlo.after hostOps2 (W3 m ρ c)

def W5 (c : Dev nD) : Valuation τ sig (Elt F) :=
  Pipeline.withArrays spec2 c (W4 m ρ c) fun w => (dat2 (tcOf (W4 m ρ)) c).arrAt w cfg2.N

abbrev W6 : Dev nD → Valuation τ sig (Elt F) := fun c => StableHlo.after hostOps3 (W5 m ρ c)

def W7 (c : Dev nD) : Valuation τ sig (Elt F) :=
  Pipeline.withArrays spec3 c (W6 m ρ c) fun w => (dat3 (tcOf (W6 m ρ)) c).arrAt w cfg3.N

abbrev W8 : Dev nD → Valuation τ sig (Elt F) := fun c => StableHlo.after hostOps4 (W7 m ρ c)
abbrev W9 : Dev nD → Valuation τ sig (Elt F) := fun c => StableHlo.after hostOps4_1 (W8 m ρ c)
abbrev W10 : Dev nD → Valuation τ sig (Elt F) := fun c => StableHlo.after hostOps4_2 (W9 m ρ c)
abbrev W11 : Dev nD → Valuation τ sig (Elt F) := fun c => StableHlo.after hostOps4_3 (W10 m ρ c)
abbrev W12 : Dev nD → Valuation τ sig (Elt F) := fun c => StableHlo.after hostOps4_4 (W11 m ρ c)
abbrev W13 : Dev nD → Valuation τ sig (Elt F) := fun c => StableHlo.after hostOps4_5 (W12 m ρ c)
abbrev W14 : Dev nD → Valuation τ sig (Elt F) := fun c => StableHlo.after hostOps4_6 (W13 m ρ c)

def W15 (c : Dev nD) : Valuation τ sig (Elt F) :=
  Pipeline.withArrays spec4 c (W14 m ρ c) fun w => (dat4 (tcOf (W14 m ρ)) c).arrAt w cfg4.N

abbrev W16 : Dev nD → Valuation τ sig (Elt F) := fun c => StableHlo.after hostOps5 (W15 m ρ c)
abbrev W17 : Dev nD → Valuation τ sig (Elt F) := fun c => StableHlo.after hostOps5_1 (W16 m ρ c)

theorem W2_arr (c : Dev nD) (w : Fin cfg0.W) :
    W2 m ρ c (Proc.devRef .tc (Pipeline.arrRef spec0 w)) = (dat0 (tcOf (W1 m ρ)) c).arrAt w cfg0.N :=
  Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) :=
  Pipeline.withArrays_of_ne spec0 c _ _ b hb
theorem W3_arr (c : Dev nD) (w : Fin cfg1.W) :
    W3 m ρ c (Proc.devRef .tc (Pipeline.arrRef spec1 w)) = (dat1 (tcOf (W2 m ρ)) c).arrAt w cfg1.N :=
  Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) :=
  Pipeline.withArrays_of_ne spec1 c _ _ b hb
theorem W5_arr (c : Dev nD) (w : Fin cfg2.W) :
    W5 m ρ c (Proc.devRef .tc (Pipeline.arrRef spec2 w)) = (dat2 (tcOf (W4 m ρ)) c).arrAt w cfg2.N :=
  Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) :=
  Pipeline.withArrays_of_ne spec2 c _ _ b hb
theorem W7_arr (c : Dev nD) (w : Fin cfg3.W) :
    W7 m ρ c (Proc.devRef .tc (Pipeline.arrRef spec3 w)) = (dat3 (tcOf (W6 m ρ)) c).arrAt w cfg3.N :=
  Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) :=
  Pipeline.withArrays_of_ne spec3 c _ _ b hb
theorem W15_arr (c : Dev nD) (w : Fin cfg4.W) :
    W15 m ρ c (Proc.devRef .tc (Pipeline.arrRef spec4 w)) = (dat4 (tcOf (W14 m ρ)) c).arrAt w cfg4.N :=
  Pipeline.withArrays_arr spec4 launch4.win.arr_inj c _ _ w
theorem W15_of_ne (c : Dev nD) (b : Ref sig .tc) (hb : ∀ w, Pipeline.arrRef spec4 w ≠ b) :
    W15 m ρ c (Proc.devRef .tc b) = W14 m ρ c (Proc.devRef .tc b) :=
  Pipeline.withArrays_of_ne spec4 c _ _ b hb

theorem W1_of (c : Dev nD) (r : Ref sig .tc) (h : r ∉ hostOps0_W) : W1 m ρ c r = W0 m ρ c r :=
  StableHlo.after_of_writes_sub hostOps0 _ hostOps0_writes h
theorem W4_of (c : Dev nD) (r : Ref sig .tc) (h : r ∉ hostOps2_W) : W4 m ρ c r = W3 m ρ c r :=
  StableHlo.after_of_writes_sub hostOps2 _ hostOps2_writes h
theorem W6_of (c : Dev nD) (r : Ref sig .tc) (h : r ∉ hostOps3_W) : W6 m ρ c r = W5 m ρ c r :=
  StableHlo.after_of_writes_sub hostOps3 _ hostOps3_writes h
theorem W8_of (c : Dev nD) (r : Ref sig .tc) (h : r ∉ hostOps4_W) : W8 m ρ c r = W7 m ρ c r :=
  StableHlo.after_of_writes_sub hostOps4 _ hostOps4_writes h
theorem W9_of (c : Dev nD) (r : Ref sig .tc) (h : r ∉ hostOps4_1_W) : W9 m ρ c r = W8 m ρ c r :=
  StableHlo.after_of_writes_sub hostOps4_1 _ hostOps4_1_writes h
theorem W10_of (c : Dev nD) (r : Ref sig .tc) (h : r ∉ hostOps4_2_W) : W10 m ρ c r = W9 m ρ c r :=
  StableHlo.after_of_writes_sub hostOps4_2 _ hostOps4_2_writes h
theorem W11_of (c : Dev nD) (r : Ref sig .tc) (h : r ∉ hostOps4_3_W) : W11 m ρ c r = W10 m ρ c r :=
  StableHlo.after_of_writes_sub hostOps4_3 _ hostOps4_3_writes h
theorem W12_of (c : Dev nD) (r : Ref sig .tc) (h : r ∉ hostOps4_4_W) : W12 m ρ c r = W11 m ρ c r :=
  StableHlo.after_of_writes_sub hostOps4_4 _ hostOps4_4_writes h
theorem W13_of (c : Dev nD) (r : Ref sig .tc) (h : r ∉ hostOps4_5_W) : W13 m ρ c r = W12 m ρ c r :=
  StableHlo.after_of_writes_sub hostOps4_5 _ hostOps4_5_writes h
theorem W14_of (c : Dev nD) (r : Ref sig .tc) (h : r ∉ hostOps4_6_W) : W14 m ρ c r = W13 m ρ c r :=
  StableHlo.after_of_writes_sub hostOps4_6 _ hostOps4_6_writes h
theorem W16_of (c : Dev nD) (r : Ref sig .tc) (h : r ∉ hostOps5_W) : W16 m ρ c r = W15 m ρ c r :=
  StableHlo.after_of_writes_sub hostOps5 _ hostOps5_writes h
theorem W17_of (c : Dev nD) (r : Ref sig .tc) (h : r ∉ hostOps5_1_W) : W17 m ρ c r = W16 m ρ c r :=
  StableHlo.after_of_writes_sub hostOps5_1 _ hostOps5_1_writes h

abbrev hostWritten : List (Ref sig .tc) :=
  hostOps0_W ++ hostOps2_W ++ hostOps3_W ++ hostOps4_W ++ hostOps4_1_W ++ hostOps4_2_W ++ hostOps4_3_W
    ++ hostOps4_4_W ++ hostOps4_5_W ++ hostOps4_6_W ++ hostOps5_W ++ hostOps5_1_W

theorem W17_untouched (c : Dev nD) (r : Ref sig .tc) (h : r ∉ (hostWritten : List (Ref sig .tc)))
    (h0 : ∀ w, Pipeline.arrRef spec0 w ≠ r) (h1 : ∀ w, Pipeline.arrRef spec1 w ≠ r)
    (h2 : ∀ w, Pipeline.arrRef spec2 w ≠ r) (h3 : ∀ w, Pipeline.arrRef spec3 w ≠ r)
    (h4 : ∀ w, Pipeline.arrRef spec4 w ≠ r) :
    W17 m ρ c (Proc.devRef .tc r) = m ((c : Thread nD τ).loc r) := by
  have e := h
  simp only [hostWritten, List.mem_append, not_or] at e
  obtain ⟨⟨⟨⟨⟨⟨⟨⟨⟨⟨⟨a0, a2⟩, a3⟩, a4⟩, a41⟩, a42⟩, a43⟩, a44⟩, a45⟩, a46⟩, a5⟩, a51⟩ := e
  exact (W17_of m ρ c r a51).trans <| (W16_of m ρ c r a5).trans <| (W15_of_ne m ρ c r h4).trans <|
    (W14_of m ρ c r a46).trans <| (W13_of m ρ c r a45).trans <| (W12_of m ρ c r a44).trans <|
    (W11_of m ρ c r a43).trans <| (W10_of m ρ c r a42).trans <| (W9_of m ρ c r a41).trans <|
    (W8_of m ρ c r a4).trans <| (W7_of_ne m ρ c r h3).trans <| (W6_of m ρ c r a3).trans <|
    (W5_of_ne m ρ c r h2).trans <| (W4_of m ρ c r a2).trans <| (W3_of_ne m ρ c r h1).trans <|
    (W2_of_ne m ρ c r h0).trans <| W1_of m ρ c r a0

def pdats : (p : Fin 5) → (c : Dev nD) → Dat τ (Elt F) Unit ℕ (UR sig nD τ) ℕ (Pipeline.pin (pcfgs (F := F)) adm p) c
  | ⟨0, _⟩ => fun c => dat0 (tcOf (W1 m ρ)) c
  | ⟨1, _⟩ => fun c => dat1 (tcOf (W2 m ρ)) c
  | ⟨2, _⟩ => fun c => dat2 (tcOf (W4 m ρ)) c
  | ⟨3, _⟩ => fun c => dat3 (tcOf (W6 m ρ)) c
  | ⟨4, _⟩ => fun c => dat4 (tcOf (W14 m ρ)) c

abbrev 𝒱₀ : Variants := Variants.none

abbrev L : GSem nD τ sig → Finset Unit := fun _ => ∅
abbrev lv : GSem nD τ sig → Unit → ℕ := fun _ _ => 0

abbrev R (c : Dev nD) : sProp 𝕄 :=
  iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

section Protocol

variable (pd : (p : Fin 5) → (c : Dev nD) → Dat τ (Elt F) Unit ℕ (UR sig nD τ) ℕ (Pipeline.pin (pcfgs (F := F)) adm p) c)

set_option backward.isDefEq.respectTransparency.types false in

theorem entry_of (p : Fin 5) (hw : Pipeline.WinFacts (Pipeline.pin (pcfgs (F := F)) adm p).spec)
    (harr : ∀ w, ((Pipeline.pin (pcfgs (F := F)) adm p).spec w).arr.IsWhole) (c : Dev nD)
    (hq : ∀ w, (pd p c).q w = fullShare) (howed : ∀ t, (pd p c).owed t = 0)
    (hrec : (pd p c).recorded 0 = Set.univ) (W : Valuation τ sig (Elt F))
    (hA : ∀ w, (pd p c).A w = W (Proc.devRef .tc (Pipeline.arrRef (Pipeline.pin (pcfgs (F := F)) adm p).spec w)))
    (hP : (BI.emp : sProp 𝕄) ⊢ Pipeline.prefHeld (pcfgs (F := F) p).pre c (fun _ => fullShare) (adm p).1) :
    (iprop((StableHlo.held (c : Thread nD τ) (Pipeline.ucRefs τ sig) W ∗ R c)
        ∗ Pipeline.ownSems0 (fun k : PEmpty => k.elim) c ∗ levAts L lv) : sProp 𝕄)
      ⊢ |={Set.univ}=> iprop((pd p c).arrays ((pd p c).arrAt · 0)
          ∗ Pipeline.prefHeld (pcfgs (F := F) p).pre c (fun _ => fullShare) (adm p).1
          ∗ (pd p c).owesAt () 0 ∗ (∃ r, prngReg c r)
          ∗ Pipeline.unscopedRest (Ix := Unit) (Name := ℕ) (U := UR sig nD τ) (Lvl := ℕ) (Pipeline.pin (pcfgs (F := F)) adm p).spec c (fun b => W b)) := by
  have hsplit := Pipeline.arrays_of_unscopedBufs (p := p) (pcfgs (F := F)) adm pd hw harr c
    ((pd p c).share_full hq) (fun b => W b) hA
  rw [Pipeline.unscopedBufs_held] at hsplit
  iintro ⟨⟨Hub, Hg, HO⟩, -, -⟩
  ihave H := hsplit $$ Hub
  icases H with ⟨Ha, Hrest⟩
  imodintro
  isplitl [Ha]; · iexact Ha
  isplitr; · iapply hP; iempintro
  isplitl [HO]
  · unfold Pipeline.Dat.owesAt Pipeline.owesWithin
    icases HO with ⟨%T, HO⟩; iexists T
    isplitr; · ipureintro; exact fun x _ => Or.inl (by rw [hrec]; exact Set.mem_univ x)
    rw [howed 0]; iexact HO
  isplitl [Hg]; · iexact Hg
  iexact Hrest

set_option backward.isDefEq.respectTransparency.types false in

theorem exit_of (p : Fin 5) (hw : Pipeline.WinFacts (Pipeline.pin (pcfgs (F := F)) adm p).spec)
    (harr : ∀ w, ((Pipeline.pin (pcfgs (F := F)) adm p).spec w).arr.IsWhole) (c : Dev nD)
    (hq : ∀ w, (pd p c).q w = fullShare) (howed : ∀ t, (pd p c).owed t = 0) (W W' : Valuation τ sig (Elt F))
    (hF : ∀ w, (pd p c).arrAt w (Pipeline.pin (pcfgs (F := F)) adm p).N = W' (Proc.devRef .tc (Pipeline.arrRef (Pipeline.pin (pcfgs (F := F)) adm p).spec w)))
    (hrest : ∀ b : Ref sig .tc, (∀ w, Pipeline.arrRef (Pipeline.pin (pcfgs (F := F)) adm p).spec w ≠ b) → W' (Proc.devRef .tc b) = W (Proc.devRef .tc b)) :
    (iprop((pd p c).arrays ((pd p c).arrAt · (Pipeline.pin (pcfgs (F := F)) adm p).N) ∗ (pd p c).owesAt () (Fin.last (Pipeline.pin (pcfgs (F := F)) adm p).N)
        ∗ (∃ r, prngReg c r)
        ∗ Pipeline.unscopedRest (Ix := Unit) (Name := ℕ) (U := UR sig nD τ) (Lvl := ℕ) (Pipeline.pin (pcfgs (F := F)) adm p).spec c (fun b => W b)) : sProp 𝕄)
      ⊢ |={Set.univ}=> iprop(StableHlo.held (c : Thread nD τ) (Pipeline.ucRefs τ sig) W' ∗ R c) := by
  have hjoin := Pipeline.unscopedBufs_of_arrays (p := p) (pcfgs (F := F)) adm (Ix := Unit) (Name := ℕ) (U := UR sig nD τ) (Lvl := ℕ)
    hw harr c pd ((pd p c).share_full hq) (fun b => W b) (fun b => W' b) ((pd p c).arrAt · (Pipeline.pin (pcfgs (F := F)) adm p).N) hF
    (fun b hb => hrest b fun w e => hb (Finset.mem_image.mpr ⟨w, Finset.mem_univ _, e⟩))
  rw [Pipeline.unscopedBufs_held] at hjoin
  iintro ⟨Ha, HO, Hg, Hrest⟩
  imodintro
  isplitl [Ha Hrest]
  · iapply hjoin; isplitl [Ha] <;> iassumption
  isplitl [Hg]; · iexact Hg
  unfold Pipeline.Dat.owesAt Pipeline.owesWithin
  rw [howed (Fin.last _)]
  icases HO with ⟨%T, -, HO⟩; iexists T; iexact HO

end Protocol

theorem hinA {gr Wn : Nat} (win : Fin Wn → Pipeline.WinSpec sig gr) (c : Dev nD) (P : sProp 𝕄) :
    (iprop((∃ r, prngReg c r) ∗ P ∗ Pipeline.scopedRest win c) : sProp 𝕄) ⊢ Pipeline.ΦA win c := by
  unfold Pipeline.ΦA
  iintro ⟨Hg, -, Hs⟩
  isplitl [Hs]; · iexact Hs
  iexact Hg

theorem houtA {gr Wn : Nat} (win : Fin Wn → Pipeline.WinSpec sig gr) (c : Dev nD) :
    (Pipeline.ΦA win c : sProp 𝕄)
      ⊢ iprop((∃ r, prngReg c r) ∗ Pipeline.ownSems0 (fun k : PEmpty => k.elim) c ∗ Pipeline.scopedRest win c) := by
  rw [Pipeline.ownSems0_none]; unfold Pipeline.ΦA
  iintro ⟨Hs, Hg⟩
  isplitl [Hg]; · iexact Hg
  isplitr; · iempintro
  iexact Hs

theorem prefHeld_emp (c : Dev nD) : ∀ p : Fin 5, (BI.emp : sProp 𝕄) ⊢ Pipeline.prefHeld (pcfgs (F := F) p).pre c (fun _ => fullShare) (adm p).1
  | ⟨0, _⟩ | ⟨1, _⟩ | ⟨2, _⟩ | ⟨3, _⟩ | ⟨4, _⟩ => by
    unfold Pipeline.prefHeld; rw [show (Finset.univ : Finset (Fin 0)) = ∅ from rfl, BI.bigSep_empty]; try exact .rfl

set_option backward.isDefEq.respectTransparency.types false in
def regOf (p : Fin 5) (lf : Pipeline.LaunchFacts (nD := nD) (τ := τ) cfgs p) (W W' : Dev nD → Valuation τ sig (Elt F))
    (hbody : ∀ c, BodyObligation (pdats m ρ p c) (defs₀ (F := F)) 𝒱₀ () Set.univ)
    (hq : ∀ c w, (pdats m ρ p c).q w = fullShare) (howed : ∀ c t, (pdats m ρ p c).owed t = 0)
    (hrec : ∀ c, (pdats m ρ p c).recorded 0 = Set.univ)
    (hA : ∀ c w, (pdats m ρ p c).A w = W c (Proc.devRef .tc (Pipeline.arrRef (Pipeline.pin (pcfgs (F := F)) adm p).spec w)))
    (hin : ∀ c, (iprop((∃ r, prngReg c r) ∗ Pipeline.prefHeld (pcfgs (F := F) p).pre c (fun _ => fullShare) (adm p).1
      ∗ Pipeline.scopedRest (Pipeline.pin (pcfgs (F := F)) adm p).spec c) : sProp 𝕄) ⊢ (pdats m ρ p c).Φ 0)
    (hout : ∀ c, (pdats m ρ p c).Φ (Fin.last (Pipeline.pin (pcfgs (F := F)) adm p).N)
      ⊢ (iprop((∃ r, prngReg c r) ∗ Pipeline.ownSems0 (fun k : PEmpty => k.elim) c ∗ Pipeline.scopedRest (Pipeline.pin (pcfgs (F := F)) adm p).spec c) : sProp 𝕄))
    (hF : ∀ c w, (pdats m ρ p c).arrAt w (Pipeline.pin (pcfgs (F := F)) adm p).N = W' c (Proc.devRef .tc (Pipeline.arrRef (Pipeline.pin (pcfgs (F := F)) adm p).spec w)))
    (hrest : ∀ c (b : Ref sig .tc), (∀ w, Pipeline.arrRef (Pipeline.pin (pcfgs (F := F)) adm p).spec w ≠ b) → W' c (Proc.devRef .tc b) = W c (Proc.devRef .tc b)) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (W c) ∗ R c)
  post c := iprop(StableHlo.held (c : Thread nD τ) (Pipeline.ucRefs τ sig) (W' c) ∗ R c)
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c (tcOf W c)
  hentry c := entry_of (pdats m ρ) p lf.win lf.arr_whole c (hq c) (howed c) (hrec c) (W c) (hA c) (prefHeld_emp c p)
  hin := hin
  hout := hout
  hexit c := exit_of (pdats m ρ) p lf.win lf.arr_whole c (hq c) (howed c) (W c) (W' c) (hF c) (hrest c)

def reg0 : Pipeline.RegionSeg (pcfgs (F := F)) adm (pdats m ρ) () defs₀ 𝒱₀ L lv 0 :=
  regOf m ρ 0 launch0 (W1 m ρ) (W2 m ρ) (body_obligation0 (tcOf (W1 m ρ))) (q0 (tcOf (W1 m ρ))) (owed0 (tcOf (W1 m ρ))) (fun _ => rfl)
    (A_eq0 (tcOf (W1 m ρ))) (hin0 (tcOf (W1 m ρ))) (hout0 (tcOf (W1 m ρ))) (fun c w => (W2_arr m ρ c w).symm) (W2_of_ne m ρ)

def reg1 : Pipeline.RegionSeg (pcfgs (F := F)) adm (pdats m ρ) () defs₀ 𝒱₀ L lv 1 :=
  regOf m ρ 1 launch1 (W2 m ρ) (W3 m ρ) (body_obligation1 (tcOf (W2 m ρ))) (q1 (tcOf (W2 m ρ))) (owed1 (tcOf (W2 m ρ))) (fun _ => rfl)
    (A_eq1 (tcOf (W2 m ρ)))
    (fun c => by show _ ⊢ (dat1 (tcOf (W2 m ρ)) c).Φ 0; rw [Phi1]; exact hinA spec1 c _)
    (fun c => by show (dat1 (tcOf (W2 m ρ)) c).Φ (Fin.last cfg1.N) ⊢ _; rw [Phi1]; exact houtA spec1 c)
    (fun c w => (W3_arr m ρ c w).symm) (W3_of_ne m ρ)

def reg2 : Pipeline.RegionSeg (pcfgs (F := F)) adm (pdats m ρ) () defs₀ 𝒱₀ L lv 2 :=
  regOf m ρ 2 launch2 (W4 m ρ) (W5 m ρ) (body_obligation2 (tcOf (W4 m ρ))) (q2 (tcOf (W4 m ρ))) (owed2 (tcOf (W4 m ρ))) (fun _ => rfl)
    (A_eq2 (tcOf (W4 m ρ)))
    (fun c => by show _ ⊢ (dat2 (tcOf (W4 m ρ)) c).Φ 0; rw [Phi2]; exact hinA spec2 c _)
    (fun c => by show (dat2 (tcOf (W4 m ρ)) c).Φ (Fin.last cfg2.N) ⊢ _; rw [Phi2]; exact houtA spec2 c)
    (fun c w => (W5_arr m ρ c w).symm) (W5_of_ne m ρ)

def reg3 : Pipeline.RegionSeg (pcfgs (F := F)) adm (pdats m ρ) () defs₀ 𝒱₀ L lv 3 :=
  regOf m ρ 3 launch3 (W6 m ρ) (W7 m ρ) (body_obligation3 (tcOf (W6 m ρ))) (q3 (tcOf (W6 m ρ))) (owed3 (tcOf (W6 m ρ))) (fun _ => rfl)
    (A_eq3 (tcOf (W6 m ρ))) (hin3 (tcOf (W6 m ρ))) (hout3 (tcOf (W6 m ρ))) (fun c w => (W7_arr m ρ c w).symm) (W7_of_ne m ρ)

def reg4 : Pipeline.RegionSeg (pcfgs (F := F)) adm (pdats m ρ) () defs₀ 𝒱₀ L lv 4 :=
  regOf m ρ 4 launch4 (W14 m ρ) (W15 m ρ) (body_obligation4 (tcOf (W14 m ρ))) (q4 (tcOf (W14 m ρ))) (owed4 (tcOf (W14 m ρ))) (fun _ => rfl)
    (A_eq4 (tcOf (W14 m ρ)))
    (fun c => by show _ ⊢ (dat4 (tcOf (W14 m ρ)) c).Φ 0; rw [Phi4]; exact hinA spec4 c _)
    (fun c => by show (dat4 (tcOf (W14 m ρ)) c).Φ (Fin.last cfg4.N) ⊢ _; rw [Phi4]; exact houtA spec4 c)
    (fun c w => (W15_arr m ρ c w).symm) (W15_of_ne m ρ)

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)),
    .region (reg2 m ρ),
    .host (hseg hostOps3 hostOps3_sub hostOps3_fresh (W5 m ρ)),
    .region (reg3 m ρ),
    .host (hseg hostOps4 hostOps4_sub hostOps4_fresh (W7 m ρ)),
    .host (hseg hostOps4_1 hostOps4_1_sub hostOps4_1_fresh (W8 m ρ)),
    .host (hseg hostOps4_2 hostOps4_2_sub hostOps4_2_fresh (W9 m ρ)),
    .host (hseg hostOps4_3 hostOps4_3_sub hostOps4_3_fresh (W10 m ρ)),
    .host (hseg hostOps4_4 hostOps4_4_sub hostOps4_4_fresh (W11 m ρ)),
    .host (hseg hostOps4_5 hostOps4_5_sub hostOps4_5_fresh (W12 m ρ)),
    .host (hseg hostOps4_6 hostOps4_6_sub hostOps4_6_fresh (W13 m ρ)),
    .region (reg4 m ρ),
    .host (hseg hostOps5 hostOps5_sub hostOps5_fresh (W15 m ρ)),
    .host (hseg hostOps5_1 hostOps5_1_sub hostOps5_1_fresh (W16 m ρ)) ]

theorem main_run (c : Dev nD) : main (F := F) c = Pipeline.Seg.run (segs m ρ) := by
  rw [main_chain c, Pipeline.Seg.run_eq_chain]; rfl

set_option backward.isDefEq.respectTransparency.types false in

theorem run_all : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W17 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c))
    (Tₙ := fun c => iprop(StableHlo.held (c : Thread nD τ) (Pipeline.ucRefs τ sig) (W17 m ρ c) ∗ ∃ r, prngReg c r))
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => by
        show (iprop(StableHlo.held (c : Thread nD τ) (Pipeline.ucRefs τ sig) (W17 m ρ c) ∗ R c) : sProp 𝕄) ⊢ _
        iintro ⟨Hh, Hg, HO⟩
        isplitl [Hh Hg]
        · isplitl [Hh]; · iexact Hh
          iexact Hg
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hg, -⟩, -⟩
      imodintro
      isplitl [Hh]; · iexact Hh
      isplitl [Hg]; · iexists _; iexact Hg
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h c b hb => h c _ (mem_uc b hb))

theorem kept {mem : (ℓ : Loc nD τ sig) → Buf (Elt F) ℓ}
    (h : ∀ c : Dev nD, ∀ b : Ref sig .tc, ¬ (Proc.devRef .tc b : DevRef τ sig).isScoped →
      mem ((c.tc : Thread nD τ).loc b) = W17 m ρ c (Proc.devRef .tc b)) (c : Dev nD) (b : Ref sig .tc)
    (hs : ¬ (Proc.devRef .tc b : DevRef τ sig).isScoped := by decide)
    (hw : b ∉ (hostWritten : List (Ref sig .tc)) := by decide)
    (h0 : ∀ w, Pipeline.arrRef spec0 w ≠ b := by decide) (h1 : ∀ w, Pipeline.arrRef spec1 w ≠ b := by decide)
    (h2 : ∀ w, Pipeline.arrRef spec2 w ≠ b := by decide) (h3 : ∀ w, Pipeline.arrRef spec3 w ≠ b := by decide)
    (h4 : ∀ w, Pipeline.arrRef spec4 w ≠ b := by decide) :
    mem ((c.tc : Thread nD τ).loc b) = m ((c : Thread nD τ).loc b) :=
  (h c b hs).trans (W17_untouched m ρ c b hw h0 h1 h2 h3 h4)

end Run

end Cert.KernelIdeal.Hand

end
-- ==== Proof.KI.Shared.lean ====
import proofs.«418604_j2156073583116_1_alg».proof.ReferenceIdeal
import proofs.«418604_j2156073583116_1_alg».proof.Proof.Gen.ReferenceIdeal

noncomputable section

namespace Cert.ReferenceIdeal.Hand

open Idealize.ShloMosaic Idealize.SL.Sem

variable {F : FTy → Type} [FloatOps F]
variable [Facts]
open Facts₀ Facts

/-- An f32 array of shape `s`, at the float model `F`. -/
abbrev RArr (F : FTy → Type) (s : Shape) : Type := (⟨s, .f32⟩ : BufTy).Contents (Elt F)

def geOf (hidden : RArr F S8192x1024) (Wg2 : RArr F S1024x1) (bg2 : RArr F S1) : RArr F S8192x1 :=
  Host.exp (addf (Host.dotGeneral dot_S8192x1024_S1024x1_S8192x1_1_0_0_1_n_n none hidden Wg2)
    (broadcastInDim S8192x1 ![0, 1] bcast_S1x1_S8192x1_0_1 (broadcastInDim S1x1 ![1] bcast_S1_S1x1_1 bg2)))

def denom1Of (hidden : RArr F S8192x1024) (p : RArr F S8192x1024) (Wg2 : RArr F S1024x1) (bg2 : RArr F S1) : RArr F S8192x1 :=
  Host.dotGeneral dot_S8192x1024_S1024x1_S8192x1_1_0_0_1_n_n none p
    (Host.dotGeneral dot_S1024x8192_S8192x1_S1024x1_1_0_0_1_n_n none
      (transpose S1024x8192 [1, 0] p transposes_S8192x1024_S1024x8192_1_0) (geOf hidden Wg2 bg2))

def gateOf (hidden : RArr F S8192x1024) (p : RArr F S8192x1024) (Wg2 : RArr F S1024x1) (bg2 : RArr F S1) : RArr F S8192x1 :=
  Host.divf (geOf hidden Wg2 bg2) (denom1Of hidden p Wg2 bg2)

def clusterOutOf (cluster_in : RArr F S1024x1024) (Wc1 : RArr F S1024x1024) (bc1 : RArr F S1024)
    (Wc2 : RArr F S1024x1024) (bc2 : RArr F S1024) : RArr F S1024x1024 :=
  addf (Host.dotGeneral dot_S1024x1024_S1024x1024_S1024x1024_1_0_0_1_n_n none
      (maximumf (addf (Host.dotGeneral dot_S1024x1024_S1024x1024_S1024x1024_1_0_0_1_n_n none cluster_in Wc1)
          (broadcastInDim S1024x1024 ![0, 1] bcast_S1x1024_S1024x1024_0_1 (broadcastInDim S1x1024 ![1] bcast_S1024_S1x1024_1 bc1)))
        (broadcastInDim S1024x1024 ![] bcast_S_S1024x1024 (constant S_ .f32 0x00000000#32))) Wc2)
    (broadcastInDim S1024x1024 ![0, 1] bcast_S1x1024_S1024x1024_0_1 (broadcastInDim S1x1024 ![1] bcast_S1024_S1x1024_1 bc2))

def sgeOf (cluster_out : RArr F S1024x1024) (Wgs1 : RArr F S1024x1024) (bgs1 : RArr F S1024)
    (Wgs2 : RArr F S1024x1) (bgs2 : RArr F S1) : RArr F S1024x1 :=
  Host.exp (addf (Host.dotGeneral dot_S1024x1024_S1024x1_S1024x1_1_0_0_1_n_n none
      (maximumf (addf (Host.dotGeneral dot_S1024x1024_S1024x1024_S1024x1024_1_0_0_1_n_n none cluster_out Wgs1)
          (broadcastInDim S1024x1024 ![0, 1] bcast_S1x1024_S1024x1024_0_1 (broadcastInDim S1x1024 ![1] bcast_S1024_S1x1024_1 bgs1)))
        (broadcastInDim S1024x1024 ![] bcast_S_S1024x1024 (constant S_ .f32 0x00000000#32))) Wgs2)
    (broadcastInDim S1024x1 ![0, 1] bcast_S1x1_S1024x1_0_1 (broadcastInDim S1x1 ![1] bcast_S1_S1x1_1 bgs2)))

def denom2Of (cluster_out : RArr F S1024x1024) (c_mat : RArr F S1024x32) (Wgs1 : RArr F S1024x1024) (bgs1 : RArr F S1024)
    (Wgs2 : RArr F S1024x1) (bgs2 : RArr F S1) : RArr F S1024x1 :=
  Host.dotGeneral dot_S1024x32_S32x1_S1024x1_1_0_0_1_n_n none c_mat
    (Host.dotGeneral dot_S32x1024_S1024x1_S32x1_1_0_0_1_n_n none
      (transpose S32x1024 [1, 0] c_mat transposes_S1024x32_S32x1024_1_0) (sgeOf cluster_out Wgs1 bgs1 Wgs2 bgs2))

def sgateOf (cluster_out : RArr F S1024x1024) (c_mat : RArr F S1024x32) (Wgs1 : RArr F S1024x1024) (bgs1 : RArr F S1024)
    (Wgs2 : RArr F S1024x1) (bgs2 : RArr F S1) : RArr F S1024x1 :=
  Host.divf (sgeOf cluster_out Wgs1 bgs1 Wgs2 bgs2) (denom2Of cluster_out c_mat Wgs1 bgs1 Wgs2 bgs2)

def pooledOf (cluster_out : RArr F S1024x1024) (c_mat : RArr F S1024x32) (Wgs1 : RArr F S1024x1024) (bgs1 : RArr F S1024)
    (Wgs2 : RArr F S1024x1) (bgs2 : RArr F S1) : RArr F S32x1024 :=
  Host.dotGeneral dot_S32x1024_S1024x1024_S32x1024_1_0_0_1_n_n none
    (transpose S32x1024 [1, 0] c_mat transposes_S1024x32_S32x1024_1_0)
    (mulf cluster_out (broadcastInDim S1024x1024 ![0, 1] bcast_S1024x1_S1024x1024_0_1 (sgateOf cluster_out c_mat Wgs1 bgs1 Wgs2 bgs2)))

def stateOf (cluster_out : RArr F S1024x1024) (c_mat : RArr F S1024x32) (Wgs1 : RArr F S1024x1024) (bgs1 : RArr F S1024)
    (Wgs2 : RArr F S1024x1) (bgs2 : RArr F S1) (Ws1 : RArr F S1024x1024) (bs1 : RArr F S1024)
    (Ws2 : RArr F S1024x1024) (bs2 : RArr F S1024) : RArr F S32x1024 :=
  addf (Host.dotGeneral dot_S32x1024_S1024x1024_S32x1024_1_0_0_1_n_n none
      (maximumf (addf (Host.dotGeneral dot_S32x1024_S1024x1024_S32x1024_1_0_0_1_n_n none (pooledOf cluster_out c_mat Wgs1 bgs1 Wgs2 bgs2) Ws1)
          (broadcastInDim S32x1024 ![0, 1] bcast_S1x1024_S32x1024_0_1 (broadcastInDim S1x1024 ![1] bcast_S1024_S1x1024_1 bs1)))
        (broadcastInDim S32x1024 ![] bcast_S_S32x1024 (constant S_ .f32 0x00000000#32))) Ws2)
    (broadcastInDim S32x1024 ![0, 1] bcast_S1x1024_S32x1024_0_1 (broadcastInDim S1x1024 ![1] bcast_S1024_S1x1024_1 bs2))

def qeOf (action_rep : RArr F S16384x1024) (Wa2 : RArr F S1024x1) (ba2 : RArr F S1) : RArr F S16384x1 :=
  Host.exp (addf (Host.dotGeneral dot_S16384x1024_S1024x1_S16384x1_1_0_0_1_n_n none
      (maximumf action_rep (broadcastInDim S16384x1024 ![] bcast_S_S16384x1024 (constant S_ .f32 0x00000000#32))) Wa2)
    (broadcastInDim S16384x1 ![0, 1] bcast_S1x1_S16384x1_0_1 (broadcastInDim S1x1 ![1] bcast_S1_S1x1_1 ba2)))

def denom3Of (action_rep : RArr F S16384x1024) (a_mat : RArr F S16384x32) (Wa2 : RArr F S1024x1) (ba2 : RArr F S1) : RArr F S16384x1 :=
  Host.dotGeneral dot_S16384x32_S32x1_S16384x1_1_0_0_1_n_n none a_mat
    (Host.dotGeneral dot_S32x16384_S16384x1_S32x1_1_0_0_1_n_n none
      (transpose S32x16384 [1, 0] a_mat transposes_S16384x32_S32x16384_1_0) (qeOf action_rep Wa2 ba2))

def qTableOf (action_rep : RArr F S16384x1024) (a_mat : RArr F S16384x32) (Wa2 : RArr F S1024x1) (ba2 : RArr F S1) : RArr F S16384x1 :=
  Host.divf (Host.negf (qeOf action_rep Wa2 ba2)) (denom3Of action_rep a_mat Wa2 ba2)

def qExpandOf (action_rep : RArr F S16384x1024) (a_mat : RArr F S16384x32) (Wa2 : RArr F S1024x1) (ba2 : RArr F S1) : RArr F S32x16384 :=
  mulf (transpose S32x16384 [1, 0] a_mat transposes_S16384x32_S32x16384_1_0)
    (broadcastInDim S32x16384 ![0, 1] bcast_S1x16384_S32x16384_0_1
      (shapeCast _ (qTableOf action_rep a_mat Wa2 ba2) shapeCasts_S16384x1_S1x16384))

end Cert.ReferenceIdeal.Hand

end
-- ==== Proof.KI.RefChain.lean ====
import proofs.«418604_j2156073583116_1_alg».proof.Proof.KI.Shared

noncomputable section

namespace Cert.ReferenceIdeal.Hand

open Idealize.ShloMosaic Idealize.SL.Sem

variable {F : FTy → Type} [FloatOps F]
variable [Facts]
open Facts₀ Facts

def allMeansR (images p : RArr F S8192x1024) (r : RArr F S1024) : RArr F S1024x1024 :=
  mulf (Host.dotGeneral dot_S1024x8192_S8192x1024_S1024x1024_1_0_0_1_n_n none
      (transpose S1024x8192 [1, 0] p transposes_S8192x1024_S1024x8192_1_0) images)
    (broadcastInDim S1024x1024 ![0, 1] bcast_S1024x1_S1024x1024_0_1 (shapeCast S1024x1 r shapeCasts_S1024_S1024x1))

def tileMeansR (images p : RArr F S8192x1024) (r : RArr F S1024) : RArr F S8192x1024 :=
  Host.dotGeneral dot_S8192x1024_S1024x1024_S8192x1024_1_0_0_1_n_n none p (allMeansR images p r)

def hiddenR (images p : RArr F S8192x1024) (r : RArr F S1024) (Wg1 : RArr F S2048x1024) (bg1 : RArr F S1024) : RArr F S8192x1024 :=
  maximumf (addf (Host.dotGeneral dot_S8192x2048_S2048x1024_S8192x1024_1_0_0_1_n_n none
        (concatenate S8192x2048 1 [⟨S8192x1024, images⟩, ⟨S8192x1024, tileMeansR images p r⟩] concatenates_S8192x1024_S8192x1024_S8192x2048_d1) Wg1)
      (broadcastInDim S8192x1024 ![0, 1] bcast_S1x1024_S8192x1024_0_1 (broadcastInDim S1x1024 ![1] bcast_S1024_S1x1024_1 bg1)))
    (broadcastInDim S8192x1024 ![] bcast_S_S8192x1024 (constant S_ .f32 0x00000000#32))

def clusterInR (images p : RArr F S8192x1024) (r : RArr F S1024) (Wg1 : RArr F S2048x1024) (bg1 : RArr F S1024)
    (Wg2 : RArr F S1024x1) (bg2 : RArr F S1) : RArr F S1024x1024 :=
  Host.dotGeneral dot_S1024x8192_S8192x1024_S1024x1024_1_0_0_1_n_n none
    (transpose S1024x8192 [1, 0] p transposes_S8192x1024_S1024x8192_1_0)
    (mulf images (broadcastInDim S8192x1024 ![0, 1] bcast_S8192x1_S8192x1024_0_1 (gateOf (hiddenR images p r Wg1 bg1) p Wg2 bg2)))

end Cert.ReferenceIdeal.Hand

end
-- ==== Proof.KI.RefAction.lean ====
import proofs.«418604_j2156073583116_1_alg».proof.Proof.KI.Shared
import Idealize.ShloMosaic.Lib.Pipeline.Value
import Idealize.ShloMosaic.Lib.ValueIdx
import Idealize.ShloMosaic.PureOps.Ideal.Laws

noncomputable section

namespace Cert.ReferenceIdeal.Hand

open Idealize.ShloMosaic Idealize.SL.Sem
open Idealize.ShloMosaic.ValueIdx (ix1 ix2)
open scoped BigOperators

private theorem idx_val_congr {s : Shape} (j : s.Idx) (p q : Nat) (hp : p < s.rank) (hq : q < s.rank) (h : p = q) :
    (j ⟨p, hp⟩).val = (j ⟨q, hq⟩).val := by subst h; rfl

theorem dot2_apply {M K N : Nat} (D : DotDims ⟨2, ![M, K]⟩ ⟨2, ![K, N]⟩ ⟨2, ![M, N]⟩)
    (hlc : D.lhsContracting = [1]) (hrc : D.rhsContracting = [0])
    (hln : D.lhsNonContracting = [0]) (hrn : D.rhsNonContracting = [1])
    (hlb : D.lhsBatch = []) (hrb : D.rhsBatch = [])
    (l : (⟨⟨2, ![M, K]⟩, .f32⟩ : BufTy).Contents (Elt Ideal)) (r : (⟨⟨2, ![K, N]⟩, .f32⟩ : BufTy).Contents (Elt Ideal))
    (a : Fin M) (b : Fin N) :
    Host.dotGeneral (F := Ideal) (φ₁ := .f32) (φ₂ := .f32) D none l r (ix2 a b) = ∑ k : Fin K, l (ix2 a k) * r (ix2 k b) := by
  have hr : D.contr.rank = 1 := by unfold DotDims.contr Shape.ofList; rw [hlc]; rfl
  have hs : D.contr.size ⟨0, by omega⟩ = K := by
    unfold DotDims.contr Shape.ofList; simp only [hlc]; rfl
  simp only [Host.dotGeneral]
  rw [Ideal.dotGeneral_apply, ← Equiv.sum_comp (ValueIdx.contrEquiv1 D K hr hs).symm]
  refine Finset.sum_congr rfl fun k _ => ?_
  have hk := ValueIdx.contrEquiv1_symm_val D K hr hs k
  have l0 : ∀ q : D.contr.Idx, (D.lhsIdx (ix2 a b) q 0).val = a.val := fun q => by
    unfold DotDims.lhsIdx
    rw [dif_neg (by rw [hlb]; exact List.not_mem_nil), dif_pos (by rw [hln]; exact List.mem_singleton.mpr rfl)]
    simp only [Fin.val_cast]
    exact idx_val_congr (ix2 a b) _ 0 _ Nat.zero_lt_two (by simp [hlb, hln])
  have r1 : ∀ q : D.contr.Idx, (D.rhsIdx (ix2 a b) q 1).val = b.val := fun q => by
    unfold DotDims.rhsIdx
    rw [dif_neg (by rw [hrb]; exact List.not_mem_nil), dif_pos (by rw [hrn]; exact List.mem_singleton.mpr rfl)]
    simp only [Fin.val_cast]
    exact idx_val_congr (ix2 a b) _ 1 _ Nat.one_lt_two (by simp [hlb, hln, hrn])
  have el : D.lhsIdx (ix2 a b) ((ValueIdx.contrEquiv1 D K hr hs).symm k) = ix2 a k := funext fun c => Fin.ext (by
    match c with
    | ⟨0, _⟩ => exact l0 _
    | ⟨1, _⟩ => exact (D.lhsIdx_val_of_single hlc (ix2 a b) _).trans hk)
  have er : D.rhsIdx (ix2 a b) ((ValueIdx.contrEquiv1 D K hr hs).symm k) = ix2 k b := funext fun c => Fin.ext (by
    match c with
    | ⟨0, _⟩ => exact (D.rhsIdx_val_of_single hrc (ix2 a b) _).trans hk
    | ⟨1, _⟩ => exact r1 _)
  rw [el, er]
  try rfl

theorem gather_row_apply {α : Type} {N C R w : Nat} (hN : 0 < N)
    (d : GatherDims ⟨2, ![N, C]⟩ ⟨2, ![R, 1]⟩ ⟨2, ![R, C]⟩)
    (hod : d.offsetDims = [1]) (hcs : d.collapsedSliceDims = [0]) (hob : d.operandBatchingDims = [])
    (hsb : d.startIndicesBatchingDims = [])
    (hsm : d.startIndexMap = [0]) (hiv : d.indexVectorDim = 1) (hss : d.sliceSizes = ![1, C])
    (x : (⟨2, ![N, C]⟩ : Shape).Idx → α) (idx : IVec ⟨2, ![R, 1]⟩ w) (t : Fin R) (j : Fin C) :
    Host.gather d x idx (ix2 t j)
      = x (ix2 ⟨min (idx (ix2 t ⟨0, Nat.one_pos⟩)).toInt.toNat (N - 1), by omega⟩ j) := by
  obtain ⟨od, cs, ob, sb, sm, iv, ss, wf⟩ := d
  dsimp only at hod hcs hob hsb hsm hiv hss
  subst hod hcs hob hsb hsm hiv hss
  unfold Host.gather
  congr 1
  funext a
  refine Fin.ext ?_
  match a with
  | ⟨0, _⟩ =>
    show GatherDims.start _ (ix2 t j) idx 0 + GatherDims.batchCoord _ (ix2 t j) 0 + GatherDims.offCoord _ (ix2 t j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : GatherDims.siIdx (⟨[1], [0], [], [], [0], 1, ![1, C], wf⟩ : GatherDims ⟨2, ![N, C]⟩ ⟨2, ![R, 1]⟩ ⟨2, ![R, C]⟩) (ix2 t j)
        ⟨List.idxOf (0 : Fin 2) [0], List.idxOf_lt_length_iff.2 (List.mem_singleton.mpr rfl)⟩ = ix2 t ⟨0, Nat.one_pos⟩ := by
      funext b; refine Fin.ext ?_
      match b with
      | ⟨0, _⟩ => rfl
      | ⟨1, _⟩ => rfl
    rw [hsi]
    rfl
  | ⟨1, _⟩ =>
    show GatherDims.start _ (ix2 t j) idx 1 + GatherDims.batchCoord _ (ix2 t j) 1 + GatherDims.offCoord _ (ix2 t j) 1 = _
    rw [GatherDims.batchCoord_eq_zero _ _ _ List.not_mem_nil]
    unfold GatherDims.start
    rw [dif_neg (fun h => Nat.one_ne_zero (congrArg Fin.val (List.mem_singleton.mp h)))]
    simp only [Nat.zero_add]
    rfl

section ActionRep
variable {F : FTy → Type} [FloatOps F]
variable [Facts]
open Facts₀ Facts

def selColOf (sel : (⟨S16384, .i32⟩ : BufTy).Contents (Elt F)) : (⟨S16384x1, .i32⟩ : BufTy).Contents (Elt F) :=
  broadcastInDim S16384x1 ![0] bcast_S16384_S16384x1_0
    (select (cmpi .slt sel (broadcastInDim S16384 ![] bcast_S_S16384 (constantI S_ 32 0#32)))
      (addi sel (broadcastInDim S16384 ![] bcast_S_S16384 (constantI S_ 32 1024#32))) sel)

def pairsOf (a_mat : RArr F S16384x32) (state : RArr F S32x1024) (cluster_out : RArr F S1024x1024)
    (select_i select_j : (⟨S16384, .i32⟩ : BufTy).Contents (Elt F)) : RArr F S16384x3072 :=
  concatenate S16384x3072 1
    [⟨S16384x1024, Host.dotGeneral dot_S16384x32_S32x1024_S16384x1024_1_0_0_1_n_n none a_mat state⟩,
     ⟨S16384x1024, Host.gather gather_S1024x1024_S16384x1_S16384x1024_1_0_n_n_0_1_11024 cluster_out (selColOf select_i)⟩,
     ⟨S16384x1024, Host.gather gather_S1024x1024_S16384x1_S16384x1024_1_0_n_n_0_1_11024 cluster_out (selColOf select_j)⟩]
    concatenates_S16384x1024_S16384x1024_S16384x1024_S16384x3072_d1

def actionRepR (a_mat : RArr F S16384x32) (state : RArr F S32x1024) (cluster_out : RArr F S1024x1024)
    (select_i select_j : (⟨S16384, .i32⟩ : BufTy).Contents (Elt F)) (Wa1 : RArr F S3072x1024) (ba1 : RArr F S1024) : RArr F S16384x1024 :=
  addf (Host.dotGeneral dot_S16384x3072_S3072x1024_S16384x1024_1_0_0_1_n_n none
      (pairsOf a_mat state cluster_out select_i select_j) Wa1)
    (broadcastInDim S16384x1024 ![0, 1] bcast_S1x1024_S16384x1024_0_1 (broadcastInDim S1x1024 ![1] bcast_S1024_S1x1024_1 ba1))

end ActionRep

section ActionRepRead
variable [Facts]
open Facts₀ Facts

theorem cat3_block0 {α : Type} (A B C : S16384x1024.Idx → α) (a : Fin 16384) (k : Fin 1024) :
    concatenate S16384x3072 1 [⟨S16384x1024, A⟩, ⟨S16384x1024, B⟩, ⟨S16384x1024, C⟩]
      concatenates_S16384x1024_S16384x1024_S16384x1024_S16384x3072_d1 (ix2 a ⟨k.val, by omega⟩) = A (ix2 a k) :=
  concatenate_apply_piece (t := S16384x3072) (1 : Fin 2) [⟨S16384x1024, A⟩, ⟨S16384x1024, B⟩, ⟨S16384x1024, C⟩] _ _ 0 (by simp) S16384x1024 A rfl rfl 0 rfl (ix2 a k)
    (fun b => match b with
      | ⟨0, _⟩ => fun _ => rfl
      | ⟨1, _⟩ => fun hb => absurd rfl hb) (Nat.zero_add _)

theorem cat3_block1 {α : Type} (A B C : S16384x1024.Idx → α) (a : Fin 16384) (k : Fin 1024) :
    concatenate S16384x3072 1 [⟨S16384x1024, A⟩, ⟨S16384x1024, B⟩, ⟨S16384x1024, C⟩]
      concatenates_S16384x1024_S16384x1024_S16384x1024_S16384x3072_d1 (ix2 a ⟨1024 + k.val, by omega⟩) = B (ix2 a k) :=
  concatenate_apply_piece (t := S16384x3072) (1 : Fin 2) [⟨S16384x1024, A⟩, ⟨S16384x1024, B⟩, ⟨S16384x1024, C⟩] _ _ 1 (by simp) S16384x1024 B rfl rfl 1024 rfl (ix2 a k)
    (fun b => match b with
      | ⟨0, _⟩ => fun _ => rfl
      | ⟨1, _⟩ => fun hb => absurd rfl hb) rfl

theorem cat3_block2 {α : Type} (A B C : S16384x1024.Idx → α) (a : Fin 16384) (k : Fin 1024) :
    concatenate S16384x3072 1 [⟨S16384x1024, A⟩, ⟨S16384x1024, B⟩, ⟨S16384x1024, C⟩]
      concatenates_S16384x1024_S16384x1024_S16384x1024_S16384x3072_d1 (ix2 a ⟨2048 + k.val, by omega⟩) = C (ix2 a k) :=
  concatenate_apply_piece (t := S16384x3072) (1 : Fin 2) [⟨S16384x1024, A⟩, ⟨S16384x1024, B⟩, ⟨S16384x1024, C⟩] _ _ 2 (by simp) S16384x1024 C rfl rfl 2048 rfl (ix2 a k)
    (fun b => match b with
      | ⟨0, _⟩ => fun _ => rfl
      | ⟨1, _⟩ => fun hb => absurd rfl hb) rfl

def rowSel (sel : (⟨S16384, .i32⟩ : BufTy).Contents (Elt Ideal)) (a : Fin 16384) : Fin 1024 :=
  ⟨min (selColOf (F := Ideal) sel (ix2 a ⟨0, Nat.one_pos⟩)).toInt.toNat 1023, by omega⟩

variable (am : RArr Ideal S16384x32) (st : RArr Ideal S32x1024) (co : RArr Ideal S1024x1024)
  (si sj : (⟨S16384, .i32⟩ : BufTy).Contents (Elt Ideal)) (Wa1 : RArr Ideal S3072x1024) (ba1 : RArr Ideal S1024)

theorem pairsOf_block0 (a : Fin 16384) (k : Fin 1024) :
    pairsOf (F := Ideal) am st co si sj (ix2 a ⟨k.val, by omega⟩) = ∑ e : Fin 32, am (ix2 a e) * st (ix2 e k) := by
  unfold pairsOf
  rw [cat3_block0]
  exact dot2_apply dot_S16384x32_S32x1024_S16384x1024_1_0_0_1_n_n rfl rfl rfl rfl rfl rfl am st a k

theorem pairsOf_block1 (a : Fin 16384) (k : Fin 1024) :
    pairsOf (F := Ideal) am st co si sj (ix2 a ⟨1024 + k.val, by omega⟩) = co (ix2 (rowSel si a) k) := by
  unfold pairsOf
  rw [cat3_block1]
  exact gather_row_apply (by decide) gather_S1024x1024_S16384x1_S16384x1024_1_0_n_n_0_1_11024 rfl rfl rfl rfl rfl rfl rfl co (selColOf si) a k

theorem pairsOf_block2 (a : Fin 16384) (k : Fin 1024) :
    pairsOf (F := Ideal) am st co si sj (ix2 a ⟨2048 + k.val, by omega⟩) = co (ix2 (rowSel sj a) k) := by
  unfold pairsOf
  rw [cat3_block2]
  exact gather_row_apply (by decide) gather_S1024x1024_S16384x1_S16384x1024_1_0_n_n_0_1_11024 rfl rfl rfl rfl rfl rfl rfl co (selColOf sj) a k

theorem actionRepR_apply (a : Fin 16384) (h : Fin 1024) :
    actionRepR (F := Ideal) am st co si sj Wa1 ba1 (ix2 a h)
      = (∑ k : Fin 3072, pairsOf (F := Ideal) am st co si sj (ix2 a k) * Wa1 (ix2 k h)) + ba1 (ix1 h) := by
  unfold actionRepR
  rw [ValueIdx.addf_apply, dot2_apply dot_S16384x3072_S3072x1024_S16384x1024_1_0_0_1_n_n rfl rfl rfl rfl rfl rfl]
  congr 1
  rw [broadcastInDim_apply _ bcast_S1x1024_S16384x1024_0_1 _ (ix2 a h) (ix2 ⟨0, Nat.one_pos⟩ h)
      (fun b => match b with
        | ⟨0, _⟩ => rfl
        | ⟨1, _⟩ => rfl),
    broadcastInDim_apply _ bcast_S1024_S1x1024_1 _ (ix2 ⟨0, Nat.one_pos⟩ h) (ix1 h)
      (fun b => match b with
        | ⟨0, _⟩ => rfl)]

end ActionRepRead

section RowSel
variable [Facts]
open Facts₀ Facts

theorem selColOf_apply (sel : (⟨S16384, .i32⟩ : BufTy).Contents (Elt Ideal)) (a : Fin 16384) :
    selColOf (F := Ideal) sel (ix2 a ⟨0, Nat.one_pos⟩)
      = Scalar.select (IntOp.cmpi .slt (sel (ix1 a)) 0#32) (IntOp.addi (sel (ix1 a)) 1024#32) (sel (ix1 a)) := by
  unfold selColOf
  rw [broadcastInDim_apply _ bcast_S16384_S16384x1_0 _ (ix2 a ⟨0, Nat.one_pos⟩) (ix1 a)
    (fun b => match b with
      | ⟨0, _⟩ => rfl)]
  rfl

theorem rowSel_of_range (sel : (⟨S16384, .i32⟩ : BufTy).Contents (Elt Ideal)) (a : Fin 16384)
    (h0 : 0 ≤ (sel (ix1 a)).toInt) (h1 : (sel (ix1 a)).toInt < 1024) :
    (rowSel sel a).val = (sel (ix1 a)).toInt.toNat := by
  unfold rowSel
  show min (selColOf (F := Ideal) sel (ix2 a ⟨0, Nat.one_pos⟩)).toInt.toNat 1023 = _
  rw [selColOf_apply]
  have hc : IntOp.cmpi .slt (sel (ix1 a)) 0#32 = 0#1 := by
    have hlt : ¬ (sel (ix1 a)).toInt < 0 := not_lt.mpr h0
    simp [IntOp.cmpi, BitVec.slt, hlt]
  rw [hc, ValueIdx.select_zero]
  exact Nat.min_eq_left (by omega)

end RowSel

end Cert.ReferenceIdeal.Hand

end
-- ==== Proof.KI.Ref.lean ====
import proofs.«418604_j2156073583116_1_alg».proof.Defs
import proofs.«418604_j2156073583116_1_alg».proof.Proof.Gen.Pre_finite_inputs
import proofs.«418604_j2156073583116_1_alg».proof.Proof.Gen.ReferenceIdeal.Run
import proofs.«418604_j2156073583116_1_alg».proof.Proof.Gen.ReferenceIdeal.Read
import proofs.«418604_j2156073583116_1_alg».proof.Proof.KI.RefChain
import proofs.«418604_j2156073583116_1_alg».proof.Proof.KI.RefAction

noncomputable section

namespace Cert.ReferenceIdeal.Hand

open Cert.ReferenceIdeal Cert.ReferenceIdeal.Read Idealize.ShloMosaic Idealize.ShloMosaic.TcCoe Idealize.SL.Sem Idealize.ShloMosaic.StableHlo

section Stages
variable {F : FTy → Type} [FloatOps F]
variable (x0 : RArr F S8192x1024) (x3 : RArr F S8192x1024) (x4 : RArr F S1024) (x5 : RArr F S1024x32) (x6 : RArr F S16384x32) (x7 : RArr F S2048x1024) (x8 : RArr F S1024) (x9 : RArr F S1024x1) (x10 : RArr F S1) (x11 : RArr F S1024x1024) (x12 : RArr F S1024) (x13 : RArr F S1024x1024) (x14 : RArr F S1024) (x15 : RArr F S1024x1024) (x16 : RArr F S1024) (x17 : RArr F S1024x1) (x18 : RArr F S1) (x19 : RArr F S1024x1024) (x20 : RArr F S1024) (x21 : RArr F S1024x1024) (x22 : RArr F S1024) (x23 : RArr F S3072x1024) (x24 : RArr F S1024) (x25 : RArr F S1024x1) (x26 : RArr F S1) (x1 x2 : (⟨S16384, .i32⟩ : BufTy).Contents (Elt F))

theorem v4_eq :
    val_main_v4 (F := F) x0 x3 x4 = allMeansR x0 x3 x4 := by
  unfold val_main_v4 val_main_v2 val_main_v3 val_main_v1 val_main_v0 allMeansR
  rfl

theorem v5_eq :
    val_main_v5 (F := F) x0 x3 x4 = tileMeansR x0 x3 x4 := by
  unfold val_main_v5 tileMeansR
  rw [v4_eq]

theorem v11_eq :
    val_main_v11 (F := F) x0 x3 x4 x7 x8 = hiddenR x0 x3 x4 x7 x8 := by
  unfold val_main_v11 val_main_v10 val_main_v7 val_main_v6 val_main_v9 val_main_v8 val_main_call0_v0 val_main_call0_cst hiddenR
  rw [v5_eq]

theorem v16_eq :
    val_main_v16 (F := F) x0 x3 x4 x7 x8 x9 x10 = geOf (hiddenR x0 x3 x4 x7 x8) x9 x10 := by
  unfold val_main_v16 val_main_v15 val_main_v12 val_main_v14 val_main_v13 geOf
  rw [v11_eq]

theorem v19_eq :
    val_main_v19 (F := F) x0 x3 x4 x7 x8 x9 x10 = denom1Of (hiddenR x0 x3 x4 x7 x8) x3 x9 x10 := by
  unfold val_main_v19 val_main_v18 val_main_v17 denom1Of
  rw [v16_eq]

theorem v20_eq :
    val_main_v20 (F := F) x0 x3 x4 x7 x8 x9 x10 = gateOf (hiddenR x0 x3 x4 x7 x8) x3 x9 x10 := by
  unfold val_main_v20 gateOf
  rw [v16_eq, v19_eq]

theorem v24_eq :
    val_main_v24 (F := F) x0 x3 x4 x7 x8 x9 x10 = clusterInR x0 x3 x4 x7 x8 x9 x10 := by
  unfold val_main_v24 val_main_v23 val_main_v22 val_main_v21 clusterInR
  rw [v20_eq]

theorem v33_eq :
    val_main_v33 (F := F) x0 x3 x4 x7 x8 x9 x10 x11 x12 x13 x14 = clusterOutOf (clusterInR x0 x3 x4 x7 x8 x9 x10) x11 x12 x13 x14 := by
  unfold val_main_v33 val_main_v30 val_main_v29 val_main_v28 val_main_v25 val_main_v27 val_main_v26 val_main_v32 val_main_v31 val_main_call1_v0 val_main_call1_cst clusterOutOf
  rw [v24_eq]

theorem v43_eq :
    val_main_v43 (F := F) x0 x3 x4 x7 x8 x9 x10 x11 x12 x13 x14 x15 x16 x17 x18 = sgeOf (clusterOutOf (clusterInR x0 x3 x4 x7 x8 x9 x10) x11 x12 x13 x14) x15 x16 x17 x18 := by
  unfold val_main_v43 val_main_v42 val_main_v39 val_main_v38 val_main_v37 val_main_v34 val_main_v36 val_main_v35 val_main_v41 val_main_v40 val_main_call2_v0 val_main_call2_cst sgeOf
  rw [v33_eq]

theorem v46_eq :
    val_main_v46 (F := F) x0 x3 x4 x5 x7 x8 x9 x10 x11 x12 x13 x14 x15 x16 x17 x18 = denom2Of (clusterOutOf (clusterInR x0 x3 x4 x7 x8 x9 x10) x11 x12 x13 x14) x5 x15 x16 x17 x18 := by
  unfold val_main_v46 val_main_v45 val_main_v44 denom2Of
  rw [v43_eq]

theorem v47_eq :
    val_main_v47 (F := F) x0 x3 x4 x5 x7 x8 x9 x10 x11 x12 x13 x14 x15 x16 x17 x18 = sgateOf (clusterOutOf (clusterInR x0 x3 x4 x7 x8 x9 x10) x11 x12 x13 x14) x5 x15 x16 x17 x18 := by
  unfold val_main_v47 sgateOf
  rw [v43_eq, v46_eq]

theorem v51_eq :
    val_main_v51 (F := F) x0 x3 x4 x5 x7 x8 x9 x10 x11 x12 x13 x14 x15 x16 x17 x18 = pooledOf (clusterOutOf (clusterInR x0 x3 x4 x7 x8 x9 x10) x11 x12 x13 x14) x5 x15 x16 x17 x18 := by
  unfold val_main_v51 val_main_v50 val_main_v49 val_main_v48 pooledOf
  rw [v33_eq, v47_eq]

theorem v60_eq :
    val_main_v60 (F := F) x0 x3 x4 x5 x7 x8 x9 x10 x11 x12 x13 x14 x15 x16 x17 x18 x19 x20 x21 x22 = stateOf (clusterOutOf (clusterInR x0 x3 x4 x7 x8 x9 x10) x11 x12 x13 x14) x5 x15 x16 x17 x18 x19 x20 x21 x22 := by
  unfold val_main_v60 val_main_v57 val_main_v56 val_main_v55 val_main_v52 val_main_v54 val_main_v53 val_main_v59 val_main_v58 val_main_call3_v0 val_main_call3_cst stateOf
  rw [v51_eq]

theorem v80_eq :
    val_main_v80 (F := F) x0 x1 x2 x3 x4 x5 x6 x7 x8 x9 x10 x11 x12 x13 x14 x15 x16 x17 x18 x19 x20 x21 x22 x23 x24 = actionRepR x6 (stateOf (clusterOutOf (clusterInR x0 x3 x4 x7 x8 x9 x10) x11 x12 x13 x14) x5 x15 x16 x17 x18 x19 x20 x21 x22) (clusterOutOf (clusterInR x0 x3 x4 x7 x8 x9 x10) x11 x12 x13 x14) x1 x2 x23 x24 := by
  unfold val_main_v80 val_main_v77 val_main_v76 val_main_v61 val_main_v68 val_main_v67 val_main_v66 val_main_v65 val_main_v64 val_main_v63 val_main_v62 val_main_c val_main_c_0 val_main_v75 val_main_v74 val_main_v73 val_main_v72 val_main_v71 val_main_v70 val_main_v69 val_main_c_1 val_main_c_2 val_main_v79 val_main_v78 actionRepR pairsOf selColOf
  rw [v60_eq, v33_eq]

theorem v86_eq :
    val_main_v86 (F := F) x0 x1 x2 x3 x4 x5 x6 x7 x8 x9 x10 x11 x12 x13 x14 x15 x16 x17 x18 x19 x20 x21 x22 x23 x24 x25 x26 = qeOf (actionRepR x6 (stateOf (clusterOutOf (clusterInR x0 x3 x4 x7 x8 x9 x10) x11 x12 x13 x14) x5 x15 x16 x17 x18 x19 x20 x21 x22) (clusterOutOf (clusterInR x0 x3 x4 x7 x8 x9 x10) x11 x12 x13 x14) x1 x2 x23 x24) x25 x26 := by
  unfold val_main_v86 val_main_v85 val_main_v82 val_main_v81 val_main_v84 val_main_v83 val_main_call4_v0 val_main_call4_cst qeOf
  rw [v80_eq]

theorem v90_eq :
    val_main_v90 (F := F) x0 x1 x2 x3 x4 x5 x6 x7 x8 x9 x10 x11 x12 x13 x14 x15 x16 x17 x18 x19 x20 x21 x22 x23 x24 x25 x26 = denom3Of (actionRepR x6 (stateOf (clusterOutOf (clusterInR x0 x3 x4 x7 x8 x9 x10) x11 x12 x13 x14) x5 x15 x16 x17 x18 x19 x20 x21 x22) (clusterOutOf (clusterInR x0 x3 x4 x7 x8 x9 x10) x11 x12 x13 x14) x1 x2 x23 x24) x6 x25 x26 := by
  unfold val_main_v90 val_main_v89 val_main_v88 denom3Of
  rw [v86_eq]

theorem v91_eq :
    val_main_v91 (F := F) x0 x1 x2 x3 x4 x5 x6 x7 x8 x9 x10 x11 x12 x13 x14 x15 x16 x17 x18 x19 x20 x21 x22 x23 x24 x25 x26 = qTableOf (actionRepR x6 (stateOf (clusterOutOf (clusterInR x0 x3 x4 x7 x8 x9 x10) x11 x12 x13 x14) x5 x15 x16 x17 x18 x19 x20 x21 x22) (clusterOutOf (clusterInR x0 x3 x4 x7 x8 x9 x10) x11 x12 x13 x14) x1 x2 x23 x24) x6 x25 x26 := by
  unfold val_main_v91 val_main_v87 qTableOf
  rw [v86_eq, v90_eq]

theorem v95_eq :
    val_main_v95 (F := F) x0 x1 x2 x3 x4 x5 x6 x7 x8 x9 x10 x11 x12 x13 x14 x15 x16 x17 x18 x19 x20 x21 x22 x23 x24 x25 x26 = qExpandOf (actionRepR x6 (stateOf (clusterOutOf (clusterInR x0 x3 x4 x7 x8 x9 x10) x11 x12 x13 x14) x5 x15 x16 x17 x18 x19 x20 x21 x22) (clusterOutOf (clusterInR x0 x3 x4 x7 x8 x9 x10) x11 x12 x13 x14) x1 x2 x23 x24) x6 x25 x26 := by
  unfold val_main_v95 val_main_v94 val_main_v93 val_main_v92 qExpandOf
  rw [v91_eq]

end Stages

section Results
variable {F : FTy → Type} [FloatOps F]
variable (m : (ℓ : Loc nD τ sig) → Buf (Elt F) ℓ) (c : Dev nD)

def refActionRep : RArr F S16384x1024 :=
  actionRepR (m ((c.tc : Thread nD τ).loc main_arg6)) (stateOf (clusterOutOf (clusterInR (m ((c.tc : Thread nD τ).loc main_arg0)) (m ((c.tc : Thread nD τ).loc main_arg3)) (m ((c.tc : Thread nD τ).loc main_arg4)) (m ((c.tc : Thread nD τ).loc main_arg7)) (m ((c.tc : Thread nD τ).loc main_arg8)) (m ((c.tc : Thread nD τ).loc main_arg9)) (m ((c.tc : Thread nD τ).loc main_arg10))) (m ((c.tc : Thread nD τ).loc main_arg11)) (m ((c.tc : Thread nD τ).loc main_arg12)) (m ((c.tc : Thread nD τ).loc main_arg13)) (m ((c.tc : Thread nD τ).loc main_arg14))) (m ((c.tc : Thread nD τ).loc main_arg5)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22))) (clusterOutOf (clusterInR (m ((c.tc : Thread nD τ).loc main_arg0)) (m ((c.tc : Thread nD τ).loc main_arg3)) (m ((c.tc : Thread nD τ).loc main_arg4)) (m ((c.tc : Thread nD τ).loc main_arg7)) (m ((c.tc : Thread nD τ).loc main_arg8)) (m ((c.tc : Thread nD τ).loc main_arg9)) (m ((c.tc : Thread nD τ).loc main_arg10))) (m ((c.tc : Thread nD τ).loc main_arg11)) (m ((c.tc : Thread nD τ).loc main_arg12)) (m ((c.tc : Thread nD τ).loc main_arg13)) (m ((c.tc : Thread nD τ).loc main_arg14))) (m ((c.tc : Thread nD τ).loc main_arg1)) (m ((c.tc : Thread nD τ).loc main_arg2)) (m ((c.tc : Thread nD τ).loc main_arg23)) (m ((c.tc : Thread nD τ).loc main_arg24))

theorem res_out2_eq : Value.res_out2 m c = refActionRep m c :=
  (val_main_v80_eq m c).trans (v80_eq ..)

theorem res_out0_eq : Value.res_out0 m c = qTableOf (refActionRep m c) (m ((c.tc : Thread nD τ).loc main_arg6)) (m ((c.tc : Thread nD τ).loc main_arg25)) (m ((c.tc : Thread nD τ).loc main_arg26)) :=
  (val_main_v91_eq m c).trans (v91_eq ..)

theorem res_out1_eq : Value.res_out1 m c = qExpandOf (refActionRep m c) (m ((c.tc : Thread nD τ).loc main_arg6)) (m ((c.tc : Thread nD τ).loc main_arg25)) (m ((c.tc : Thread nD τ).loc main_arg26)) :=
  (val_main_v95_eq m c).trans (v95_eq ..)

end Results

theorem frame_ri : Cert.frame_ReferenceIdeal := fun m g _ =>
  (θ_run (Cert.ReferenceIdeal.defs (F := Ideal)) _ _).mono (fun _ h c => (h c).2.2.2) (Value.run (F := Ideal) m g)

end Cert.ReferenceIdeal.Hand

end
-- ==== Proof.KI.Region0Value.lean ====
import proofs.«418604_j2156073583116_1_alg».proof.Proof.KI.Region0
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx

section Value0

variable (V : (c : Dev nD) → (b : Ref sig .tc) → Buf (Elt Ideal) ((c : Thread nD τ).loc b))

abbrev opP0 (c : Dev nD) : S8192x1024.Idx → EReal := V c main_v1
abbrev opX0 (c : Dev nD) : S8192x1024.Idx → EReal := V c main_v2
abbrev opR0 (c : Dev nD) : S1024x1.Idx → EReal := V c main_v0

def G0 (c : Dev nD) : S1024x1024.Idx → EReal := fun i =>
  (∑ n : Fin 8192, opP0 V c (ix2 n (i 0 : Fin 1024)) * opX0 V c (ix2 n (i 1 : Fin 1024))) * opR0 V c (ix2 (i 0 : Fin 1024) (0 : Fin 1))

/-- A product into zero that contracts the rows of both operands, at an index: the sum over the rows. -/
theorem mmT0_apply {φ₁ φ₂ : FTy} (A : FVec Ideal S2048x1024 φ₁) (B : FVec Ideal S2048x1024 φ₂) (i : S1024x1024.Idx) :
    FloatOps.matmul dot_S2048x1024_S2048x1024_S1024x1024_0_0_1_1_n_n none A B (constant S1024x1024 .f32 0x00000000#32) i
      = ∑ k : Fin 2048, A (ix2 k (i 0)) * B (ix2 k (i 1)) := by
  rw [Ideal.matmul_constant_zero_apply]
  exact Fintype.sum_equiv (contrEquiv1 dot_S2048x1024_S2048x1024_S1024x1024_0_0_1_1_n_n 2048 rfl rfl) _ _ fun q =>
    congrArg₂ (· * ·) (congrArg A (Shape.idx_ext₂ rfl rfl)) (congrArg B (Shape.idx_ext₂ rfl rfl))

theorem pay1_apply0 (i : S1024x1024.Idx) : (k0_pay1 (F := Ideal) : S1024x1024.Idx → EReal) i = 0 := by
  unfold k0_pay1
  simp only [shapeCast_self]
  exact Ideal.ofBits_zero_f32

theorem pay2_apply0 (v3 v5 : S2048x1024.Idx → EReal) (v7 : S1024x1024.Idx → EReal) (i : S1024x1024.Idx) :
    k0_pay2 (F := Ideal) v3 v5 v7 i = v7 i + ∑ k : Fin 2048, v3 (ix2 k (i 0)) * v5 (ix2 k (i 1)) := by
  unfold k0_pay2
  simp only [shapeCast_self]
  exact congrArg (v7 i + ·) (mmT0_apply v3 v5 i)

theorem pay3_apply0 (v16 : S1024x1024.Idx → EReal) (v17 : S1024x1.Idx → EReal) (i : S1024x1024.Idx) :
    k0_pay3 (F := Ideal) v16 v17 i = v16 i * v17 (ix2 (i 0) (0 : Fin 1)) := by
  unfold k0_pay3
  simp only [shapeCast_self]
  exact congrArg (v16 i * ·) (broadcastTo_apply _ _ i (ix2 (i 0) (0 : Fin 1)) (fun a => match a with | ⟨0, _⟩ => rfl | ⟨1, _⟩ => rfl))

theorem idx_facts0 : ∀ t : Fin cfg0.N,
    win0_0.index t 0 = t.val ∧ win0_0.index t 1 = 0
    ∧ win0_1.index t 0 = t.val ∧ win0_1.index t 1 = 0
    ∧ win0_2.index t 0 = 0 ∧ win0_2.index t 1 = 0 :=
  (by decide +kernel : ∀ t : Fin grid0.N, _)

/-- Row k of the block of 2048 rows at point t is row 2048·t + k of the array. -/
def row0 (t : Fin cfg0.N) (k : Fin 2048) : Fin 8192 := ⟨t.val * 2048 + k.val, by
  have ht : t.val < 4 := lt_of_lt_of_eq t.isLt N_0
  have hk := k.isLt
  omega⟩

theorem iblk0_0_apply (c : Dev nD) (t : Fin cfg0.N) (j : S2048x1024.Idx) :
    iblk0 V c 0 t j = opP0 V c (ix2 (row0 t (j 0)) (j 1)) :=
  have ⟨e0, e1, _⟩ := idx_facts0 t
  congrArg (opP0 V c) (Shape.idx_ext₂ ((win0_0.rect_emb_val t j 0).trans (congrArg (· * 2048 + (j 0).val) e0)) (win0_0.rect_emb_val_of_index_zero t 1 e1 j))

theorem iblk0_1_apply (c : Dev nD) (t : Fin cfg0.N) (j : S2048x1024.Idx) :
    iblk0 V c 1 t j = opX0 V c (ix2 (row0 t (j 0)) (j 1)) :=
  have ⟨_, _, e0, e1, _⟩ := idx_facts0 t
  congrArg (opX0 V c) (Shape.idx_ext₂ ((win0_1.rect_emb_val t j 0).trans (congrArg (· * 2048 + (j 0).val) e0)) (win0_1.rect_emb_val_of_index_zero t 1 e1 j))

theorem iblk0_2_apply (c : Dev nD) (t : Fin cfg0.N) (j : S1024x1.Idx) :
    iblk0 V c 2 t j = opR0 V c j :=
  have ⟨_, _, _, _, e0, e1⟩ := idx_facts0 t
  congrArg (opR0 V c) (Shape.idx_ext₂ (win0_2.rect_emb_val_of_index_zero t 0 e0 j) (win0_2.rect_emb_val_of_index_zero t 1 e1 j))

/-- Over the extended reals the four blocks' sums, added in point order onto zero, are the sum over all 8192 rows. -/
theorem sum_blocks0 (f : Fin 8192 → EReal) (g : Fin 4 → Fin 2048 → Fin 8192) (hg : ∀ t k, (g t k).val = t.val * 2048 + k.val) :
    (((0 + ∑ k, f (g 0 k)) + ∑ k, f (g 1 k)) + ∑ k, f (g 2 k)) + ∑ k, f (g 3 k) = ∑ n, f n := by
  rw [zero_add, ← Equiv.sum_comp (finProdFinEquiv (m := 4) (n := 2048)) f, Fintype.sum_prod_type, Fin.sum_univ_four]
  have e : ∀ t k, finProdFinEquiv (t, k) = g t k := fun t k => Fin.ext (by rw [hg]; simp [finProdFinEquiv]; omega)
  simp only [e]

theorem acc0_last_apply (c : Dev nD) (h : 3 < cfg0.N) (i : S1024x1024.Idx) :
    acc0 V c 3 h i = ∑ n : Fin 8192, opP0 V c (ix2 n (i 0)) * opX0 V c (ix2 n (i 1)) := by
  rw [← sum_blocks0 (fun n => opP0 V c (ix2 n (i 0)) * opX0 V c (ix2 n (i 1)))
    (fun t => row0 ⟨t.val, lt_of_lt_of_eq t.isLt N_0.symm⟩) (fun _ _ => rfl)]
  show (k0_pay2 (F := Ideal) (iblk0 V c 0 ⟨3, h⟩) (iblk0 V c 1 ⟨3, h⟩)
    (k0_pay2 (F := Ideal) (iblk0 V c 0 ⟨2, _⟩) (iblk0 V c 1 ⟨2, _⟩)
      (k0_pay2 (F := Ideal) (iblk0 V c 0 ⟨1, _⟩) (iblk0 V c 1 ⟨1, _⟩)
        (k0_pay2 (F := Ideal) (iblk0 V c 0 ⟨0, _⟩) (iblk0 V c 1 ⟨0, _⟩) (k0_pay1 (F := Ideal))))) : S1024x1024.Idx → EReal) i = _
  rw [pay2_apply0, pay2_apply0, pay2_apply0, pay2_apply0, pay1_apply0]
  simp only [iblk0_0_apply, iblk0_1_apply]
  rfl

theorem emb0_3 (i : S1024x1024.Idx) : ((cfg0.win 3).blk t0_3).view.emb i = i :=
  Shape.idx_ext₂ (win0_3.rect_emb_val_of_index_zero t0_3 0 (by decide +kernel) i) (win0_3.rect_emb_val_of_index_zero t0_3 1 (by decide +kernel) i)

theorem flushed_eq0 (c : Dev nD) (t : Fin cfg0.N) (hf : (cfg0.win 3).flush t = true) :
    (dat0 V c).flushed 3 t = ((cfg0.win 3).blk t).view.read (Elt Ideal) (G0 V c) := by
  obtain rfl : t = t0_3 := Fin.ext (show t.val = 3 by have hN : cfg0.N = 4 := N_0; have := (flush0_3 t).mp hf; have := t.isLt; omega)
  have h : 3 < cfg0.N := t0_3.isLt
  refine funext fun (i : S1024x1024.Idx) => ?_
  show k0_pay3 (F := Ideal) (acc0 V c 3 h) (iblk0 V c 2 ⟨3, h⟩) i = G0 V c (((cfg0.win 3).blk t0_3).view.emb i)
  rw [emb0_3, pay3_apply0, acc0_last_apply, iblk0_2_apply]
  rfl

theorem final0 (c : Dev nD) : (dat0 V c).arrAt ⟨3, by decide⟩ cfg0.N = G0 V c :=
  (dat0 V c).arrAt_eq_of_cover 3 (G0 V c) (flushed_eq0 V c) fun i =>
    ⟨t0_3, (flush0_3 t0_3).mpr rfl, by rw [← emb0_3 i]; exact View.emb_mem_set _ _⟩

end Value0

end Cert.KernelIdeal.Hand

end
-- ==== Proof.KI.Region1Value.lean ====
import proofs.«418604_j2156073583116_1_alg».proof.Proof.KI.Region1
import Idealize.ShloMosaic.Lib.Pipeline.Value
import Idealize.ShloMosaic.Lib.ValueIdx
import Idealize.ShloMosaic.PureOps.Ideal.Laws
import Idealize.ShloMosaic.Lib.StackMember

noncomputable section

namespace Cert.KernelIdeal.Hand

open Cert.KernelIdeal Cert.KernelIdeal.Gen
open Idealize.ShloMosaic Idealize.ShloMosaic.TcCoe Idealize.ShloMosaic.ValueIdx

section Value

variable (V : (c : Dev nD) → (b : Ref sig .tc) → Buf (Elt Ideal) ((c : Thread nD τ).loc b))

theorem off00 : (![0, 0] : Fin 2 → Nat) = fun _ => 0 := funext fun a => by fin_cases a <;> rfl

abbrev G1 (P : S8192x1024.Idx → EReal) (M : S1024x1024.Idx → EReal) : S8192x1024.Idx → EReal :=
  fun i => ∑ k : Fin 1024, P (ix2 (i 0) k) * M (ix2 k (i 1))

/-- A product into the zero matrix is the plain matrix product, whose entries are sums over the shared coordinate. -/
theorem matmul_plain_zero_apply {m k n : Nat} {φ₁ φ₂ : FTy} (A : FVec Ideal ⟨2, ![m, k]⟩ φ₁) (B : FVec Ideal ⟨2, ![k, n]⟩ φ₂)
    (a : Fin m) (b : Fin n) :
    matmul (DotDims.plain m k n) none A B (constant ⟨2, ![m, n]⟩ .f32 0x00000000#32) (ix2 a b) = ∑ c : Fin k, A (ix2 a c) * B (ix2 c b) :=
  (congrFun (matmul_zero_eq_dotGeneral _ none A B) _).trans (StackMember.dotGeneral_plain_apply none A B a b)

theorem pay1_apply (x0 : FVec Ideal S2048x1024 .bf16) (x1 : FVec Ideal S1024x1024 .bf16) (a : Fin 2048) (b : Fin 1024) :
    k1_pay1 x0 x1 (ix2 a b) = ∑ k : Fin 1024, x0 (ix2 a k) * x1 (ix2 k b) := by
  unfold k1_pay1
  simp only [shapeCast_self]
  exact matmul_plain_zero_apply x0 x1 a b

theorem idx_facts1 : ∀ t : Fin cfg1.N,
    win1_0.index t 0 = t.val ∧ win1_0.index t 1 = 0
    ∧ win1_1.index t 0 = 0 ∧ win1_1.index t 1 = 0
    ∧ win1_2.index t 0 = t.val ∧ win1_2.index t 1 = 0 :=
  (by decide +kernel : ∀ t : Fin grid1.N, _)

/-- Row a of the block of 2048 rows at point t is row 2048·t + a of the array. -/
def row1 (t : Fin cfg1.N) (a : Fin 2048) : Fin 8192 := ⟨t.val * 2048 + a.val, by
  have ht : t.val < 4 := lt_of_lt_of_eq t.isLt N_1
  have ha := a.isLt
  omega⟩

theorem emb1_2 (t : Fin cfg1.N) (a : Fin 2048) (b : Fin 1024) : ((cfg1.win 2).blk t).view.emb (ix2 a b) = ix2 (row1 t a) b :=
  have ⟨_, _, _, _, e0, e1⟩ := idx_facts1 t
  Shape.idx_ext₂ ((win1_2.rect_emb_val t _ 0).trans (congrArg (· * 2048 + a.val) e0)) (win1_2.rect_emb_val_of_index_zero t 1 e1 _)

theorem blk1_0 (c : Dev nD) (t : Fin cfg1.N) (a : Fin 2048) (k : Fin 1024) :
    iblk1 V c 0 t (ix2 a k) = V c (Pipeline.arrRef spec1 0) (ix2 (row1 t a) k) :=
  have ⟨e0, e1, _⟩ := idx_facts1 t
  congrArg (V c (Pipeline.arrRef spec1 0)) (Shape.idx_ext₂ ((win1_0.rect_emb_val t _ 0).trans (congrArg (· * 2048 + a.val) e0)) (win1_0.rect_emb_val_of_index_zero t 1 e1 _))

theorem blk1_1 (c : Dev nD) (t : Fin cfg1.N) (k b : Fin 1024) : iblk1 V c 1 t (ix2 k b) = V c (Pipeline.arrRef spec1 1) (ix2 k b) :=
  have ⟨_, _, e0, e1, _⟩ := idx_facts1 t
  congrArg (V c (Pipeline.arrRef spec1 1)) (Shape.idx_ext₂ (win1_1.rect_emb_val_of_index_zero t 0 e0 _) (win1_1.rect_emb_val_of_index_zero t 1 e1 _))

theorem flushed1_2 (c : Dev nD) (t : Fin cfg1.N) :
    (dat1 V c).flushed 2 t = ((cfg1.win 2).blk t).view.read (Elt Ideal)
      (G1 (V c (Pipeline.arrRef spec1 0)) (V c (Pipeline.arrRef spec1 1))) := by
  show (cfg1.win 2).cut (grid1.coords t) ((dat1 V c).after 2 t) = _
  rw [after1_2]
  unfold out1_2
  rw [View.canon_unit_zero off00]
  simp only [View.ld_unit_zero (S := S2048x1024) off00, View.ld_unit_zero (S := S1024x1024) off00]
  funext y
  obtain ⟨a, b, rfl⟩ : ∃ (a : Fin 2048) (b : Fin 1024), y = ix2 a b := ⟨y 0, y 1, eq_ix2 y⟩
  show k1_pay1 (F := Ideal) _ _ (ix2 a b) = G1 _ _ (((cfg1.win 2).blk t).view.emb (ix2 a b))
  rw [pay1_apply, emb1_2]
  simp only [blk1_0, blk1_1]

theorem cover1_arr (i : S8192x1024.Idx) :
    ∃ t : Fin cfg1.N, (cfg1.win 2).flush t = true ∧ i ∈ ((cfg1.win 2).blk t).view.set := by
  have hi0 : (i 0).val < 8192 := (i 0).isLt
  obtain ⟨t, ht⟩ : ∃ t : Fin cfg1.N, t.val = (i 0).val / 2048 := ⟨⟨(i 0).val / 2048, lt_of_lt_of_eq (by omega) N_1.symm⟩, rfl⟩
  refine ⟨t, flush1_2 t, ?_⟩
  rw [show i = ((cfg1.win 2).blk t).view.emb (ix2 (⟨(i 0).val % 2048, Nat.mod_lt _ (by norm_num)⟩ : Fin 2048) (⟨(i 1).val, (i 1).isLt⟩ : Fin 1024)) from by
    rw [emb1_2]; exact Shape.idx_ext₂ (by show (i 0).val = t.val * 2048 + (i 0).val % 2048; omega) rfl]
  exact View.emb_mem_set _ _

theorem final1 (c : Dev nD) :
    (dat1 V c).arrAt 2 cfg1.N = G1 (V c (Pipeline.arrRef spec1 0)) (V c (Pipeline.arrRef spec1 1)) :=
  (dat1 V c).arrAt_eq_of_cover 2 _ (fun t _ => flushed1_2 V c t) cover1_arr

end Value

end Cert.KernelIdeal.Hand

end
-- ==== Proof.KI.Region2Value.lean ====
import proofs.«418604_j2156073583116_1_alg».proof.Proof.KI.Region2
import Idealize.ShloMosaic.PureOps.Ideal.Laws
import Idealize.ShloMosaic.Lib.ValueIdx
import Idealize.ShloMosaic.Lib.ValueLayout
import Idealize.ShloMosaic.Lib.Pipeline.Value
import proofs.«418604_j2156073583116_1_alg».proof.Proof.KI.Region1Value

noncomputable section

namespace Cert.KernelIdeal.Hand

open Cert.KernelIdeal Cert.KernelIdeal.Gen
open Idealize.ShloMosaic Idealize.ShloMosaic.TcCoe Idealize.ShloMosaic.ValueIdx

section Value2

def G2 (img tm : S8192x1024.Idx → EReal) (wa wb : S1024x1024.Idx → EReal) (b : S1x1024.Idx → EReal) : S8192x1024.Idx → EReal :=
  fun i => max (((∑ k : Fin 1024, img (ix2 (i 0) k) * wa (ix2 k (i 1))) + (∑ k : Fin 1024, tm (ix2 (i 0) k) * wb (ix2 k (i 1))))
    + b (ix2 (0 : Fin 1) (i 1))) 0

theorem hzero2 : (![0, 0] : Fin 2 → Nat) = fun _ => 0 := funext fun a => by fin_cases a <;> rfl

theorem pay2_apply (x0 x1 x2 x3 : FVec Ideal S1024x1024 .bf16) (x4 : FVec Ideal S1x1024 .f32) (a b : Fin 1024) :
    k2_pay1 (F := Ideal) x0 x1 x2 x3 x4 (ix2 a b)
      = max (((∑ k : Fin 1024, x0 (ix2 a k) * x2 (ix2 k b)) + (∑ k : Fin 1024, x1 (ix2 a k) * x3 (ix2 k b)))
          + x4 (ix2 (0 : Fin 1) b)) 0 := by
  unfold k2_pay1
  simp only [shapeCast_self]
  show max ((_ + _) + _) (Ideal.ofBits .f32 0x00000000#32) = _
  rw [Ideal.ofBits_zero_f32, broadcastTo_1b_ab_apply]
  exact congrArg (max · 0) (congrArg (· + x4 (ix2 (0 : Fin 1) b)) (congrArg₂ (· + ·) (matmul_plain_zero_apply x0 x2 a b) (matmul_plain_zero_apply x1 x3 a b)))

variable (V : (c : Dev nD) → (b : Ref sig .tc) → Buf (Elt Ideal) ((c : Thread nD τ).loc b))

theorem idx_facts2 : ∀ t : Fin cfg2.N,
    win2_5.index t 0 = t.val ∧ win2_5.index t 1 = 0
    ∧ win2_0.index t 0 = t.val ∧ win2_0.index t 1 = 0
    ∧ win2_1.index t 0 = t.val ∧ win2_1.index t 1 = 0
    ∧ win2_2.index t 0 = 0 ∧ win2_2.index t 1 = 0
    ∧ win2_3.index t 0 = 0 ∧ win2_3.index t 1 = 0
    ∧ win2_4.index t 0 = 0 ∧ win2_4.index t 1 = 0 :=
  (by decide +kernel : ∀ t : Fin grid2.N, _)

/-- Row a of the block of 1024 rows at point t is row 1024·t + a of the array. -/
def row2 (t : Fin cfg2.N) (a : Fin 1024) : Fin 8192 := ⟨t.val * 1024 + a.val, by
  have ht : t.val < 8 := lt_of_lt_of_eq t.isLt N_2
  have ha := a.isLt
  omega⟩

theorem emb2_5 (t : Fin cfg2.N) (a b : Fin 1024) : ((cfg2.win 5).blk t).view.emb (ix2 a b) = ix2 (row2 t a) b :=
  have ⟨e0, e1, _⟩ := idx_facts2 t
  Shape.idx_ext₂ ((win2_5.rect_emb_val t _ 0).trans (congrArg (· * 1024 + a.val) e0)) (win2_5.rect_emb_val_of_index_zero t 1 e1 _)

theorem blk2_0 (c : Dev nD) (t : Fin cfg2.N) (a k : Fin 1024) : iblk2 V c 0 t (ix2 a k) = V c (Pipeline.arrRef spec2 0) (ix2 (row2 t a) k) :=
  have ⟨_, _, e0, e1, _⟩ := idx_facts2 t
  congrArg (V c (Pipeline.arrRef spec2 0)) (Shape.idx_ext₂ ((win2_0.rect_emb_val t _ 0).trans (congrArg (· * 1024 + a.val) e0)) (win2_0.rect_emb_val_of_index_zero t 1 e1 _))
theorem blk2_1 (c : Dev nD) (t : Fin cfg2.N) (a k : Fin 1024) : iblk2 V c 1 t (ix2 a k) = V c (Pipeline.arrRef spec2 1) (ix2 (row2 t a) k) :=
  have ⟨_, _, _, _, e0, e1, _⟩ := idx_facts2 t
  congrArg (V c (Pipeline.arrRef spec2 1)) (Shape.idx_ext₂ ((win2_1.rect_emb_val t _ 0).trans (congrArg (· * 1024 + a.val) e0)) (win2_1.rect_emb_val_of_index_zero t 1 e1 _))
theorem blk2_2 (c : Dev nD) (t : Fin cfg2.N) (k b : Fin 1024) : iblk2 V c 2 t (ix2 k b) = V c (Pipeline.arrRef spec2 2) (ix2 k b) :=
  have ⟨_, _, _, _, _, _, e0, e1, _⟩ := idx_facts2 t
  congrArg (V c (Pipeline.arrRef spec2 2)) (Shape.idx_ext₂ (win2_2.rect_emb_val_of_index_zero t 0 e0 _) (win2_2.rect_emb_val_of_index_zero t 1 e1 _))
theorem blk2_3 (c : Dev nD) (t : Fin cfg2.N) (k b : Fin 1024) : iblk2 V c 3 t (ix2 k b) = V c (Pipeline.arrRef spec2 3) (ix2 k b) :=
  have ⟨_, _, _, _, _, _, _, _, e0, e1, _⟩ := idx_facts2 t
  congrArg (V c (Pipeline.arrRef spec2 3)) (Shape.idx_ext₂ (win2_3.rect_emb_val_of_index_zero t 0 e0 _) (win2_3.rect_emb_val_of_index_zero t 1 e1 _))
theorem blk2_4 (c : Dev nD) (t : Fin cfg2.N) (u : Fin 1) (b : Fin 1024) : iblk2 V c 4 t (ix2 u b) = V c (Pipeline.arrRef spec2 4) (ix2 u b) :=
  have ⟨_, _, _, _, _, _, _, _, _, _, e0, e1⟩ := idx_facts2 t
  congrArg (V c (Pipeline.arrRef spec2 4)) (Shape.idx_ext₂ (win2_4.rect_emb_val_of_index_zero t 0 e0 _) (win2_4.rect_emb_val_of_index_zero t 1 e1 _))

theorem flushed2_eq (c : Dev nD) (t : Fin cfg2.N) :
    (dat2 V c).flushed 5 t = ((cfg2.win 5).blk t).view.read (Elt Ideal)
        (fun i => G2 (V c (Pipeline.arrRef spec2 0)) (V c (Pipeline.arrRef spec2 1)) (V c (Pipeline.arrRef spec2 2))
          (V c (Pipeline.arrRef spec2 3)) (V c (Pipeline.arrRef spec2 4)) i) := by
  show (cfg2.win 5).cut (grid2.coords t) ((dat2 V c).after 5 t) = _
  rw [after2_5]
  unfold out2_5
  rw [View.canon_unit_zero hzero2]
  simp only [View.ld_unit_zero (S := S1024x1024) hzero2, View.ld_unit_zero (S := S1x1024) hzero2]
  funext y
  obtain ⟨a, b, rfl⟩ : ∃ (a b : Fin 1024), y = ix2 a b := ⟨y 0, y 1, eq_ix2 y⟩
  show k2_pay1 (F := Ideal) _ _ _ _ _ (ix2 a b)
    = G2 _ _ _ _ _ (((cfg2.win 5).blk t).view.emb (ix2 a b))
  rw [pay2_apply, emb2_5]
  simp only [blk2_0, blk2_1, blk2_2, blk2_3, blk2_4]
  rfl

theorem cover2 (i : S8192x1024.Idx) : ∃ t : Fin cfg2.N, (cfg2.win 5).flush t = true ∧ i ∈ ((cfg2.win 5).blk t).view.set := by
  have hi0 : (i 0).val < 8192 := (i 0).isLt
  obtain ⟨t, ht⟩ : ∃ t : Fin cfg2.N, t.val = (i 0).val / 1024 := ⟨⟨(i 0).val / 1024, lt_of_lt_of_eq (by omega) N_2.symm⟩, rfl⟩
  refine ⟨t, flush2_5 t, ?_⟩
  rw [show i = ((cfg2.win 5).blk t).view.emb (ix2 (⟨(i 0).val % 1024, Nat.mod_lt _ (by norm_num)⟩ : Fin 1024) (⟨(i 1).val, (i 1).isLt⟩ : Fin 1024)) from by
    rw [emb2_5]; exact Shape.idx_ext₂ (by show (i 0).val = t.val * 1024 + (i 0).val % 1024; omega) rfl]
  exact View.emb_mem_set _ _

theorem final2 (c : Dev nD) :
    (dat2 V c).arrAt ⟨5, by decide⟩ cfg2.N
      = fun i => G2 (V c (Pipeline.arrRef spec2 0)) (V c (Pipeline.arrRef spec2 1)) (V c (Pipeline.arrRef spec2 2))
          (V c (Pipeline.arrRef spec2 3)) (V c (Pipeline.arrRef spec2 4)) i :=
  (dat2 V c).arrAt_eq_of_cover 5 _ (fun t _ => flushed2_eq V c t) cover2

end Value2

end Cert.KernelIdeal.Hand

end
-- ==== Proof.KI.Region3Value.lean ====
import proofs.«418604_j2156073583116_1_alg».proof.Proof.KI.Region3
import proofs.«418604_j2156073583116_1_alg».proof.Proof.KI.Region0Value
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx

section Value3

variable (V : (c : Dev nD) → (b : Ref sig .tc) → Buf (Elt Ideal) ((c : Thread nD τ).loc b))

abbrev opP3 (c : Dev nD) : S8192x1024.Idx → EReal := V c main_v1
abbrev opX3 (c : Dev nD) : S8192x1024.Idx → EReal := V c main_v2
abbrev opG3 (c : Dev nD) : S8192x1.Idx → EReal := V c main_v19

def G3 (c : Dev nD) : S1024x1024.Idx → EReal := fun i =>
  ∑ n : Fin 8192, opP3 V c (ix2 n (i 0 : Fin 1024)) * (opX3 V c (ix2 n (i 1 : Fin 1024)) * opG3 V c (ix2 n (0 : Fin 1)))

theorem hzV3 : (![0, 0] : Fin 2 → Nat) = fun _ => 0 := funext fun a => by fin_cases a <;> rfl

theorem out3_eq (s : S1024x1024.Idx → EReal) : (out3 (F := Ideal) s : S1024x1024.Idx → EReal) = s := by
  unfold out3
  rw [View.canon_unit_zero hzV3, View.ld_unit_zero (S := S1024x1024) hzV3]

theorem reset3_apply (i : S1024x1024.Idx) : (reset3 (F := Ideal) : S1024x1024.Idx → EReal) i = 0 := by
  unfold reset3 k3_pay1
  rw [View.canon_unit_zero hzV3]
  simp only [shapeCast_self]
  exact Ideal.ofBits_zero_f32

theorem step3_apply (v3 v5 : S2048x1024.Idx → EReal) (v8 : S2048x1.Idx → EReal) (v13 : S1024x1024.Idx → EReal) (i : S1024x1024.Idx) :
    step3 (F := Ideal) v3 v5 v8 v13 i = v13 i + ∑ k : Fin 2048, v3 (ix2 k (i 0)) * (v5 (ix2 k (i 1)) * v8 (ix2 k (0 : Fin 1))) := by
  unfold step3 k3_pay2
  rw [View.canon_unit_zero hzV3]
  simp only [View.ld_unit_zero (S := S2048x1024) hzV3, View.ld_unit_zero (S := S1024x1024) hzV3, View.ld_unit_zero (S := S2048x1) hzV3, shapeCast_self]
  refine congrArg (v13 i + ·) ((mmT0_apply v3 _ i).trans (Finset.sum_congr rfl fun k _ => congrArg (v3 _ * ·) ?_))
  exact congrArg (v5 _ * ·) (broadcastTo_apply v8 _ (ix2 k (i 1)) (ix2 k (0 : Fin 1)) (fun a => match a with | ⟨0, _⟩ => rfl | ⟨1, _⟩ => rfl))

theorem idx_facts3 : ∀ t : Fin cfg3.N,
    win3_0.index t 0 = t.val ∧ win3_0.index t 1 = 0
    ∧ win3_1.index t 0 = t.val ∧ win3_1.index t 1 = 0
    ∧ win3_2.index t 0 = t.val ∧ win3_2.index t 1 = 0 :=
  (by decide +kernel : ∀ t : Fin grid3.N, _)

/-- Row k of the block of 2048 rows at point t is row 2048·t + k of the array. -/
def row3 (t : Fin cfg3.N) (k : Fin 2048) : Fin 8192 := ⟨t.val * 2048 + k.val, by
  have ht : t.val < 4 := lt_of_lt_of_eq t.isLt N_3
  have hk := k.isLt
  omega⟩

theorem iblk3_0_apply (c : Dev nD) (t : Fin cfg3.N) (j : S2048x1024.Idx) :
    iblk3 V c 0 t j = opP3 V c (ix2 (row3 t (j 0)) (j 1)) :=
  have ⟨e0, e1, _⟩ := idx_facts3 t
  congrArg (opP3 V c) (Shape.idx_ext₂ ((win3_0.rect_emb_val t j 0).trans (congrArg (· * 2048 + (j 0).val) e0)) (win3_0.rect_emb_val_of_index_zero t 1 e1 j))

theorem iblk3_1_apply (c : Dev nD) (t : Fin cfg3.N) (j : S2048x1024.Idx) :
    iblk3 V c 1 t j = opX3 V c (ix2 (row3 t (j 0)) (j 1)) :=
  have ⟨_, _, e0, e1, _⟩ := idx_facts3 t
  congrArg (opX3 V c) (Shape.idx_ext₂ ((win3_1.rect_emb_val t j 0).trans (congrArg (· * 2048 + (j 0).val) e0)) (win3_1.rect_emb_val_of_index_zero t 1 e1 j))

theorem iblk3_2_apply (c : Dev nD) (t : Fin cfg3.N) (j : S2048x1.Idx) :
    iblk3 V c 2 t j = opG3 V c (ix2 (row3 t (j 0)) (j 1)) :=
  have ⟨_, _, _, _, e0, e1⟩ := idx_facts3 t
  congrArg (opG3 V c) (Shape.idx_ext₂ ((win3_2.rect_emb_val t j 0).trans (congrArg (· * 2048 + (j 0).val) e0)) (win3_2.rect_emb_val_of_index_zero t 1 e1 j))

theorem acc3_last_apply (c : Dev nD) (h : 3 < cfg3.N) (i : S1024x1024.Idx) :
    acc3 V c 3 h i = G3 V c i := by
  unfold G3
  rw [← sum_blocks0 (fun n => opP3 V c (ix2 n (i 0)) * (opX3 V c (ix2 n (i 1)) * opG3 V c (ix2 n (0 : Fin 1))))
    (fun t => row3 ⟨t.val, lt_of_lt_of_eq t.isLt N_3.symm⟩) (fun _ _ => rfl)]
  show (step3 (F := Ideal) (iblk3 V c 0 ⟨3, h⟩) (iblk3 V c 1 ⟨3, h⟩) (iblk3 V c 2 ⟨3, h⟩)
    (step3 (F := Ideal) (iblk3 V c 0 ⟨2, _⟩) (iblk3 V c 1 ⟨2, _⟩) (iblk3 V c 2 ⟨2, _⟩)
      (step3 (F := Ideal) (iblk3 V c 0 ⟨1, _⟩) (iblk3 V c 1 ⟨1, _⟩) (iblk3 V c 2 ⟨1, _⟩)
        (step3 (F := Ideal) (iblk3 V c 0 ⟨0, _⟩) (iblk3 V c 1 ⟨0, _⟩) (iblk3 V c 2 ⟨0, _⟩) (reset3 (F := Ideal))))) : S1024x1024.Idx → EReal) i = _
  rw [step3_apply, step3_apply, step3_apply, step3_apply, reset3_apply]
  simp only [iblk3_0_apply, iblk3_1_apply, iblk3_2_apply]
  rfl

theorem emb3_3 (i : S1024x1024.Idx) : ((cfg3.win 3).blk t3_3).view.emb i = i :=
  Shape.idx_ext₂ (win3_3.rect_emb_val_of_index_zero t3_3 0 (by decide +kernel) i) (win3_3.rect_emb_val_of_index_zero t3_3 1 (by decide +kernel) i)

theorem flushed_eq3 (c : Dev nD) (t : Fin cfg3.N) (hf : (cfg3.win 3).flush t = true) :
    (dat3 V c).flushed 3 t = ((cfg3.win 3).blk t).view.read (Elt Ideal) (G3 V c) := by
  obtain rfl : t = t3_3 := Fin.ext (show t.val = 3 by have hN : cfg3.N = 4 := N_3; have := (flush3_3 t).mp hf; have := t.isLt; omega)
  show (cfg3.win 3).cut (grid3.coords t3_3) ((dat3 V c).after 3 t3_3) = _
  rw [after3_3]
  have h : 3 < cfg3.N := t3_3.isLt
  refine funext fun (i : S1024x1024.Idx) => ?_
  show out3 (F := Ideal) (acc3 V c 3 h) i = G3 V c (((cfg3.win 3).blk t3_3).view.emb i)
  rw [emb3_3, out3_eq, acc3_last_apply]

theorem final3 (c : Dev nD) : (dat3 V c).arrAt ⟨3, by decide⟩ cfg3.N = G3 V c :=
  (dat3 V c).arrAt_eq_of_cover 3 (G3 V c) (flushed_eq3 V c) fun i =>
    ⟨t3_3, (flush3_3 t3_3).mpr rfl, by rw [← emb3_3 i]; exact View.emb_mem_set _ _⟩

end Value3

end Cert.KernelIdeal.Hand

end
-- ==== Proof.KI.Region4Value.lean ====
import proofs.«418604_j2156073583116_1_alg».proof.Proof.KI.Region4
import Idealize.ShloMosaic.Lib.Pipeline.Value
import Idealize.ShloMosaic.Lib.ValueIdx
import Idealize.ShloMosaic.Lib.ValueIdxCoords
import proofs.«418604_j2156073583116_1_alg».proof.Proof.KI.Region1Value
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx

/-- The left factor is the 0/1 matrix of a column of index words: entry (a, j) is 1 when the word at row a is the word of j. -/
theorem sel4_apply (x : Vec Ideal S1024x1 .i32) (W : FVec Ideal S1024x1024 .bf16) (a b : Fin 1024) :
    matmul dot_S1024x1024_S1024x1024_S1024x1024_1_0_0_1_n_n none (truncf .bf16 (sitofp .f32 (extui 32 (cmpi .eq
      (broadcastTo S1024x1024 x broadcasts_S1024x1_S1024x1024) (iota .tc S1024x1024 32 [1] iota_S1024x1024_d1_w32)) natLt_1_32)) bitsLt_bf16_f32)
      W (constant S1024x1024 .f32 0x00000000#32) (ix2 a b)
      = ∑ j : Fin 1024, (if x (ix2 a (0 : Fin 1)) = BitVec.ofNat 32 j.val then (1 : EReal) else 0) * W (ix2 j b) := by
  refine (matmul_plain_zero_apply _ W a b).trans (Finset.sum_congr rfl fun j _ => congrArg (· * W (ix2 j b)) ?_)
  have hb := broadcastTo_apply x broadcasts_S1024x1_S1024x1024 (ix2 a j) (ix2 a (0 : Fin 1))
    (fun ax => match ax with | ⟨0, _⟩ => rfl | ⟨1, _⟩ => rfl)
  show ((((IntOp.cmpi .eq (broadcastTo S1024x1024 x broadcasts_S1024x1_S1024x1024 (ix2 a j))
      (iota .tc S1024x1024 32 [1] iota_S1024x1024_d1_w32 (ix2 a j))).setWidth 32).toInt : ℝ) : EReal) = _
  rw [hb, iota_single_apply]
  unfold IntOp.cmpi
  by_cases h : x (ix2 a (0 : Fin 1)) = BitVec.ofNat 32 j.val
  · simp [h]
  · simp [h, beq_eq_false_iff_ne.mpr h]

theorem pay4_apply (x0 x1 : Vec Ideal S1024x1 .i32) (x2 : FVec Ideal S1024x32 .bf16) (x3 : FVec Ideal S32x1024 .bf16)
    (x4 x5 : FVec Ideal S1024x1024 .bf16) (x6 : FVec Ideal S1x1024 .f32) (a b : Fin 1024) :
    k4_pay1 x0 x1 x2 x3 x4 x5 x6 (ix2 a b)
      = (((∑ e : Fin 32, x2 (ix2 a e) * x3 (ix2 e b))
          + ∑ j : Fin 1024, (if x0 (ix2 a (0 : Fin 1)) = BitVec.ofNat 32 j.val then (1 : EReal) else 0) * x4 (ix2 j b))
          + ∑ j : Fin 1024, (if x1 (ix2 a (0 : Fin 1)) = BitVec.ofNat 32 j.val then (1 : EReal) else 0) * x5 (ix2 j b))
        + x6 (ix2 (0 : Fin 1) b) := by
  unfold k4_pay1
  simp only [shapeCast_self]
  exact congrArg₂ (· + ·) (congrArg₂ (· + ·) (congrArg₂ (· + ·) (matmul_plain_zero_apply x2 x3 a b) (sel4_apply x0 x4 a b)) (sel4_apply x1 x5 a b))
    (broadcastTo_apply x6 _ (ix2 a b) (ix2 (0 : Fin 1) b) (fun ax => match ax with | ⟨0, _⟩ => rfl | ⟨1, _⟩ => rfl))

section Value4
variable (V : (c : Dev nD) → (b : Ref sig .tc) → Buf (Elt Ideal) ((c : Thread nD τ).loc b))

theorem idx_facts4 : ∀ t : Fin cfg4.N,
    win4_0.index t 0 = t.val ∧ win4_0.index t 1 = 0
    ∧ win4_1.index t 0 = t.val ∧ win4_1.index t 1 = 0
    ∧ win4_2.index t 0 = t.val ∧ win4_2.index t 1 = 0
    ∧ win4_3.index t 0 = 0 ∧ win4_3.index t 1 = 0
    ∧ win4_4.index t 0 = 0 ∧ win4_4.index t 1 = 0
    ∧ win4_5.index t 0 = 0 ∧ win4_5.index t 1 = 0
    ∧ win4_6.index t 0 = 0 ∧ win4_6.index t 1 = 0
    ∧ win4_7.index t 0 = t.val ∧ win4_7.index t 1 = 0 :=
  (by decide +kernel : ∀ t : Fin grid4.N, _)

def row4 (t : Fin cfg4.N) (a : Fin 1024) : Fin 16384 := ⟨t.val * 1024 + a.val, by
  have ht : t.val < 16 := t.isLt
  have ha := a.isLt
  omega⟩

theorem emb4_7 (t : Fin cfg4.N) (a b : Fin 1024) : ((cfg4.win 7).blk t).view.emb (ix2 a b) = ix2 (row4 t a) b :=
  have ⟨_, _, _, _, _, _, _, _, _, _, _, _, _, _, e0, e1⟩ := idx_facts4 t
  Shape.idx_ext₂ ((win4_7.rect_emb_val t _ 0).trans (congrArg (· * 1024 + a.val) e0)) (win4_7.rect_emb_val_of_index_zero t 1 e1 _)

theorem blk4_0 (c : Dev nD) (t : Fin cfg4.N) (a : Fin 1024) (u : Fin 1) : iblk4 V c 0 t (ix2 a u) = V c main_v63 (ix2 (row4 t a) u) :=
  have ⟨e0, e1, _⟩ := idx_facts4 t
  congrArg (V c main_v63) (Shape.idx_ext₂ ((win4_0.rect_emb_val t _ 0).trans (congrArg (· * 1024 + a.val) e0)) (win4_0.rect_emb_val_of_index_zero t 1 e1 _))
theorem blk4_1 (c : Dev nD) (t : Fin cfg4.N) (a : Fin 1024) (u : Fin 1) : iblk4 V c 1 t (ix2 a u) = V c main_v64 (ix2 (row4 t a) u) :=
  have ⟨_, _, e0, e1, _⟩ := idx_facts4 t
  congrArg (V c main_v64) (Shape.idx_ext₂ ((win4_1.rect_emb_val t _ 0).trans (congrArg (· * 1024 + a.val) e0)) (win4_1.rect_emb_val_of_index_zero t 1 e1 _))
theorem blk4_2 (c : Dev nD) (t : Fin cfg4.N) (a : Fin 1024) (e : Fin 32) : iblk4 V c 2 t (ix2 a e) = V c main_v65 (ix2 (row4 t a) e) :=
  have ⟨_, _, _, _, e0, e1, _⟩ := idx_facts4 t
  congrArg (V c main_v65) (Shape.idx_ext₂ ((win4_2.rect_emb_val t _ 0).trans (congrArg (· * 1024 + a.val) e0)) (win4_2.rect_emb_val_of_index_zero t 1 e1 _))
theorem blk4_3 (c : Dev nD) (t : Fin cfg4.N) (e : Fin 32) (b : Fin 1024) : iblk4 V c 3 t (ix2 e b) = V c main_v66 (ix2 e b) :=
  have ⟨_, _, _, _, _, _, e0, e1, _⟩ := idx_facts4 t
  congrArg (V c main_v66) (Shape.idx_ext₂ (win4_3.rect_emb_val_of_index_zero t 0 e0 _) (win4_3.rect_emb_val_of_index_zero t 1 e1 _))
theorem blk4_4 (c : Dev nD) (t : Fin cfg4.N) (j b : Fin 1024) : iblk4 V c 4 t (ix2 j b) = V c main_v67 (ix2 j b) :=
  have ⟨_, _, _, _, _, _, _, _, e0, e1, _⟩ := idx_facts4 t
  congrArg (V c main_v67) (Shape.idx_ext₂ (win4_4.rect_emb_val_of_index_zero t 0 e0 _) (win4_4.rect_emb_val_of_index_zero t 1 e1 _))
theorem blk4_5 (c : Dev nD) (t : Fin cfg4.N) (j b : Fin 1024) : iblk4 V c 5 t (ix2 j b) = V c main_v68 (ix2 j b) :=
  have ⟨_, _, _, _, _, _, _, _, _, _, e0, e1, _⟩ := idx_facts4 t
  congrArg (V c main_v68) (Shape.idx_ext₂ (win4_5.rect_emb_val_of_index_zero t 0 e0 _) (win4_5.rect_emb_val_of_index_zero t 1 e1 _))
theorem blk4_6 (c : Dev nD) (t : Fin cfg4.N) (u : Fin 1) (b : Fin 1024) : iblk4 V c 6 t (ix2 u b) = V c main_v69 (ix2 u b) :=
  have ⟨_, _, _, _, _, _, _, _, _, _, _, _, e0, e1, _⟩ := idx_facts4 t
  congrArg (V c main_v69) (Shape.idx_ext₂ (win4_6.rect_emb_val_of_index_zero t 0 e0 _) (win4_6.rect_emb_val_of_index_zero t 1 e1 _))

def G4 (s0 s1 : S16384x1.Idx → BitVec 32) (am : S16384x32.Idx → EReal) (w0 : S32x1024.Idx → EReal)
    (w1 w2 : S1024x1024.Idx → EReal) (bz : S1x1024.Idx → EReal) : S16384x1024.Idx → EReal := fun i =>
  (((∑ e : Fin 32, am (ix2 (i 0) e) * w0 (ix2 e (i 1)))
      + ∑ j : Fin 1024, (if s0 (ix2 (i 0) (0 : Fin 1)) = BitVec.ofNat 32 j.val then (1 : EReal) else 0) * w1 (ix2 j (i 1)))
      + ∑ j : Fin 1024, (if s1 (ix2 (i 0) (0 : Fin 1)) = BitVec.ofNat 32 j.val then (1 : EReal) else 0) * w2 (ix2 j (i 1)))
    + bz (ix2 (0 : Fin 1) (i 1))

theorem hz4 : (![0, 0] : Fin 2 → Nat) = fun _ => 0 := funext fun a => by fin_cases a <;> rfl

theorem flushed4_eq (c : Dev nD) (t : Fin cfg4.N) :
    (dat4 V c).flushed 7 t = ((cfg4.win 7).blk t).view.read (Elt Ideal)
      (G4 (V c main_v63) (V c main_v64) (V c main_v65) (V c main_v66) (V c main_v67) (V c main_v68) (V c main_v69)) := by
  show (cfg4.win 7).cut (grid4.coords t) ((dat4 V c).after 7 t) = _
  rw [after4_7]
  unfold out4_7
  rw [View.canon_unit_zero hz4]
  simp only [View.ld_unit_zero (S := S1024x1) hz4, View.ld_unit_zero (S := S1024x32) hz4, View.ld_unit_zero (S := S32x1024) hz4,
    View.ld_unit_zero (S := S1024x1024) hz4, View.ld_unit_zero (S := S1x1024) hz4]
  funext y
  obtain ⟨a, b, rfl⟩ : ∃ (a b : Fin 1024), y = ix2 a b := ⟨y 0, y 1, eq_ix2 y⟩
  show k4_pay1 (F := Ideal) _ _ _ _ _ _ _ (ix2 a b) = G4 _ _ _ _ _ _ _ (((cfg4.win 7).blk t).view.emb (ix2 a b))
  rw [pay4_apply, emb4_7]
  simp only [blk4_0, blk4_1, blk4_2, blk4_3, blk4_4, blk4_5, blk4_6]
  rfl

theorem cover4 (i : S16384x1024.Idx) : ∃ t : Fin cfg4.N, (cfg4.win 7).flush t = true ∧ i ∈ ((cfg4.win 7).blk t).view.set := by
  have hi0 : (i 0).val < 16384 := (i 0).isLt
  obtain ⟨t, ht⟩ : ∃ t : Fin cfg4.N, t.val = (i 0).val / 1024 := ⟨⟨(i 0).val / 1024, by show _ < 16; omega⟩, rfl⟩
  refine ⟨t, flush4_7 t, ?_⟩
  rw [show i = ((cfg4.win 7).blk t).view.emb (ix2 (⟨(i 0).val % 1024, Nat.mod_lt _ (by norm_num)⟩ : Fin 1024) (⟨(i 1).val, (i 1).isLt⟩ : Fin 1024)) from by
    rw [emb4_7]; exact Shape.idx_ext₂ (by show (i 0).val = t.val * 1024 + (i 0).val % 1024; omega) rfl]
  exact View.emb_mem_set _ _

theorem final4 (c : Dev nD) : (dat4 V c).arrAt 7 cfg4.N
    = G4 (V c main_v63) (V c main_v64) (V c main_v65) (V c main_v66) (V c main_v67) (V c main_v68) (V c main_v69) :=
  (dat4 V c).arrAt_eq_of_cover 7 _ (fun t _ => flushed4_eq V c t) cover4

end Value4

end Cert.KernelIdeal.Hand

end
-- ==== Proof.KI.ValsDefs.lean ====
import proofs.«418604_j2156073583116_1_alg».proof.KernelIdeal
import Idealize.ShloMosaic.Lib.ValueIdx
import Idealize.ShloMosaic.PureOps.Ideal.Laws

noncomputable section

namespace Cert.KernelIdeal.Hand

open Cert.KernelIdeal
open Idealize.ShloMosaic Idealize.ShloMosaic.ValueIdx
open scoped BigOperators

def allMeansK (p img : S8192x1024.Idx → EReal) (r : S1024x1.Idx → EReal) : S1024x1024.Idx → EReal :=
  fun i => (∑ n : Fin 8192, p (ix2 n (i 0 : Fin 1024)) * img (ix2 n (i 1 : Fin 1024))) * r (ix2 (i 0 : Fin 1024) (0 : Fin 1))

def tileMeansK (p : S8192x1024.Idx → EReal) (am : S1024x1024.Idx → EReal) : S8192x1024.Idx → EReal :=
  fun i => ∑ k : Fin 1024, p (ix2 (i 0) k) * am (ix2 k (i 1))

def hiddenK (img tm : S8192x1024.Idx → EReal) (wa wb : S1024x1024.Idx → EReal) (b : S1x1024.Idx → EReal) : S8192x1024.Idx → EReal :=
  fun i => max (((∑ k : Fin 1024, img (ix2 (i 0) k) * wa (ix2 k (i 1))) + (∑ k : Fin 1024, tm (ix2 (i 0) k) * wb (ix2 k (i 1))))
    + b (ix2 (0 : Fin 1) (i 1))) 0

def clusterInK (p img : S8192x1024.Idx → EReal) (gate : S8192x1.Idx → EReal) : S1024x1024.Idx → EReal :=
  fun i => ∑ n : Fin 8192, p (ix2 n (i 0 : Fin 1024)) * (img (ix2 n (i 1 : Fin 1024)) * gate (ix2 n (0 : Fin 1)))

def actionRepK (seli selj : S16384x1.Idx → BitVec 32) (am : S16384x32.Idx → EReal) (sw0 : S32x1024.Idx → EReal)
    (cw1 cw2 : S1024x1024.Idx → EReal) (b : S1x1024.Idx → EReal) : S16384x1024.Idx → EReal :=
  fun i => (((∑ e : Fin 32, am (ix2 (i 0) e) * sw0 (ix2 e (i 1)))
      + ∑ j : Fin 1024, (if seli (ix2 (i 0) (0 : Fin 1)) = BitVec.ofNat 32 j.val then (1 : EReal) else 0) * cw1 (ix2 j (i 1)))
      + ∑ j : Fin 1024, (if selj (ix2 (i 0) (0 : Fin 1)) = BitVec.ofNat 32 j.val then (1 : EReal) else 0) * cw2 (ix2 j (i 1)))
    + b (ix2 (0 : Fin 1) (i 1))

end Cert.KernelIdeal.Hand
-- ==== Proof.KI.Vals.lean ====
import proofs.«418604_j2156073583116_1_alg».proof.Proof.KI.Launch
import proofs.«418604_j2156073583116_1_alg».proof.Proof.KI.Shared
import proofs.«418604_j2156073583116_1_alg».proof.Proof.KI.Region0Value
import proofs.«418604_j2156073583116_1_alg».proof.Proof.KI.Region1Value
import proofs.«418604_j2156073583116_1_alg».proof.Proof.KI.Region2Value
import proofs.«418604_j2156073583116_1_alg».proof.Proof.KI.Region3Value
import proofs.«418604_j2156073583116_1_alg».proof.Proof.KI.Region4Value
import proofs.«418604_j2156073583116_1_alg».proof.Proof.KI.ValsDefs
import Idealize.ShloMosaic.Lib.StableHlo.Run
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Cert.ReferenceIdeal.Hand (gateOf clusterOutOf stateOf qTableOf qExpandOf)

variable {F : FTy → Type} [FloatOps F]

/-- A host line's result read against the same operations written as one term. -/
local macro "host_read" : tactic =>
  `(tactic| (after_results_simp <;> (try simp only [StableHlo.TRef.ofBuf, StableHlo.TRef.toBuf, cast_eq]) <;> rfl))
variable (V : Valuation τ sig (Elt F))
theorem pre0_v0 : StableHlo.after hostOps0 V (Proc.devRef .tc main_v0)
    = fun i => shapeCast S1024x1 (V (Proc.devRef .tc main_arg4)) shapeCasts_S1024_S1024x1 i := by host_read
theorem pre0_v1 : StableHlo.after hostOps0 V (Proc.devRef .tc main_v1)
    = truncf .bf16 (V (Proc.devRef .tc main_arg3)) bitsLt_bf16_f32 := by host_read
theorem pre0_v2 : StableHlo.after hostOps0 V (Proc.devRef .tc main_v2)
    = truncf .bf16 (V (Proc.devRef .tc main_arg0)) bitsLt_bf16_f32 := by host_read
theorem pre2_v6 : StableHlo.after hostOps2 V (Proc.devRef .tc main_v6)
    = truncf .bf16 (extractStridedSlice S1024x1024 ![0, 0] (V (Proc.devRef .tc main_arg7)) slices_S2048x1024_S1024x1024_0_0) bitsLt_bf16_f32 := by host_read
theorem pre2_v8 : StableHlo.after hostOps2 V (Proc.devRef .tc main_v8)
    = truncf .bf16 (extractStridedSlice S1024x1024 ![1024, 0] (V (Proc.devRef .tc main_arg7)) slices_S2048x1024_S1024x1024_1024_0) bitsLt_bf16_f32 := by host_read
theorem pre2_v9 : StableHlo.after hostOps2 V (Proc.devRef .tc main_v9)
    = fun i => shapeCast S1x1024 (V (Proc.devRef .tc main_arg8)) shapeCasts_S1024_S1x1024 i := by host_read
theorem gate_v19 : StableHlo.after hostOps3 V (Proc.devRef .tc main_v19)
    = gateOf (V (Proc.devRef .tc main_v10)) (V (Proc.devRef .tc main_arg3)) (V (Proc.devRef .tc main_arg9)) (V (Proc.devRef .tc main_arg10)) := by host_read
abbrev mid (V : Valuation τ sig (Elt F)) : Valuation τ sig (Elt F) :=
  StableHlo.after hostOps4_6 (StableHlo.after hostOps4_5 (StableHlo.after hostOps4_4 (StableHlo.after hostOps4_3
    (StableHlo.after hostOps4_2 (StableHlo.after hostOps4_1 (StableHlo.after hostOps4 V))))))
abbrev coK (V : Valuation τ sig (Elt F)) :=
  clusterOutOf (V (Proc.devRef .tc main_v20)) (V (Proc.devRef .tc main_arg11)) (V (Proc.devRef .tc main_arg12))
    (V (Proc.devRef .tc main_arg13)) (V (Proc.devRef .tc main_arg14))
abbrev stK (V : Valuation τ sig (Elt F)) :=
  stateOf (coK V) (V (Proc.devRef .tc main_arg5)) (V (Proc.devRef .tc main_arg15)) (V (Proc.devRef .tc main_arg16))
    (V (Proc.devRef .tc main_arg17)) (V (Proc.devRef .tc main_arg18)) (V (Proc.devRef .tc main_arg19)) (V (Proc.devRef .tc main_arg20))
    (V (Proc.devRef .tc main_arg21)) (V (Proc.devRef .tc main_arg22))
theorem mid_v63 : mid V (Proc.devRef .tc main_v63)
    = fun i => shapeCast S16384x1 (V (Proc.devRef .tc main_arg1)) shapeCasts_S16384_S16384x1 i := by unfold mid; host_read
theorem mid_v64 : mid V (Proc.devRef .tc main_v64)
    = fun i => shapeCast S16384x1 (V (Proc.devRef .tc main_arg2)) shapeCasts_S16384_S16384x1 i := by unfold mid; host_read
theorem mid_v65 : mid V (Proc.devRef .tc main_v65)
    = truncf .bf16 (V (Proc.devRef .tc main_arg6)) bitsLt_bf16_f32 := by unfold mid; host_read
theorem mid_v69 : mid V (Proc.devRef .tc main_v69)
    = fun i => shapeCast S1x1024 (V (Proc.devRef .tc main_arg24)) shapeCasts_S1024_S1x1024 i := by unfold mid; host_read
set_option maxHeartbeats 1600000 in
theorem mid_v66 : mid V (Proc.devRef .tc main_v66)
    = truncf .bf16 (Host.dotGeneral dot_S32x1024_S1024x1024_S32x1024_1_0_0_1_n_n none (stK V)
        (extractStridedSlice S1024x1024 ![0, 0] (V (Proc.devRef .tc main_arg23)) slices_S3072x1024_S1024x1024_0_0)) bitsLt_bf16_f32 := by
  unfold mid; host_read
theorem mid_v67 : mid V (Proc.devRef .tc main_v67)
    = truncf .bf16 (Host.dotGeneral dot_S1024x1024_S1024x1024_S1024x1024_1_0_0_1_n_n none (coK V)
        (extractStridedSlice S1024x1024 ![1024, 0] (V (Proc.devRef .tc main_arg23)) slices_S3072x1024_S1024x1024_1024_0)) bitsLt_bf16_f32 := by
  unfold mid; host_read
theorem mid_v68 : mid V (Proc.devRef .tc main_v68)
    = truncf .bf16 (Host.dotGeneral dot_S1024x1024_S1024x1024_S1024x1024_1_0_0_1_n_n none (coK V)
        (extractStridedSlice S1024x1024 ![2048, 0] (V (Proc.devRef .tc main_arg23)) slices_S3072x1024_S1024x1024_2048_0)) bitsLt_bf16_f32 := by
  unfold mid; host_read
theorem tail_v81 : StableHlo.after hostOps5_1 (StableHlo.after hostOps5 V) (Proc.devRef .tc main_v81)
    = qTableOf (V (Proc.devRef .tc main_v70)) (V (Proc.devRef .tc main_arg6)) (V (Proc.devRef .tc main_arg25)) (V (Proc.devRef .tc main_arg26)) := by host_read
theorem tail_v85 : StableHlo.after hostOps5_1 (StableHlo.after hostOps5 V) (Proc.devRef .tc main_v85)
    = qExpandOf (V (Proc.devRef .tc main_v70)) (V (Proc.devRef .tc main_arg6)) (V (Proc.devRef .tc main_arg25)) (V (Proc.devRef .tc main_arg26)) := by host_read

section Keep
variable {c : Dev nD}

/-- A region changes no array but its output. -/
theorem keep_of {cfg : Pipeline.Cfg sig Λ₀} (dat : Pipeline.Dat τ (Elt F) Unit ℕ (UR sig nD τ) ℕ cfg c) {X Y : Valuation τ sig (Elt F)}
    (hX : ∀ w, X (Proc.devRef .tc (Pipeline.arrRef cfg.spec w)) = dat.arrAt w cfg.N)
    (hA : ∀ w, dat.A w = Y (Proc.devRef .tc (Pipeline.arrRef cfg.spec w)))
    (hne : ∀ b, (∀ w, Pipeline.arrRef cfg.spec w ≠ b) → X (Proc.devRef .tc b) = Y (Proc.devRef .tc b))
    (b : Ref sig .tc) (hb : ∀ w, Pipeline.arrRef cfg.spec w = b → (cfg.win w).isOut = false) :
    X (Proc.devRef .tc b) = Y (Proc.devRef .tc b) := by
  by_cases h : ∃ w, Pipeline.arrRef cfg.spec w = b
  · obtain ⟨w, rfl⟩ := h
    exact (hX w).trans ((dat.arrAt_in w (hb w rfl) _).trans (hA w))
  · exact hne b fun w e => h ⟨w, e⟩

variable (m : (ℓ : Loc nD τ sig) → Buf (Elt F) ℓ) (ρ : Dev nD → PrngReg) (c : Dev nD)

/-- `r` is written by no host line and is no region's window array. -/
abbrev Arg (r : Ref sig .tc) : Prop :=
  r ∉ (hostWritten : List (Ref sig .tc)) ∧ (∀ w, Pipeline.arrRef spec0 w ≠ r) ∧ (∀ w, Pipeline.arrRef spec1 w ≠ r)
    ∧ (∀ w, Pipeline.arrRef spec2 w ≠ r) ∧ (∀ w, Pipeline.arrRef spec3 w ≠ r) ∧ ∀ w, Pipeline.arrRef spec4 w ≠ r

/-- Such a buffer holds its launch contents at every boundary. -/
theorem arg_at (r : Ref sig .tc) (h : Arg r) :
    W3 m ρ c (Proc.devRef .tc r) = m ((c : Thread nD τ).loc r) ∧ W5 m ρ c (Proc.devRef .tc r) = m ((c : Thread nD τ).loc r)
      ∧ W7 m ρ c (Proc.devRef .tc r) = m ((c : Thread nD τ).loc r) ∧ W15 m ρ c (Proc.devRef .tc r) = m ((c : Thread nD τ).loc r) := by
  obtain ⟨hw, h0, h1, h2, h3, h4⟩ := h
  simp only [hostWritten, List.mem_append, not_or] at hw
  obtain ⟨⟨⟨⟨⟨⟨⟨⟨⟨⟨⟨n0, n2⟩, n3⟩, n4⟩, n41⟩, n42⟩, n43⟩, n44⟩, n45⟩, n46⟩, -⟩, -⟩ := hw
  have e3 := (W3_of_ne m ρ c r h1).trans ((W2_of_ne m ρ c r h0).trans (W1_of m ρ c r n0))
  have e5 := (W5_of_ne m ρ c r h2).trans ((W4_of m ρ c r n2).trans e3)
  have e7 := (W7_of_ne m ρ c r h3).trans ((W6_of m ρ c r n3).trans e5)
  exact ⟨e3, e5, e7, (W15_of_ne m ρ c r h4).trans <| (W14_of m ρ c r n46).trans <| (W13_of m ρ c r n45).trans <|
    (W12_of m ρ c r n44).trans <| (W11_of m ρ c r n43).trans <| (W10_of m ρ c r n42).trans <| (W9_of m ρ c r n41).trans <|
    (W8_of m ρ c r n4).trans e7⟩

theorem W3_arg (r : Ref sig .tc) (h : Arg r := by decide) : W3 m ρ c (Proc.devRef .tc r) = m ((c : Thread nD τ).loc r) := (arg_at m ρ c r h).1
theorem W5_arg (r : Ref sig .tc) (h : Arg r := by decide) : W5 m ρ c (Proc.devRef .tc r) = m ((c : Thread nD τ).loc r) := (arg_at m ρ c r h).2.1
theorem W7_arg (r : Ref sig .tc) (h : Arg r := by decide) : W7 m ρ c (Proc.devRef .tc r) = m ((c : Thread nD τ).loc r) := (arg_at m ρ c r h).2.2.1
theorem W15_arg (r : Ref sig .tc) (h : Arg r := by decide) : W15 m ρ c (Proc.devRef .tc r) = m ((c : Thread nD τ).loc r) := (arg_at m ρ c r h).2.2.2

end Keep

end Cert.KernelIdeal.Hand

end
-- ==== Proof.KI.Alg.lean ====
import Mathlib.Data.EReal.Basic
import Mathlib.Data.EReal.Operations
import Mathlib.Data.EReal.Inv
import Mathlib.Algebra.BigOperators.Fin
import Idealize.ShloMosaic.PureOps.Ideal.Laws

noncomputable section

open scoped BigOperators
open Idealize.ShloMosaic

namespace Cert.KernelIdeal.Hand.Alg

section Blocks
variable {M : Type*} [AddCommMonoid M]

theorem sum_split2 {m n N : ℕ} (h : m + n = N) (f : Fin N → M) :
    ∑ k, f k = (∑ i : Fin m, f ⟨i.val, by omega⟩) + ∑ j : Fin n, f ⟨m + j.val, by omega⟩ := by
  subst h
  rw [Fin.sum_univ_add]
  rfl

theorem sum_concat2 {m n N : ℕ} (h : m + n = N) (f : Fin N → M) (A : Fin m → M) (B : Fin n → M)
    (hA : ∀ i : Fin m, f ⟨i.val, by omega⟩ = A i) (hB : ∀ j : Fin n, f ⟨m + j.val, by omega⟩ = B j) :
    ∑ k, f k = (∑ i, A i) + ∑ j, B j := by
  rw [sum_split2 h f]
  simp only [hA, hB]

theorem sum_split3 {m n p N : ℕ} (h : m + n + p = N) (f : Fin N → M) :
    ∑ k, f k = ((∑ i : Fin m, f ⟨i.val, by omega⟩) + ∑ j : Fin n, f ⟨m + j.val, by omega⟩)
      + ∑ l : Fin p, f ⟨m + n + l.val, by omega⟩ := by
  rw [sum_split2 (m := m + n) (n := p) h f, sum_split2 (m := m) (n := n) rfl fun q : Fin (m + n) => f ⟨q.val, by omega⟩]

theorem sum_concat3 {m n p N : ℕ} (h : m + n + p = N) (f : Fin N → M) (A : Fin m → M) (B : Fin n → M) (C : Fin p → M)
    (hA : ∀ i : Fin m, f ⟨i.val, by omega⟩ = A i) (hB : ∀ j : Fin n, f ⟨m + j.val, by omega⟩ = B j)
    (hC : ∀ l : Fin p, f ⟨m + n + l.val, by omega⟩ = C l) :
    ∑ k, f k = ((∑ i, A i) + ∑ j, B j) + ∑ l, C l := by
  rw [sum_split3 h f]
  simp only [hA, hB, hC]

end Blocks

theorem E2 (g W : Fin 2048 → EReal) (a t Wa Wb : Fin 1024 → EReal) (b : EReal)
    (hga : ∀ k : Fin 1024, g ⟨k.val, by omega⟩ = a k) (hgt : ∀ k : Fin 1024, g ⟨1024 + k.val, by omega⟩ = t k)
    (hwa : ∀ k : Fin 1024, Wa k = W ⟨k.val, by omega⟩) (hwb : ∀ k : Fin 1024, Wb k = W ⟨1024 + k.val, by omega⟩) :
    max (((∑ k, a k * Wa k) + ∑ k, t k * Wb k) + b) 0 = max ((∑ k, g k * W k) + b) 0 := by
  have key : ∑ k, g k * W k = (∑ k, a k * Wa k) + ∑ k, t k * Wb k :=
    sum_concat2 (m := 1024) (n := 1024) (by norm_num) (fun k => g k * W k) (fun k => a k * Wa k) (fun k => t k * Wb k)
      (fun k => by show g ⟨k.val, _⟩ * W ⟨k.val, _⟩ = a k * Wa k; rw [hga k, hwa k])
      (fun k => by show g ⟨1024 + k.val, _⟩ * W ⟨1024 + k.val, _⟩ = t k * Wb k; rw [hgt k, hwb k])
  rw [key]

def RealVal (x : EReal) : Prop := x ≠ ⊤ ∧ x ≠ ⊥

def IsReal {ι : Sort*} (v : ι → EReal) : Prop := ∀ i, v i ≠ ⊤ ∧ v i ≠ ⊥

theorem IsReal.apply {ι : Sort*} {v : ι → EReal} (h : IsReal v) (i : ι) : RealVal (v i) := h i

namespace RealVal
variable {x y : EReal}

theorem coe (r : ℝ) : RealVal (r : EReal) := ⟨EReal.coe_ne_top r, EReal.coe_ne_bot r⟩

theorem exists_coe (h : RealVal x) : ∃ r : ℝ, x = (r : EReal) := ⟨x.toReal, (EReal.coe_toReal h.1 h.2).symm⟩
theorem zero : RealVal 0 := coe 0
theorem one : RealVal 1 := coe 1
theorem add (hx : RealVal x) (hy : RealVal y) : RealVal (x + y) := by
  obtain ⟨r, rfl⟩ := hx.exists_coe; obtain ⟨s, rfl⟩ := hy.exists_coe
  rw [← EReal.coe_add]; exact coe _
theorem mul (hx : RealVal x) (hy : RealVal y) : RealVal (x * y) := by
  obtain ⟨r, rfl⟩ := hx.exists_coe; obtain ⟨s, rfl⟩ := hy.exists_coe
  rw [← EReal.coe_mul]; exact coe _
theorem neg (hx : RealVal x) : RealVal (-x) := by
  obtain ⟨r, rfl⟩ := hx.exists_coe
  rw [← EReal.coe_neg]; exact coe _
theorem sub (hx : RealVal x) (hy : RealVal y) : RealVal (x - y) := by
  obtain ⟨r, rfl⟩ := hx.exists_coe; obtain ⟨s, rfl⟩ := hy.exists_coe
  rw [← EReal.coe_sub]; exact coe _
theorem max (hx : RealVal x) (hy : RealVal y) : RealVal (max x y) := by
  rcases max_cases x y with ⟨h, _⟩ | ⟨h, _⟩ <;> rw [h] <;> assumption
theorem min (hx : RealVal x) (hy : RealVal y) : RealVal (min x y) := by
  rcases min_cases x y with ⟨h, _⟩ | ⟨h, _⟩ <;> rw [h] <;> assumption
theorem exp (hx : RealVal x) : RealVal (Ideal.exp x) := by
  obtain ⟨r, rfl⟩ := hx.exists_coe
  rw [Ideal.exp_coe]; exact coe _

theorem exp_pos (hx : RealVal x) : 0 < Ideal.exp x := by
  obtain ⟨r, rfl⟩ := hx.exists_coe
  rw [Ideal.exp_coe]; exact_mod_cast Real.exp_pos r
theorem div (hx : RealVal x) (hy : RealVal y) (h0 : y ≠ 0) : RealVal (Ideal.div x y) := by
  obtain ⟨s, rfl⟩ := hy.exists_coe
  rw [Ideal.div_coe (EReal.coe_ne_zero.mp h0)]
  exact hx.mul (coe _)

theorem sum {ι : Type*} {s : Finset ι} {f : ι → EReal} (h : ∀ i ∈ s, RealVal (f i)) : RealVal (∑ i ∈ s, f i) :=
  Finset.sum_induction f RealVal (fun _ _ => add) zero h

theorem sum_mul {ι : Type*} {s : Finset ι} {f g : ι → EReal} (hf : ∀ i ∈ s, RealVal (f i)) (hg : ∀ i ∈ s, RealVal (g i)) :
    RealVal (∑ i ∈ s, f i * g i) :=
  sum fun i hi => (hf i hi).mul (hg i hi)

end RealVal

namespace IsReal
variable {ι : Sort*} {u v : ι → EReal}

theorem exists_coe (h : IsReal v) : ∃ f : ι → ℝ, v = fun i => (f i : EReal) :=
  ⟨fun i => (v i).toReal, funext fun i => (EReal.coe_toReal (h i).1 (h i).2).symm⟩
theorem comp {κ : Sort*} (h : IsReal v) (e : κ → ι) : IsReal fun k => v (e k) := fun k => h (e k)
theorem add (hu : IsReal u) (hv : IsReal v) : IsReal fun i => u i + v i := fun i => RealVal.add (hu i) (hv i)
theorem mul (hu : IsReal u) (hv : IsReal v) : IsReal fun i => u i * v i := fun i => RealVal.mul (hu i) (hv i)
theorem neg (hu : IsReal u) : IsReal fun i => -u i := fun i => RealVal.neg (hu i)
theorem sub (hu : IsReal u) (hv : IsReal v) : IsReal fun i => u i - v i := fun i => RealVal.sub (hu i) (hv i)
theorem max (hu : IsReal u) (hv : IsReal v) : IsReal fun i => Max.max (u i) (v i) := fun i => RealVal.max (hu i) (hv i)
theorem exp (hu : IsReal u) : IsReal fun i => Ideal.exp (u i) := fun i => RealVal.exp (hu i)
theorem div (hu : IsReal u) (hv : IsReal v) (h0 : ∀ i, v i ≠ 0) : IsReal fun i => Ideal.div (u i) (v i) :=
  fun i => RealVal.div (hu i) (hv i) (h0 i)

theorem sum_mul {κ : Type*} [Fintype κ] {f g : ι → κ → EReal} (hf : ∀ i, IsReal (f i)) (hg : ∀ i, IsReal (g i)) :
    IsReal fun i => ∑ k, f i k * g i k :=
  fun i => RealVal.sum_mul (fun k _ => hf i k) (fun k _ => hg i k)

end IsReal

theorem coe_sum {ι : Type*} (s : Finset ι) (f : ι → ℝ) : ((∑ i ∈ s, f i : ℝ) : EReal) = ∑ i ∈ s, (f i : EReal) := by
  induction s using Finset.cons_induction with
  | empty => simp
  | cons a s ha ih => rw [Finset.sum_cons, Finset.sum_cons, EReal.coe_add, ih]

theorem sum_onehot_mul {κ : Type*} [Fintype κ] [DecidableEq κ] (s : κ) (g : κ → EReal) :
    ∑ j, (if j = s then (1 : EReal) else 0) * g j = g s := by
  simp only [ite_mul, one_mul, zero_mul, Finset.sum_ite_eq', Finset.mem_univ, if_true]

theorem sum_onehot_mul_of {κ : Type*} [Fintype κ] [DecidableEq κ] (s : κ) (oh g : κ → EReal)
    (hoh : ∀ j, oh j = if j = s then 1 else 0) : ∑ j, oh j * g j = g s := by
  simp only [hoh]; exact sum_onehot_mul s g

theorem sum_mul_sum_real {ι κ : Type*} [Fintype ι] [Fintype κ] (a : ι → EReal) (s : ι → κ → EReal) (w : κ → EReal)
    (ha : IsReal a) (hs : ∀ e, IsReal (s e)) (hw : IsReal w) :
    ∑ e, a e * ∑ k, s e k * w k = ∑ k, (∑ e, a e * s e k) * w k := by
  obtain ⟨a', rfl⟩ := ha.exists_coe
  obtain ⟨w', rfl⟩ := hw.exists_coe
  obtain ⟨s', rfl⟩ : ∃ s' : ι → κ → ℝ, s = fun e k => (s' e k : EReal) :=
    ⟨fun e k => (s e k).toReal, funext fun e => funext fun k => (EReal.coe_toReal (hs e k).1 (hs e k).2).symm⟩
  simp only [← EReal.coe_mul, ← coe_sum]
  refine congrArg (fun r : ℝ => (r : EReal)) ?_
  simp only [Finset.mul_sum, Finset.sum_mul]
  rw [Finset.sum_comm]
  simp only [mul_assoc]

theorem E4 {ι : Type*} [Fintype ι]
    (am : ι → EReal) (st : ι → Fin 1024 → EReal) (co : Fin 1024 → Fin 1024 → EReal)
    (W pairs : Fin 3072 → EReal) (W0 W1 W2 ohi ohj : Fin 1024 → EReal) (b : EReal) (si sj : Fin 1024)
    (ham : IsReal am) (hst : ∀ e, IsReal (st e)) (hW0 : IsReal W0)
    (hw0 : ∀ k : Fin 1024, W0 k = W ⟨k.val, by omega⟩)
    (hw1 : ∀ k : Fin 1024, W1 k = W ⟨1024 + k.val, by omega⟩)
    (hw2 : ∀ k : Fin 1024, W2 k = W ⟨2048 + k.val, by omega⟩)
    (hohi : ∀ j, ohi j = if j = si then 1 else 0) (hohj : ∀ j, ohj j = if j = sj then 1 else 0)
    (hp0 : ∀ k : Fin 1024, pairs ⟨k.val, by omega⟩ = ∑ e, am e * st e k)
    (hp1 : ∀ k : Fin 1024, pairs ⟨1024 + k.val, by omega⟩ = co si k)
    (hp2 : ∀ k : Fin 1024, pairs ⟨2048 + k.val, by omega⟩ = co sj k) :
    (((∑ e, am e * ∑ k, st e k * W0 k) + ∑ j, ohi j * ∑ k, co j k * W1 k) + ∑ j, ohj j * ∑ k, co j k * W2 k) + b
      = (∑ k, pairs k * W k) + b := by
  have key : ∑ k, pairs k * W k
      = ((∑ k, (∑ e, am e * st e k) * W0 k) + ∑ k, co si k * W1 k) + ∑ k, co sj k * W2 k :=
    sum_concat3 (m := 1024) (n := 1024) (p := 1024) (by norm_num) (fun k => pairs k * W k)
      (fun k => (∑ e, am e * st e k) * W0 k) (fun k => co si k * W1 k) (fun k => co sj k * W2 k)
      (fun k => by show pairs ⟨k.val, _⟩ * W ⟨k.val, _⟩ = _; rw [hp0 k, hw0 k])
      (fun k => by show pairs ⟨1024 + k.val, _⟩ * W ⟨1024 + k.val, _⟩ = _; rw [hp1 k, hw1 k])
      (fun k => by show pairs ⟨2048 + k.val, _⟩ * W ⟨2048 + k.val, _⟩ = _; rw [hp2 k, hw2 k])
  rw [key, sum_mul_sum_real am st W0 ham hst hW0, sum_onehot_mul_of si ohi _ hohi, sum_onehot_mul_of sj ohj _ hohj]

end Cert.KernelIdeal.Hand.Alg

end
-- ==== Proof.KI.PreDecode.lean ====
import proofs.«418604_j2156073583116_1_alg».proof.Proof.Gen.Pre_finite_inputs
import proofs.«418604_j2156073583116_1_alg».proof.Proof.KI.RefChain
import proofs.«418604_j2156073583116_1_alg».proof.Proof.KI.Alg
import Idealize.ShloMosaic.Lib.ReduceAll
import Idealize.ShloMosaic.Lib.IdealHost
import Idealize.ShloMosaic.PureOps.Ideal
import Idealize.ShloMosaic.PureOps.Ideal.Laws

noncomputable section

namespace Cert.KernelIdeal.Hand

open Idealize.ShloMosaic

instance subsingleton_idx_rank0 : Subsingleton (⟨0, ![]⟩ : Shape).Idx := ⟨fun a b => funext fun d => d.elim0⟩

theorem ofBool_eq_one' {b : Bool} : BitVec.ofBool b = 1#1 ↔ b = true := by cases b <;> decide

theorem ofBits_inf_f32 : Ideal.ofBits .f32 0x7F800000#32 = ⊤ := by simp [Ideal.ofBits, Ideal.ieee]

theorem ne_top_bot_of_abs_lt_top {x : EReal} (h : max x (-x) < ⊤) : x ≠ ⊤ ∧ x ≠ ⊥ := by
  rw [max_lt_iff] at h
  refine ⟨ne_of_lt h.1, ?_⟩
  rintro rfl
  exact absurd h.2 (by simp)

theorem real_of_all_abs_lt_inf {s : Shape} {axes : List (Fin s.rank)} (x : FVec Ideal s .f32)
    (hb : (⟨0, ![]⟩ : Shape).BroadcastsInDim s ![]) (hr : s.ReducesTo axes ⟨0, ![]⟩) (hu : 0 < (⟨0, ![]⟩ : Shape).numel)
    (e : Host.reduce IntOp.andi (cmpf .olt (Host.absf x) (broadcastInDim s ![] hb (constant ⟨0, ![]⟩ .f32 0x7F800000#32)))
          (constantI ⟨0, ![]⟩ 1 1#1) hr hu ValueIdx.ix0 = 1#1) :
    ∀ i, x i ≠ ⊤ ∧ x i ≠ ⊥ := by
  intro i
  have hi := Host.reduce_andi_all _ _ hr hu _ e i
  have h1 : Ideal.cmp .olt (max (x i) (-(x i))) (Ideal.ofBits .f32 0x7F800000#32) = 1#1 := hi
  rw [ofBits_inf_f32] at h1
  exact ne_top_bot_of_abs_lt_top (of_decide_eq_true (ofBool_eq_one'.1 h1))

theorem range_of_all_ge_lt {s : Shape} {axes : List (Fin s.rank)} (v : IVec s 32)
    (hb : (⟨0, ![]⟩ : Shape).BroadcastsInDim s ![]) (hr : s.ReducesTo axes ⟨0, ![]⟩) (hu : 0 < (⟨0, ![]⟩ : Shape).numel)
    (e : Host.reduce IntOp.andi
          (andi (cmpi .sge v (broadcastInDim s ![] hb (constantI ⟨0, ![]⟩ 32 0#32)))
            (cmpi .slt v (broadcastInDim s ![] hb (constantI ⟨0, ![]⟩ 32 1024#32))))
          (constantI ⟨0, ![]⟩ 1 1#1) hr hu ValueIdx.ix0 = 1#1) :
    ∀ i, 0 ≤ (v i).toInt ∧ (v i).toInt < 1024 := by
  intro i
  have hi := Host.reduce_andi_all _ _ hr hu _ e i
  have h1 : IntOp.andi (IntOp.cmpi .sge (v i) 0#32) (IntOp.cmpi .slt (v i) 1024#32) = 1#1 := hi
  obtain ⟨hge, hlt⟩ := IntOp.andi_eq_one.1 h1
  have h0 : (0#32 : BitVec 32).toInt = 0 := by decide
  have h1024 : (1024#32 : BitVec 32).toInt = 1024 := by decide
  exact ⟨h0 ▸ IntOp.cmpi_sge.1 hge, h1024 ▸ IntOp.cmpi_slt.1 hlt⟩

theorem ne_zero_of_all_ne {s : Shape} {axes : List (Fin s.rank)} (d : FVec Ideal s .f32)
    (hb : (⟨0, ![]⟩ : Shape).BroadcastsInDim s ![]) (hr : s.ReducesTo axes ⟨0, ![]⟩) (hu : 0 < (⟨0, ![]⟩ : Shape).numel)
    (e : Host.reduce IntOp.andi (cmpf .une d (broadcastInDim s ![] hb (constant ⟨0, ![]⟩ .f32 0x00000000#32)))
          (constantI ⟨0, ![]⟩ 1 1#1) hr hu ValueIdx.ix0 = 1#1) :
    ∀ i, d i ≠ 0 := by
  intro i
  have hi := Host.reduce_andi_all _ _ hr hu _ e i
  have h1 : Ideal.cmp .une (d i) (Ideal.ofBits .f32 0x00000000#32) = 1#1 := hi
  rw [Ideal.ofBits_zero_f32] at h1
  exact of_decide_eq_true (ofBool_eq_one'.1 h1)

open Cert.ReferenceIdeal.Hand (allMeansR tileMeansR hiddenR clusterInR gateOf denom1Of denom2Of clusterOutOf stateOf)

variable [Cert.Pre_finite_inputs.Facts] [Cert.ReferenceIdeal.Facts]

variable (a0 : FVec Ideal Cert.Pre_finite_inputs.S8192x1024 .f32) (a1 : IVec Cert.Pre_finite_inputs.S16384 32) (a2 : IVec Cert.Pre_finite_inputs.S16384 32) (a3 : FVec Ideal Cert.Pre_finite_inputs.S8192x1024 .f32) (a4 : FVec Ideal Cert.Pre_finite_inputs.S1024 .f32) (a5 : FVec Ideal Cert.Pre_finite_inputs.S1024x32 .f32) (a6 : FVec Ideal Cert.Pre_finite_inputs.S16384x32 .f32) (a7 : FVec Ideal Cert.Pre_finite_inputs.S2048x1024 .f32) (a8 : FVec Ideal Cert.Pre_finite_inputs.S1024 .f32) (a9 : FVec Ideal Cert.Pre_finite_inputs.S1024x1 .f32) (a10 : FVec Ideal Cert.Pre_finite_inputs.S1 .f32) (a11 : FVec Ideal Cert.Pre_finite_inputs.S1024x1024 .f32) (a12 : FVec Ideal Cert.Pre_finite_inputs.S1024 .f32) (a13 : FVec Ideal Cert.Pre_finite_inputs.S1024x1024 .f32) (a14 : FVec Ideal Cert.Pre_finite_inputs.S1024 .f32) (a15 : FVec Ideal Cert.Pre_finite_inputs.S1024x1024 .f32) (a16 : FVec Ideal Cert.Pre_finite_inputs.S1024 .f32) (a17 : FVec Ideal Cert.Pre_finite_inputs.S1024x1 .f32) (a18 : FVec Ideal Cert.Pre_finite_inputs.S1 .f32) (a19 : FVec Ideal Cert.Pre_finite_inputs.S1024x1024 .f32) (a20 : FVec Ideal Cert.Pre_finite_inputs.S1024 .f32) (a21 : FVec Ideal Cert.Pre_finite_inputs.S1024x1024 .f32) (a22 : FVec Ideal Cert.Pre_finite_inputs.S1024 .f32) (a23 : FVec Ideal Cert.Pre_finite_inputs.S3072x1024 .f32) (a24 : FVec Ideal Cert.Pre_finite_inputs.S1024 .f32) (a25 : FVec Ideal Cert.Pre_finite_inputs.S1024x1 .f32) (a26 : FVec Ideal Cert.Pre_finite_inputs.S1 .f32)

structure PreFacts : Prop where

  images : Alg.IsReal a0

  p_mat : Alg.IsReal a3

  r_mat : Alg.IsReal a4

  c_mat : Alg.IsReal a5

  a_mat : Alg.IsReal a6

  Wg1 : Alg.IsReal a7

  bg1 : Alg.IsReal a8

  Wg2 : Alg.IsReal a9

  bg2 : Alg.IsReal a10

  Wc1 : Alg.IsReal a11

  bc1 : Alg.IsReal a12

  Wc2 : Alg.IsReal a13

  bc2 : Alg.IsReal a14

  Wgs1 : Alg.IsReal a15

  bgs1 : Alg.IsReal a16

  Wgs2 : Alg.IsReal a17

  bgs2 : Alg.IsReal a18

  Ws1 : Alg.IsReal a19

  bs1 : Alg.IsReal a20

  Ws2 : Alg.IsReal a21

  bs2 : Alg.IsReal a22

  Wa1 : Alg.IsReal a23

  ba1 : Alg.IsReal a24

  Wa2 : Alg.IsReal a25

  ba2 : Alg.IsReal a26

  select_i : ∀ i, 0 ≤ (a1 i).toInt ∧ (a1 i).toInt < 1024

  select_j : ∀ i, 0 ≤ (a2 i).toInt ∧ (a2 i).toInt < 1024

  denom1 : ∀ i, denom1Of (F := Ideal) (hiddenR (F := Ideal) a0 a3 a4 a7 a8) a3 a9 a10 i ≠ 0

  denom2 : ∀ i, denom2Of (F := Ideal) (clusterOutOf (F := Ideal) (clusterInR (F := Ideal) a0 a3 a4 a7 a8 a9 a10) a11 a12 a13 a14) a5 a15 a16 a17 a18 i ≠ 0

variable {a0 a1 a2 a3 a4 a5 a6 a7 a8 a9 a10 a11 a12 a13 a14 a15 a16 a17 a18 a19 a20 a21 a22 a23 a24 a25 a26}

theorem pre_decode
    (h : Cert.Pre_finite_inputs.fn (F := Ideal) a0 a1 a2 a3 a4 a5 a6 a7 a8 a9 a10 a11 a12 a13 a14 a15 a16 a17 a18 a19 a20 a21 a22 a23 a24 a25 a26 = fun _ => 1#1) : PreFacts a0 a1 a2 a3 a4 a5 a6 a7 a8 a9 a10 a11 a12 a13 a14 a15 a16 a17 a18 a19 a20 a21 a22 a23 a24 a25 a26 := by
  have h0 := congrFun h ValueIdx.ix0
  dsimp only [Cert.Pre_finite_inputs.fn, Cert.Pre_finite_inputs.fn_part1, Cert.Pre_finite_inputs.fn_part2, Cert.Pre_finite_inputs.fn_part3, Cert.Pre_finite_inputs.fn_part4, Cert.Pre_finite_inputs.fn_part5, Cert.Pre_finite_inputs.fn_part6, Cert.Pre_finite_inputs.fn_part7, Cert.Pre_finite_inputs.fn_part8, Cert.Pre_finite_inputs.fn_part9, Cert.Pre_finite_inputs.fn_part10] at h0
  obtain ⟨h0, hd2⟩ := IntOp.andi_eq_one.1 h0
  obtain ⟨h0, hd1⟩ := IntOp.andi_eq_one.1 h0
  obtain ⟨h0, hsj⟩ := IntOp.andi_eq_one.1 h0
  obtain ⟨h0, hsi⟩ := IntOp.andi_eq_one.1 h0
  obtain ⟨h0, h_a26⟩ := IntOp.andi_eq_one.1 h0
  obtain ⟨h0, h_a25⟩ := IntOp.andi_eq_one.1 h0
  obtain ⟨h0, h_a24⟩ := IntOp.andi_eq_one.1 h0
  obtain ⟨h0, h_a23⟩ := IntOp.andi_eq_one.1 h0
  obtain ⟨h0, h_a22⟩ := IntOp.andi_eq_one.1 h0
  obtain ⟨h0, h_a21⟩ := IntOp.andi_eq_one.1 h0
  obtain ⟨h0, h_a20⟩ := IntOp.andi_eq_one.1 h0
  obtain ⟨h0, h_a19⟩ := IntOp.andi_eq_one.1 h0
  obtain ⟨h0, h_a18⟩ := IntOp.andi_eq_one.1 h0
  obtain ⟨h0, h_a17⟩ := IntOp.andi_eq_one.1 h0
  obtain ⟨h0, h_a16⟩ := IntOp.andi_eq_one.1 h0
  obtain ⟨h0, h_a15⟩ := IntOp.andi_eq_one.1 h0
  obtain ⟨h0, h_a14⟩ := IntOp.andi_eq_one.1 h0
  obtain ⟨h0, h_a13⟩ := IntOp.andi_eq_one.1 h0
  obtain ⟨h0, h_a12⟩ := IntOp.andi_eq_one.1 h0
  obtain ⟨h0, h_a11⟩ := IntOp.andi_eq_one.1 h0
  obtain ⟨h0, h_a10⟩ := IntOp.andi_eq_one.1 h0
  obtain ⟨h0, h_a9⟩ := IntOp.andi_eq_one.1 h0
  obtain ⟨h0, h_a8⟩ := IntOp.andi_eq_one.1 h0
  obtain ⟨h0, h_a7⟩ := IntOp.andi_eq_one.1 h0
  obtain ⟨h0, h_a6⟩ := IntOp.andi_eq_one.1 h0
  obtain ⟨h0, h_a5⟩ := IntOp.andi_eq_one.1 h0
  obtain ⟨h0, h_a4⟩ := IntOp.andi_eq_one.1 h0
  obtain ⟨h_a0, h_a3⟩ := IntOp.andi_eq_one.1 h0
  have hD1 := ne_zero_of_all_ne _ _ _ _ hd1
  have hD2 := ne_zero_of_all_ne _ _ _ _ hd2
  exact {
    images := real_of_all_abs_lt_inf a0 _ _ _ h_a0
    p_mat := real_of_all_abs_lt_inf a3 _ _ _ h_a3
    r_mat := real_of_all_abs_lt_inf a4 _ _ _ h_a4
    c_mat := real_of_all_abs_lt_inf a5 _ _ _ h_a5
    a_mat := real_of_all_abs_lt_inf a6 _ _ _ h_a6
    Wg1 := real_of_all_abs_lt_inf a7 _ _ _ h_a7
    bg1 := real_of_all_abs_lt_inf a8 _ _ _ h_a8
    Wg2 := real_of_all_abs_lt_inf a9 _ _ _ h_a9
    bg2 := real_of_all_abs_lt_inf a10 _ _ _ h_a10
    Wc1 := real_of_all_abs_lt_inf a11 _ _ _ h_a11
    bc1 := real_of_all_abs_lt_inf a12 _ _ _ h_a12
    Wc2 := real_of_all_abs_lt_inf a13 _ _ _ h_a13
    bc2 := real_of_all_abs_lt_inf a14 _ _ _ h_a14
    Wgs1 := real_of_all_abs_lt_inf a15 _ _ _ h_a15
    bgs1 := real_of_all_abs_lt_inf a16 _ _ _ h_a16
    Wgs2 := real_of_all_abs_lt_inf a17 _ _ _ h_a17
    bgs2 := real_of_all_abs_lt_inf a18 _ _ _ h_a18
    Ws1 := real_of_all_abs_lt_inf a19 _ _ _ h_a19
    bs1 := real_of_all_abs_lt_inf a20 _ _ _ h_a20
    Ws2 := real_of_all_abs_lt_inf a21 _ _ _ h_a21
    bs2 := real_of_all_abs_lt_inf a22 _ _ _ h_a22
    Wa1 := real_of_all_abs_lt_inf a23 _ _ _ h_a23
    ba1 := real_of_all_abs_lt_inf a24 _ _ _ h_a24
    Wa2 := real_of_all_abs_lt_inf a25 _ _ _ h_a25
    ba2 := real_of_all_abs_lt_inf a26 _ _ _ h_a26
    select_i := range_of_all_ge_lt a1 _ _ _ hsi
    select_j := range_of_all_ge_lt a2 _ _ _ hsj
    denom1 := hD1
    denom2 := hD2 }

end Cert.KernelIdeal.Hand

end
-- ==== Proof.KI.Finite.lean ====
import proofs.«418604_j2156073583116_1_alg».proof.Proof.KI.PreDecode
import Idealize.ShloMosaic.PureOps.Ideal.Laws

noncomputable section

namespace Cert.KernelIdeal.Hand

open Idealize.ShloMosaic

section Ops
variable {s t : Shape} {φ : FTy}

theorem isReal_addf {x y : FVec Ideal s φ} (hx : Alg.IsReal x) (hy : Alg.IsReal y) : Alg.IsReal (addf x y) :=
  fun i => Alg.RealVal.add (hx i) (hy i)

theorem isReal_mulf {x y : FVec Ideal s φ} (hx : Alg.IsReal x) (hy : Alg.IsReal y) : Alg.IsReal (mulf x y) :=
  fun i => Alg.RealVal.mul (hx i) (hy i)

theorem isReal_maximumf {x y : FVec Ideal s φ} (hx : Alg.IsReal x) (hy : Alg.IsReal y) : Alg.IsReal (maximumf x y) :=
  fun i => Alg.RealVal.max (hx i) (hy i)

theorem isReal_hostExp {x : FVec Ideal s φ} (hx : Alg.IsReal x) : Alg.IsReal (Host.exp x) :=
  fun i => Alg.RealVal.exp (hx i)

theorem isReal_hostDivf {x y : FVec Ideal s φ} (hx : Alg.IsReal x) (hy : Alg.IsReal y) (h0 : ∀ i, y i ≠ 0) :
    Alg.IsReal (Host.divf x y) :=
  fun i => Alg.RealVal.div (hx i) (hy i) (h0 i)

theorem isReal_constant_zero : Alg.IsReal (constant (F := Ideal) s .f32 0x00000000#32) := by
  intro i
  show Alg.RealVal (Ideal.ofBits .f32 0x00000000#32)
  rw [Ideal.ofBits_zero_f32]
  exact Alg.RealVal.zero

theorem isReal_broadcastInDim {dims : Fin s.rank → Fin t.rank} {h : s.BroadcastsInDim t dims} {x : s.Idx → EReal}
    (hx : Alg.IsReal x) : Alg.IsReal (broadcastInDim t dims h x) :=
  fun _ => hx _

theorem isReal_transpose {perm : List (Fin s.rank)} {x : s.Idx → EReal} {h : s.Transposes perm t}
    (hx : Alg.IsReal x) : Alg.IsReal (transpose t perm x h) :=
  fun _ => hx _

theorem isReal_shapeCast {x : s.Idx → EReal} {h : s.ShapeCasts t} (hx : Alg.IsReal x) : Alg.IsReal (shapeCast t x h) :=
  fun _ => hx _

theorem isReal_concatenate {a : Fin t.rank} {xs : List ((s : Shape) × (s.Idx → EReal))}
    {h : Shape.Concatenates (xs.map (·.1)) t a} (hx : ∀ p ∈ xs, Alg.IsReal p.2) : Alg.IsReal (concatenate t a xs h) := by
  intro j
  unfold concatenate
  exact hx _ (List.getElem_mem _) _

theorem isReal_dotGeneral {sl sr so : Shape} {φ₁ φ₂ : FTy} {d : DotDims sl sr so} {prec : Option ContractPrecision}
    {l : FVec Ideal sl φ₁} {r : FVec Ideal sr φ₂} (hl : Alg.IsReal l) (hr : Alg.IsReal r) :
    Alg.IsReal (Host.dotGeneral d prec l r) := by
  intro j
  show Alg.RealVal (FloatOps.dotGeneral d prec .single l r j)
  rw [Ideal.dotGeneral_apply]
  exact Alg.RealVal.sum_mul (fun k _ => hl _) (fun k _ => hr _)

end Ops

section Exports
variable [Cert.Pre_finite_inputs.Facts] [Cert.ReferenceIdeal.Facts]
open Cert.ReferenceIdeal.Hand
variable {a0 : FVec Ideal Cert.Pre_finite_inputs.S8192x1024 .f32} {a1 a2 : IVec Cert.Pre_finite_inputs.S16384 32}
  {a3 : FVec Ideal Cert.Pre_finite_inputs.S8192x1024 .f32}
  {a4 : FVec Ideal Cert.Pre_finite_inputs.S1024 .f32}
  {a5 : FVec Ideal Cert.Pre_finite_inputs.S1024x32 .f32}
  {a6 : FVec Ideal Cert.Pre_finite_inputs.S16384x32 .f32}
  {a7 : FVec Ideal Cert.Pre_finite_inputs.S2048x1024 .f32}
  {a8 : FVec Ideal Cert.Pre_finite_inputs.S1024 .f32}
  {a9 : FVec Ideal Cert.Pre_finite_inputs.S1024x1 .f32}
  {a10 : FVec Ideal Cert.Pre_finite_inputs.S1 .f32}
  {a11 : FVec Ideal Cert.Pre_finite_inputs.S1024x1024 .f32}
  {a12 : FVec Ideal Cert.Pre_finite_inputs.S1024 .f32}
  {a13 : FVec Ideal Cert.Pre_finite_inputs.S1024x1024 .f32}
  {a14 : FVec Ideal Cert.Pre_finite_inputs.S1024 .f32}
  {a15 : FVec Ideal Cert.Pre_finite_inputs.S1024x1024 .f32}
  {a16 : FVec Ideal Cert.Pre_finite_inputs.S1024 .f32}
  {a17 : FVec Ideal Cert.Pre_finite_inputs.S1024x1 .f32}
  {a18 : FVec Ideal Cert.Pre_finite_inputs.S1 .f32}
  {a19 : FVec Ideal Cert.Pre_finite_inputs.S1024x1024 .f32}
  {a20 : FVec Ideal Cert.Pre_finite_inputs.S1024 .f32}
  {a21 : FVec Ideal Cert.Pre_finite_inputs.S1024x1024 .f32}
  {a22 : FVec Ideal Cert.Pre_finite_inputs.S1024 .f32}
  {a23 : FVec Ideal Cert.Pre_finite_inputs.S3072x1024 .f32}
  {a24 : FVec Ideal Cert.Pre_finite_inputs.S1024 .f32}
  {a25 : FVec Ideal Cert.Pre_finite_inputs.S1024x1 .f32}
  {a26 : FVec Ideal Cert.Pre_finite_inputs.S1 .f32} (H : PreFacts a0 a1 a2 a3 a4 a5 a6 a7 a8 a9 a10 a11 a12 a13 a14 a15 a16 a17 a18 a19 a20 a21 a22 a23 a24 a25 a26)
include H

/-- Sums, products, maxima, exponentials, quotients by a non-zero real, and contractions of real arrays are real. -/
theorem cluster_in_real : Alg.IsReal (clusterInR (F := Ideal) a0 a3 a4 a7 a8 a9 a10) := by
  have hg : Alg.IsReal (geOf (F := Ideal) (hiddenR (F := Ideal) a0 a3 a4 a7 a8) a9 a10) := by
    unfold geOf hiddenR tileMeansR allMeansR
    exact isReal_hostExp (isReal_addf (isReal_dotGeneral (isReal_maximumf (isReal_addf (isReal_dotGeneral
      (isReal_concatenate (List.forall_mem_cons.2 ⟨H.images, List.forall_mem_singleton.2 (isReal_dotGeneral H.p_mat (isReal_mulf
        (isReal_dotGeneral (isReal_transpose H.p_mat) H.images) (isReal_broadcastInDim (isReal_shapeCast H.r_mat))))⟩)) H.Wg1) (isReal_broadcastInDim (isReal_broadcastInDim H.bg1))) (isReal_broadcastInDim isReal_constant_zero)) H.Wg2) (isReal_broadcastInDim (isReal_broadcastInDim H.bg2)))
  unfold clusterInR
  refine isReal_dotGeneral (isReal_transpose H.p_mat) (isReal_mulf H.images (isReal_broadcastInDim ?_))
  unfold gateOf
  refine isReal_hostDivf hg ?_ H.denom1
  unfold denom1Of
  exact isReal_dotGeneral H.p_mat (isReal_dotGeneral (isReal_transpose H.p_mat) hg)

theorem cluster_out_real : Alg.IsReal (clusterOutOf (F := Ideal) (clusterInR (F := Ideal) a0 a3 a4 a7 a8 a9 a10) a11 a12 a13 a14) := by
  unfold clusterOutOf
  exact isReal_addf (isReal_dotGeneral (isReal_maximumf (isReal_addf (isReal_dotGeneral (cluster_in_real H) H.Wc1) (isReal_broadcastInDim (isReal_broadcastInDim H.bc1))) (isReal_broadcastInDim isReal_constant_zero)) H.Wc2) (isReal_broadcastInDim (isReal_broadcastInDim H.bc2))

theorem state_real :
    Alg.IsReal (stateOf (F := Ideal) (clusterOutOf (F := Ideal) (clusterInR (F := Ideal) a0 a3 a4 a7 a8 a9 a10) a11 a12 a13 a14) a5 a15 a16 a17 a18 a19 a20 a21 a22) := by
  have hc := cluster_out_real H
  have hg : Alg.IsReal (sgeOf (F := Ideal) (clusterOutOf (F := Ideal) (clusterInR (F := Ideal) a0 a3 a4 a7 a8 a9 a10) a11 a12 a13 a14) a15 a16 a17 a18) := by
    unfold sgeOf
    exact isReal_hostExp (isReal_addf (isReal_dotGeneral (isReal_maximumf (isReal_addf (isReal_dotGeneral hc H.Wgs1) (isReal_broadcastInDim (isReal_broadcastInDim H.bgs1))) (isReal_broadcastInDim isReal_constant_zero)) H.Wgs2) (isReal_broadcastInDim (isReal_broadcastInDim H.bgs2)))
  unfold stateOf
  refine isReal_addf (isReal_dotGeneral (isReal_maximumf (isReal_addf (isReal_dotGeneral ?_ H.Ws1) (isReal_broadcastInDim (isReal_broadcastInDim H.bs1))) (isReal_broadcastInDim isReal_constant_zero)) H.Ws2) (isReal_broadcastInDim (isReal_broadcastInDim H.bs2))
  unfold pooledOf
  refine isReal_dotGeneral (isReal_transpose H.c_mat) (isReal_mulf hc (isReal_broadcastInDim ?_))
  unfold sgateOf
  refine isReal_hostDivf hg ?_ H.denom2
  unfold denom2Of
  exact isReal_dotGeneral H.c_mat (isReal_dotGeneral (isReal_transpose H.c_mat) hg)

end Exports

end Cert.KernelIdeal.Hand

end
-- ==== Proof.KI.Pieces.lean ====
import proofs.«418604_j2156073583116_1_alg».proof.Proof.KI.ValsDefs
import proofs.«418604_j2156073583116_1_alg».proof.Proof.KI.RefChain
import proofs.«418604_j2156073583116_1_alg».proof.Proof.KI.RefAction
import proofs.«418604_j2156073583116_1_alg».proof.Proof.KI.Alg
import Idealize.ShloMosaic.PureOps.Ideal.Laws
import Idealize.ShloMosaic.Lib.ValueIdx
import Idealize.ShloMosaic.Lib.ValueLayout
import Idealize.ShloMosaic.Lib.Pipeline.Value
import Idealize.ShloMosaic.Lib.KernelVsHost

set_option maxRecDepth 16384

noncomputable section

open scoped BigOperators

namespace Cert.ReferenceIdeal.Hand

open Idealize.ShloMosaic Idealize.SL.Sem Idealize.ShloMosaic.ValueIdx
open Cert.KernelIdeal.Hand

abbrev Arr (s : Shape) : Type := (⟨s, .f32⟩ : BufTy).Contents (Elt Ideal)

section Layout
variable {α : Type}

theorem bcast_col_apply {m n : ℕ} (h : (⟨2, ![m, 1]⟩ : Shape).BroadcastsInDim ⟨2, ![m, n]⟩ ![0, 1])
    (c : (⟨2, ![m, 1]⟩ : Shape).Idx → α) (a : Fin m) (b : Fin n) :
    broadcastInDim ⟨2, ![m, n]⟩ ![0, 1] h c (ix2 a b) = c (ix2 a (0 : Fin 1)) := by
  refine broadcastInDim_apply ![0, 1] h c (ix2 a b) (ix2 a (0 : Fin 1)) ?_
  intro x
  fin_cases x
  · show a.val = if m = 1 then 0 else a.val
    split_ifs with hm
    · have := a.isLt; omega
    · rfl
  · show (0 : ℕ) = if (1 : ℕ) = 1 then 0 else _
    simp

theorem bcast_vec_row_apply {n : ℕ} (h : (⟨1, ![n]⟩ : Shape).BroadcastsInDim ⟨2, ![1, n]⟩ ![1])
    (x : (⟨1, ![n]⟩ : Shape).Idx → α) (u : Fin 1) (b : Fin n) :
    broadcastInDim ⟨2, ![1, n]⟩ ![1] h x (ix2 u b) = x (ix1 b) := by
  refine broadcastInDim_apply ![1] h x (ix2 u b) (ix1 b) ?_
  intro y
  fin_cases y
  show b.val = if n = 1 then 0 else b.val
  split_ifs with hn
  · have := b.isLt; omega
  · rfl

theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Layout

variable [Facts]
open Facts₀ Facts

theorem zero_bcast_apply (i : S8192x1024.Idx) :
    broadcastInDim (α := Ideal .f32) S8192x1024 ![] bcast_S_S8192x1024 (constant (F := Ideal) S_ .f32 0x00000000#32) i = (0 : EReal) := by
  rw [broadcastInDim_apply ![] bcast_S_S8192x1024 _ i ix0 (fun a => a.elim0)]
  exact Ideal.ofBits_zero_f32

theorem allMeansR_apply (images p : Arr S8192x1024) (r : Arr S1024) (k d : Fin 1024) :
    allMeansR (F := Ideal) images p r (ix2 k d) = (∑ n : Fin 8192, p (ix2 n k) * images (ix2 n d)) * r (ix1 k) := by
  unfold allMeansR
  rw [mulf_apply, dot2_apply _ rfl rfl rfl rfl rfl rfl, bcast_col_apply, shapeCast_a_a1_apply]
  congr 1
  refine Finset.sum_congr rfl fun n _ => ?_
  rw [transpose_ix2_apply]

theorem tileMeans_raw_apply (p : Arr S8192x1024) (X : Arr S1024x1024) (n : Fin 8192) (d : Fin 1024) :
    Host.dotGeneral (F := Ideal) (φ₁ := .f32) (φ₂ := .f32) dot_S8192x1024_S1024x1024_S8192x1024_1_0_0_1_n_n none p X (ix2 n d)
      = ∑ k : Fin 1024, p (ix2 n k) * X (ix2 k d) :=
  dot2_apply _ rfl rfl rfl rfl rfl rfl p X n d

theorem hidden_raw_apply (images tm : Arr S8192x1024) (Wg1 : Arr S2048x1024) (bg1 : Arr S1024) (n : Fin 8192) (h : Fin 1024) :
    maximumf (F := Ideal) (addf (Host.dotGeneral (F := Ideal) (φ₁ := .f32) (φ₂ := .f32) dot_S8192x2048_S2048x1024_S8192x1024_1_0_0_1_n_n none
          (concatenate S8192x2048 1 [⟨S8192x1024, images⟩, ⟨S8192x1024, tm⟩] concatenates_S8192x1024_S8192x1024_S8192x2048_d1) Wg1)
        (broadcastInDim S8192x1024 ![0, 1] bcast_S1x1024_S8192x1024_0_1 (broadcastInDim S1x1024 ![1] bcast_S1024_S1x1024_1 bg1)))
      (broadcastInDim S8192x1024 ![] bcast_S_S8192x1024 (constant S_ .f32 0x00000000#32)) (ix2 n h)
    = max (((∑ k : Fin 1024, images (ix2 n k) * Wg1 (ix2 ⟨k.val, by omega⟩ h))
        + ∑ k : Fin 1024, tm (ix2 n k) * Wg1 (ix2 ⟨1024 + k.val, by omega⟩ h)) + bg1 (ix1 h)) 0 := by
  rw [maximumf_apply, addf_apply, zero_bcast_apply, dot2_apply _ rfl rfl rfl rfl rfl rfl,
    broadcastInDim_oneRow_apply, bcast_vec_row_apply]
  refine (Alg.E2
    (fun k => concatenate S8192x2048 1 [⟨S8192x1024, images⟩, ⟨S8192x1024, tm⟩] concatenates_S8192x1024_S8192x1024_S8192x2048_d1 (ix2 n k))
    (fun k => Wg1 (ix2 k h)) (fun k => images (ix2 n k)) (fun k => tm (ix2 n k))
    (fun k => Wg1 (ix2 ⟨k.val, by omega⟩ h)) (fun k => Wg1 (ix2 ⟨1024 + k.val, by omega⟩ h)) (bg1 (ix1 h))
    ?_ ?_ (fun _ => rfl) (fun _ => rfl)).symm
  · intro k
    refine concatenate_pair_apply_left (t := S8192x2048) (s₁ := S8192x1024) (s₂ := S8192x1024) 1 images tm
      concatenates_S8192x1024_S8192x1024_S8192x2048_d1 (ix2 n ⟨k.val, by omega⟩) rfl (ix2 n k) ?_
    intro b; fin_cases b <;> rfl
  · intro k
    refine concatenate_pair_apply_right (t := S8192x2048) (s₁ := S8192x1024) (s₂ := S8192x1024) 1 images tm
      concatenates_S8192x1024_S8192x1024_S8192x2048_d1 (ix2 n ⟨1024 + k.val, by omega⟩) rfl rfl (ix2 n k) ?_ ?_
    · intro b hb; fin_cases b
      · rfl
      · exact absurd rfl hb
    · show k.val + 1024 = 1024 + k.val
      omega

theorem clusterIn_raw_apply (images p : Arr S8192x1024) (gate : Arr S8192x1) (k d : Fin 1024) :
    Host.dotGeneral (F := Ideal) (φ₁ := .f32) (φ₂ := .f32) dot_S1024x8192_S8192x1024_S1024x1024_1_0_0_1_n_n none
        (transpose S1024x8192 [1, 0] p transposes_S8192x1024_S1024x8192_1_0)
        (mulf (F := Ideal) images (broadcastInDim S8192x1024 ![0, 1] bcast_S8192x1_S8192x1024_0_1 gate)) (ix2 k d)
      = ∑ n : Fin 8192, p (ix2 n k) * (images (ix2 n d) * gate (ix2 n (0 : Fin 1))) := by
  rw [dot2_apply _ rfl rfl rfl rfl rfl rfl]
  refine Finset.sum_congr rfl fun n _ => ?_
  rw [transpose_ix2_apply, mulf_apply, bcast_col_apply]

open Cert.KernelIdeal.Hand (allMeansK tileMeansK hiddenK clusterInK actionRepK)

theorem allMeans_piece (images p : Arr S8192x1024) (r : Arr S1024)
    (pK imgK : S8192x1024.Idx → EReal) (rK : S1024x1.Idx → EReal)
    (hp : ∀ i, pK i = p i) (himg : ∀ i, imgK i = images i) (hr : ∀ k : Fin 1024, rK (ix2 k (0 : Fin 1)) = r (ix1 k)) :
    allMeansK pK imgK rK = allMeansR (F := Ideal) images p r := by
  funext i
  obtain ⟨a, b, rfl⟩ : ∃ (a : Fin 1024) (b : Fin 1024), i = ix2 a b := ⟨i 0, i 1, eq_ix2 i⟩
  rw [allMeansR_apply]
  show (∑ n : Fin 8192, pK (ix2 n a) * imgK (ix2 n b)) * rK (ix2 a (0 : Fin 1)) = _
  simp only [hp, himg, hr]

theorem tileMeans_piece (p : Arr S8192x1024) (X : Arr S1024x1024)
    (pK : S8192x1024.Idx → EReal) (XK : S1024x1024.Idx → EReal) (hp : ∀ i, pK i = p i) (hX : ∀ i, XK i = X i) :
    tileMeansK pK XK
      = Host.dotGeneral (F := Ideal) (φ₁ := .f32) (φ₂ := .f32) dot_S8192x1024_S1024x1024_S8192x1024_1_0_0_1_n_n none p X := by
  funext i
  obtain ⟨a, b, rfl⟩ : ∃ (a : Fin 8192) (b : Fin 1024), i = ix2 a b := ⟨i 0, i 1, eq_ix2 i⟩
  rw [tileMeans_raw_apply]
  show (∑ k : Fin 1024, pK (ix2 a k) * XK (ix2 k b)) = _
  simp only [hp, hX]

theorem hidden_piece (images tm : Arr S8192x1024) (Wg1 : Arr S2048x1024) (bg1 : Arr S1024)
    (imgK tmK : S8192x1024.Idx → EReal) (wa wb : S1024x1024.Idx → EReal) (bK : S1x1024.Idx → EReal)
    (himg : ∀ i, imgK i = images i) (htm : ∀ i, tmK i = tm i)
    (hwa : ∀ k h : Fin 1024, wa (ix2 k h) = Wg1 (ix2 ⟨k.val, by omega⟩ h))
    (hwb : ∀ k h : Fin 1024, wb (ix2 k h) = Wg1 (ix2 ⟨1024 + k.val, by omega⟩ h))
    (hb : ∀ h : Fin 1024, bK (ix2 (0 : Fin 1) h) = bg1 (ix1 h)) :
    hiddenK imgK tmK wa wb bK
      = maximumf (F := Ideal) (addf (Host.dotGeneral (F := Ideal) (φ₁ := .f32) (φ₂ := .f32) dot_S8192x2048_S2048x1024_S8192x1024_1_0_0_1_n_n none
            (concatenate S8192x2048 1 [⟨S8192x1024, images⟩, ⟨S8192x1024, tm⟩] concatenates_S8192x1024_S8192x1024_S8192x2048_d1) Wg1)
          (broadcastInDim S8192x1024 ![0, 1] bcast_S1x1024_S8192x1024_0_1 (broadcastInDim S1x1024 ![1] bcast_S1024_S1x1024_1 bg1)))
        (broadcastInDim S8192x1024 ![] bcast_S_S8192x1024 (constant S_ .f32 0x00000000#32)) := by
  funext i
  obtain ⟨a, b, rfl⟩ : ∃ (a : Fin 8192) (b : Fin 1024), i = ix2 a b := ⟨i 0, i 1, eq_ix2 i⟩
  rw [hidden_raw_apply]
  show max (((∑ k : Fin 1024, imgK (ix2 a k) * wa (ix2 k b)) + ∑ k : Fin 1024, tmK (ix2 a k) * wb (ix2 k b))
    + bK (ix2 (0 : Fin 1) b)) 0 = _
  simp only [himg, htm, hwa, hwb, hb]

theorem clusterIn_piece (images p : Arr S8192x1024) (gate : Arr S8192x1)
    (pK imgK : S8192x1024.Idx → EReal) (gateK : S8192x1.Idx → EReal)
    (hp : ∀ i, pK i = p i) (himg : ∀ i, imgK i = images i) (hg : ∀ i, gateK i = gate i) :
    clusterInK pK imgK gateK
      = Host.dotGeneral (F := Ideal) (φ₁ := .f32) (φ₂ := .f32) dot_S1024x8192_S8192x1024_S1024x1024_1_0_0_1_n_n none
          (transpose S1024x8192 [1, 0] p transposes_S8192x1024_S1024x8192_1_0)
          (mulf (F := Ideal) images (broadcastInDim S8192x1024 ![0, 1] bcast_S8192x1_S8192x1024_0_1 gate)) := by
  funext i
  obtain ⟨a, b, rfl⟩ : ∃ (a : Fin 1024) (b : Fin 1024), i = ix2 a b := ⟨i 0, i 1, eq_ix2 i⟩
  rw [clusterIn_raw_apply]
  show (∑ n : Fin 8192, pK (ix2 n a) * (imgK (ix2 n b) * gateK (ix2 n (0 : Fin 1)))) = _
  simp only [hp, himg, hg]

theorem word_eq_ofNat_iff (s : BitVec 32) (h0 : 0 ≤ s.toInt) (h1 : s.toInt < 1024) (j : Fin 1024) :
    s = BitVec.ofNat 32 j.val ↔ j.val = s.toInt.toNat := by
  have hlt := s.isLt
  have hnat : s.toInt = (s.toNat : ℤ) := by
    rw [BitVec.toInt_eq_toNat_cond] at h0 ⊢
    split_ifs at h0 ⊢ with hc
    · rfl
    · omega
  have hj := j.isLt
  constructor
  · intro h
    have : s.toNat = j.val := by rw [h, BitVec.toNat_ofNat]; omega
    omega
  · intro h
    apply BitVec.eq_of_toNat_eq
    rw [BitVec.toNat_ofNat]
    omega

theorem actionRep_entry (am : Fin 32 → EReal) (st : Fin 32 → Fin 1024 → EReal) (co : Fin 1024 → Fin 1024 → EReal)
    (W pairs : Fin 3072 → EReal) (b : EReal) (wi wj : BitVec 32) (si sj : Fin 1024)
    (sw0 : Fin 32 → EReal) (cw1 cw2 : Fin 1024 → EReal)
    (ham : Alg.IsReal am) (hst : ∀ e, Alg.IsReal (st e)) (hW : Alg.IsReal W)
    (hi0 : 0 ≤ wi.toInt) (hi1 : wi.toInt < 1024) (hj0 : 0 ≤ wj.toInt) (hj1 : wj.toInt < 1024)
    (hsi : si.val = wi.toInt.toNat) (hsj : sj.val = wj.toInt.toNat)
    (hsw0 : ∀ e, sw0 e = ∑ k : Fin 1024, st e k * W ⟨k.val, by omega⟩)
    (hcw1 : ∀ j, cw1 j = ∑ k : Fin 1024, co j k * W ⟨1024 + k.val, by omega⟩)
    (hcw2 : ∀ j, cw2 j = ∑ k : Fin 1024, co j k * W ⟨2048 + k.val, by omega⟩)
    (hp0 : ∀ k : Fin 1024, pairs ⟨k.val, by omega⟩ = ∑ e, am e * st e k)
    (hp1 : ∀ k : Fin 1024, pairs ⟨1024 + k.val, by omega⟩ = co si k)
    (hp2 : ∀ k : Fin 1024, pairs ⟨2048 + k.val, by omega⟩ = co sj k) :
    (((∑ e, am e * sw0 e) + ∑ j : Fin 1024, (if wi = BitVec.ofNat 32 j.val then (1 : EReal) else 0) * cw1 j)
        + ∑ j : Fin 1024, (if wj = BitVec.ofNat 32 j.val then (1 : EReal) else 0) * cw2 j) + b
      = (∑ k, pairs k * W k) + b := by
  have ohi : ∀ j : Fin 1024, (if wi = BitVec.ofNat 32 j.val then (1 : EReal) else 0) = if j = si then 1 else 0 := fun j =>
    if_congr ((word_eq_ofNat_iff wi hi0 hi1 j).trans ⟨fun h => Fin.ext (h.trans hsi.symm), fun h => h ▸ hsi⟩) rfl rfl
  have ohj : ∀ j : Fin 1024, (if wj = BitVec.ofNat 32 j.val then (1 : EReal) else 0) = if j = sj then 1 else 0 := fun j =>
    if_congr ((word_eq_ofNat_iff wj hj0 hj1 j).trans ⟨fun h => Fin.ext (h.trans hsj.symm), fun h => h ▸ hsj⟩) rfl rfl
  simp only [hsw0, hcw1, hcw2]
  exact Alg.E4 am st co W pairs (fun k => W ⟨k.val, by omega⟩) (fun k => W ⟨1024 + k.val, by omega⟩) (fun k => W ⟨2048 + k.val, by omega⟩)
    _ _ b si sj ham hst (hW.comp _) (fun _ => rfl) (fun _ => rfl) (fun _ => rfl) ohi ohj hp0 hp1 hp2

theorem actionRep_piece (a_mat : Arr S16384x32) (state : Arr S32x1024) (co : Arr S1024x1024)
    (select_i select_j : (⟨S16384, .i32⟩ : BufTy).Contents (Elt Ideal)) (Wa1 : Arr S3072x1024) (ba1 : Arr S1024)
    (seliK seljK : S16384x1.Idx → BitVec 32) (amK : S16384x32.Idx → EReal) (sw0 : S32x1024.Idx → EReal)
    (cw1 cw2 : S1024x1024.Idx → EReal) (bK : S1x1024.Idx → EReal)
    (ham : Alg.IsReal a_mat) (hst : Alg.IsReal state) (hW : Alg.IsReal Wa1)
    (hsi : ∀ a, 0 ≤ (select_i a).toInt ∧ (select_i a).toInt < 1024)
    (hsj : ∀ a, 0 ≤ (select_j a).toInt ∧ (select_j a).toInt < 1024)
    (hseli : ∀ a : Fin 16384, seliK (ix2 a (0 : Fin 1)) = select_i (ix1 a))
    (hselj : ∀ a : Fin 16384, seljK (ix2 a (0 : Fin 1)) = select_j (ix1 a))
    (hamK : ∀ i, amK i = a_mat i)
    (hsw0 : ∀ (e : Fin 32) (h : Fin 1024), sw0 (ix2 e h) = ∑ k : Fin 1024, state (ix2 e k) * Wa1 (ix2 ⟨k.val, by omega⟩ h))
    (hcw1 : ∀ j h : Fin 1024, cw1 (ix2 j h) = ∑ k : Fin 1024, co (ix2 j k) * Wa1 (ix2 ⟨1024 + k.val, by omega⟩ h))
    (hcw2 : ∀ j h : Fin 1024, cw2 (ix2 j h) = ∑ k : Fin 1024, co (ix2 j k) * Wa1 (ix2 ⟨2048 + k.val, by omega⟩ h))
    (hb : ∀ h : Fin 1024, bK (ix2 (0 : Fin 1) h) = ba1 (ix1 h)) :
    actionRepK seliK seljK amK sw0 cw1 cw2 bK = actionRepR (F := Ideal) a_mat state co select_i select_j Wa1 ba1 := by
  funext i
  obtain ⟨a, h, rfl⟩ : ∃ (a : Fin 16384) (h : Fin 1024), i = ix2 a h := ⟨i 0, i 1, eq_ix2 i⟩
  rw [actionRepR_apply]
  show (((∑ e : Fin 32, amK (ix2 a e) * sw0 (ix2 e h))
      + ∑ j : Fin 1024, (if seliK (ix2 a (0 : Fin 1)) = BitVec.ofNat 32 j.val then (1 : EReal) else 0) * cw1 (ix2 j h))
      + ∑ j : Fin 1024, (if seljK (ix2 a (0 : Fin 1)) = BitVec.ofNat 32 j.val then (1 : EReal) else 0) * cw2 (ix2 j h))
    + bK (ix2 (0 : Fin 1) h) = _
  rw [hb, hseli, hselj]
  simp only [hamK]
  exact actionRep_entry (fun e => a_mat (ix2 a e)) (fun e k => state (ix2 e k)) (fun j k => co (ix2 j k))
    (fun k => Wa1 (ix2 k h)) (fun k => pairsOf (F := Ideal) a_mat state co select_i select_j (ix2 a k)) (ba1 (ix1 h))
    (select_i (ix1 a)) (select_j (ix1 a)) (rowSel select_i a) (rowSel select_j a)
    (fun e => sw0 (ix2 e h)) (fun j => cw1 (ix2 j h)) (fun j => cw2 (ix2 j h))
    (ham.comp _) (fun e => hst.comp _) (hW.comp _)
    (hsi _).1 (hsi _).2 (hsj _).1 (hsj _).2
    (rowSel_of_range select_i a (hsi _).1 (hsi _).2) (rowSel_of_range select_j a (hsj _).1 (hsj _).2)
    (fun e => hsw0 e h) (fun j => hcw1 j h) (fun j => hcw2 j h)
    (pairsOf_block0 a_mat state co select_i select_j a) (pairsOf_block1 a_mat state co select_i select_j a)
    (pairsOf_block2 a_mat state co select_i select_j a)

section Kit
variable {α : Type}

theorem rows0_apply {n0 n1 m : ℕ} (X : (⟨2, ![n0, n1]⟩ : Shape).Idx → α)
    (h : (⟨2, ![n0, n1]⟩ : Shape).Slices ![0, 0] ⟨2, ![m, n1]⟩) (j : Fin m) (e : Fin n1) :
    extractStridedSlice ⟨2, ![m, n1]⟩ ![0, 0] X h (ix2 j e)
      = X (ix2 ⟨j.val, Nat.lt_of_lt_of_le j.isLt (by have := h.2 0; simpa using this)⟩ e) :=
  slice2_axis0_apply 0 X h j e _ (Nat.zero_add _).symm

end Kit

theorem dot_rows_apply {M K N R : ℕ} (D : DotDims ⟨2, ![M, K]⟩ ⟨2, ![K, N]⟩ ⟨2, ![M, N]⟩)
    (hlc : D.lhsContracting = [1]) (hrc : D.rhsContracting = [0]) (hln : D.lhsNonContracting = [0]) (hrn : D.rhsNonContracting = [1])
    (hlb : D.lhsBatch = []) (hrb : D.rhsBatch = [])
    (o : ℕ) (X : Arr ⟨2, ![M, K]⟩) (W : Arr ⟨2, ![R, N]⟩) (h : (⟨2, ![R, N]⟩ : Shape).Slices ![o, 0] ⟨2, ![K, N]⟩)
    (a : Fin M) (b : Fin N) :
    Host.dotGeneral (F := Ideal) (φ₁ := .f32) (φ₂ := .f32) D none X (extractStridedSlice ⟨2, ![K, N]⟩ ![o, 0] W h) (ix2 a b)
      = ∑ k : Fin K, X (ix2 a k) * W (ix2 ⟨o + k.val, Nat.lt_of_lt_of_le (Nat.add_lt_add_left k.isLt o) (h.2 0)⟩ b) := by
  rw [dot2_apply D hlc hrc hln hrn hlb hrb]
  refine Finset.sum_congr rfl fun k _ => ?_
  rw [slice2_axis0_eq]

end Cert.ReferenceIdeal.Hand

end
-- ==== Proof.KI.Bridge.lean ====
import proofs.«418604_j2156073583116_1_alg».proof.Defs
import proofs.«418604_j2156073583116_1_alg».proof.Proof.KI.Vals
import proofs.«418604_j2156073583116_1_alg».proof.Proof.KI.Finite
import proofs.«418604_j2156073583116_1_alg».proof.Proof.KI.Pieces
import proofs.«418604_j2156073583116_1_alg».proof.Proof.KI.Ref
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal
open Cert.KernelIdeal.Facts₀ Cert.KernelIdeal.Facts
open Cert.ReferenceIdeal.Hand
open Idealize.ShloMosaic Idealize.ShloMosaic.TcCoe Idealize.SL.Sem Idealize.ShloMosaic.ValueIdx
open scoped BigOperators

/-- What the launch memory holds at `r`. -/
abbrev argA (m : (ℓ : Loc nD τ sig) → Buf (Elt Ideal) ℓ) (c : Dev nD) (r : Ref sig .tc) : Buf (Elt Ideal) ((c : Thread nD τ).loc r) := m ((c : Thread nD τ).loc r)

section Chain
variable (m : (ℓ : Loc nD τ sig) → Buf (Elt Ideal) ℓ) (ρ : Dev nD → PrngReg) (c : Dev nD)

/-- The reference's cluster-network output over the kernel's launch contents. -/
def refCo := clusterOutOf (F := Ideal) (clusterInR (F := Ideal) (argA m c main_arg0) (argA m c main_arg3) (argA m c main_arg4) (argA m c main_arg7) (argA m c main_arg8) (argA m c main_arg9) (argA m c main_arg10))
  (argA m c main_arg11) (argA m c main_arg12) (argA m c main_arg13) (argA m c main_arg14)
/-- The reference's episode state. -/
def refSt := stateOf (F := Ideal) (refCo m c) (argA m c main_arg5) (argA m c main_arg15) (argA m c main_arg16) (argA m c main_arg17) (argA m c main_arg18) (argA m c main_arg19) (argA m c main_arg20) (argA m c main_arg21) (argA m c main_arg22)
/-- The reference's action features. -/
def refAct := actionRepR (F := Ideal) (argA m c main_arg6) (refSt m c) (refCo m c) (argA m c main_arg1) (argA m c main_arg2) (argA m c main_arg23) (argA m c main_arg24)

theorem W1_v1 : W1 m ρ c (Proc.devRef .tc main_v1) = argA m c main_arg3 := pre0_v1 (W0 m ρ c)
theorem W1_v2 : W1 m ρ c (Proc.devRef .tc main_v2) = argA m c main_arg0 := pre0_v2 (W0 m ρ c)

theorem W2_v3 : W2 m ρ c (Proc.devRef .tc main_v3) = allMeansR (F := Ideal) (argA m c main_arg0) (argA m c main_arg3) (argA m c main_arg4) :=
  ((W2_arr m ρ c 3).trans (final0 (tcOf (W1 m ρ)) c)).trans <|
    allMeans_piece _ _ _ _ _ _ (congrFun (W1_v1 m ρ c)) (congrFun (W1_v2 m ρ c))
      fun k => (congrFun (pre0_v0 (W0 m ρ c)) _).trans (shapeCast_a_a1_apply _ _ k 0)

theorem W2_v1 : W2 m ρ c (Proc.devRef .tc main_v1) = argA m c main_arg3 :=
  (keep_of (dat0 _ c) (W2_arr m ρ c) (A_eq0 _ c) (W2_of_ne m ρ c) main_v1 (by decide)).trans (W1_v1 m ρ c)

theorem W3_v4 : W3 m ρ c (Proc.devRef .tc main_v4) = tileMeansR (F := Ideal) (argA m c main_arg0) (argA m c main_arg3) (argA m c main_arg4) :=
  ((W3_arr m ρ c 2).trans (final1 (tcOf (W2 m ρ)) c)).trans <|
    tileMeans_piece _ _ _ _ (congrFun (W2_v1 m ρ c)) (congrFun (W2_v3 m ρ c))

theorem W4_v2 : W4 m ρ c (Proc.devRef .tc main_v2) = argA m c main_arg0 :=
  (W4_of m ρ c main_v2 (by decide)).trans <| (keep_of (dat1 _ c) (W3_arr m ρ c) (A_eq1 _ c) (W3_of_ne m ρ c) main_v2 (by decide)).trans <|
    (keep_of (dat0 _ c) (W2_arr m ρ c) (A_eq0 _ c) (W2_of_ne m ρ c) main_v2 (by decide)).trans (W1_v2 m ρ c)

theorem W5_v10 : W5 m ρ c (Proc.devRef .tc main_v10) = hiddenR (F := Ideal) (argA m c main_arg0) (argA m c main_arg3) (argA m c main_arg4) (argA m c main_arg7) (argA m c main_arg8) :=
  ((W5_arr m ρ c 5).trans (final2 (tcOf (W4 m ρ)) c)).trans <|
    hidden_piece _ _ _ _ _ _ _ _ _ (congrFun (W4_v2 m ρ c)) (congrFun ((W4_of m ρ c main_v4 (by decide)).trans (W3_v4 m ρ c)))
      (fun k h => ((congrFun (pre2_v6 (W3 m ρ c)) _).trans (rows0_apply _ slices_S2048x1024_S1024x1024_0_0 k h)).trans (congrFun (W3_arg m ρ c main_arg7) _))
      (fun k h => ((congrFun (pre2_v8 (W3 m ρ c)) _).trans (slice2_axis0_eq 1024 _ slices_S2048x1024_S1024x1024_1024_0 k h)).trans (congrFun (W3_arg m ρ c main_arg7) _))
      fun h => ((congrFun (pre2_v9 (W3 m ρ c)) _).trans (shapeCast_a_1a_apply _ _ 0 h)).trans (congrFun (W3_arg m ρ c main_arg8) _)

theorem W6_v19 : W6 m ρ c (Proc.devRef .tc main_v19)
    = gateOf (F := Ideal) (hiddenR (F := Ideal) (argA m c main_arg0) (argA m c main_arg3) (argA m c main_arg4) (argA m c main_arg7) (argA m c main_arg8)) (argA m c main_arg3) (argA m c main_arg9) (argA m c main_arg10) :=
  (gate_v19 (W5 m ρ c)).trans (by rw [W5_v10, W5_arg m ρ c main_arg3, W5_arg m ρ c main_arg9, W5_arg m ρ c main_arg10])

theorem W6_v2 : W6 m ρ c (Proc.devRef .tc main_v2) = argA m c main_arg0 :=
  (W6_of m ρ c main_v2 (by decide)).trans <|
    (keep_of (dat2 _ c) (W5_arr m ρ c) (A_eq2 _ c) (W5_of_ne m ρ c) main_v2 (by decide)).trans (W4_v2 m ρ c)

theorem W6_v1 : W6 m ρ c (Proc.devRef .tc main_v1) = argA m c main_arg3 :=
  (W6_of m ρ c main_v1 (by decide)).trans <| (keep_of (dat2 _ c) (W5_arr m ρ c) (A_eq2 _ c) (W5_of_ne m ρ c) main_v1 (by decide)).trans <|
    (W4_of m ρ c main_v1 (by decide)).trans <|
      (keep_of (dat1 _ c) (W3_arr m ρ c) (A_eq1 _ c) (W3_of_ne m ρ c) main_v1 (by decide)).trans (W2_v1 m ρ c)

theorem W7_v20 : W7 m ρ c (Proc.devRef .tc main_v20)
    = clusterInR (F := Ideal) (argA m c main_arg0) (argA m c main_arg3) (argA m c main_arg4) (argA m c main_arg7) (argA m c main_arg8) (argA m c main_arg9) (argA m c main_arg10) :=
  ((W7_arr m ρ c 3).trans (final3 (tcOf (W6 m ρ)) c)).trans <|
    clusterIn_piece _ _ _ _ _ _ (congrFun (W6_v1 m ρ c)) (congrFun (W6_v2 m ρ c)) (congrFun (W6_v19 m ρ c))

theorem W7_co : coK (W7 m ρ c) = refCo m c := by
  unfold coK refCo
  rw [W7_v20, W7_arg m ρ c main_arg11, W7_arg m ρ c main_arg12, W7_arg m ρ c main_arg13, W7_arg m ρ c main_arg14]

theorem W7_st : stK (W7 m ρ c) = refSt m c := by
  unfold stK refSt
  rw [W7_co, W7_arg m ρ c main_arg5, W7_arg m ρ c main_arg15, W7_arg m ρ c main_arg16, W7_arg m ρ c main_arg17, W7_arg m ρ c main_arg18,
    W7_arg m ρ c main_arg19, W7_arg m ρ c main_arg20, W7_arg m ρ c main_arg21, W7_arg m ρ c main_arg22]

theorem W15_v70 (hpre : Cert.Pre_KernelIdeal m) : W15 m ρ c (Proc.devRef .tc main_v70) = refAct m c := by
  have H := pre_decode (hpre c)
  exact ((W15_arr m ρ c 7).trans (final4 (tcOf (W14 m ρ)) c)).trans <|
    actionRep_piece _ (refSt m c) (refCo m c) _ _ _ _ _ _ _ _ _ _ _ H.a_mat (state_real H) H.Wa1 H.select_i H.select_j
      (fun a => ((congrFun (mid_v63 (W7 m ρ c)) _).trans (shapeCast_a_a1_apply _ _ a 0)).trans (congrFun (W7_arg m ρ c main_arg1) _))
      (fun a => ((congrFun (mid_v64 (W7 m ρ c)) _).trans (shapeCast_a_a1_apply _ _ a 0)).trans (congrFun (W7_arg m ρ c main_arg2) _))
      (fun i => (congrFun (mid_v65 (W7 m ρ c)) i).trans (congrFun (W7_arg m ρ c main_arg6) i))
      (fun e h => (congrFun (mid_v66 (W7 m ρ c)) _).trans <|
        (Cert.ReferenceIdeal.Hand.dot2_apply dot_S32x1024_S1024x1024_S32x1024_1_0_0_1_n_n rfl rfl rfl rfl rfl rfl _ _ e h).trans
          (Finset.sum_congr rfl fun k _ => by rw [rows0_apply, W7_st, W7_arg m ρ c main_arg23]))
      (fun j h => ((congrFun (mid_v67 (W7 m ρ c)) _).trans
        (dot_rows_apply dot_S1024x1024_S1024x1024_S1024x1024_1_0_0_1_n_n rfl rfl rfl rfl rfl rfl 1024 _ _ slices_S3072x1024_S1024x1024_1024_0 j h)).trans
          (by rw [W7_co, W7_arg m ρ c main_arg23]))
      (fun j h => ((congrFun (mid_v68 (W7 m ρ c)) _).trans
        (dot_rows_apply dot_S1024x1024_S1024x1024_S1024x1024_1_0_0_1_n_n rfl rfl rfl rfl rfl rfl 2048 _ _ slices_S3072x1024_S1024x1024_2048_0 j h)).trans
          (by rw [W7_co, W7_arg m ρ c main_arg23]))
      fun h => ((congrFun (mid_v69 (W7 m ρ c)) _).trans (shapeCast_a_1a_apply _ _ 0 h)).trans (congrFun (W7_arg m ρ c main_arg24) _)

theorem kv70 (hpre : Cert.Pre_KernelIdeal m) : W17 m ρ c (Proc.devRef .tc main_v70) = refAct m c :=
  (W17_of m ρ c main_v70 (by decide)).trans ((W16_of m ρ c main_v70 (by decide)).trans (W15_v70 m ρ c hpre))

theorem kv81 (hpre : Cert.Pre_KernelIdeal m) : W17 m ρ c (Proc.devRef .tc main_v81)
    = qTableOf (F := Ideal) (refAct m c) (argA m c main_arg6) (argA m c main_arg25) (argA m c main_arg26) :=
  (tail_v81 (W15 m ρ c)).trans (by
    rw [W15_v70 m ρ c hpre, W15_arg m ρ c main_arg6, W15_arg m ρ c main_arg25, W15_arg m ρ c main_arg26])

theorem kv85 (hpre : Cert.Pre_KernelIdeal m) : W17 m ρ c (Proc.devRef .tc main_v85)
    = qExpandOf (F := Ideal) (refAct m c) (argA m c main_arg6) (argA m c main_arg25) (argA m c main_arg26) :=
  (tail_v85 (W15 m ρ c)).trans (by
    rw [W15_v70 m ρ c hpre, W15_arg m ρ c main_arg6, W15_arg m ρ c main_arg25, W15_arg m ρ c main_arg26])

end Chain

section Final
variable (m : (ℓ : Loc nD τ sig) → Buf (Elt Ideal) ℓ) (ρ : Dev nD → PrngReg)

/-- Both runs end with the same functions of the 27 arguments, the reference's read at the kernel's launch contents. -/
theorem bridge (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26))
    (c : Dev nD) :
    Cert.ReferenceIdeal.Value.res_main_v91 m' c = W17 m ρ c (Proc.devRef .tc main_v81)
    ∧ Cert.ReferenceIdeal.Value.res_main_v95 m' c = W17 m ρ c (Proc.devRef .tc main_v85)
    ∧ Cert.ReferenceIdeal.Value.res_main_v80 m' c = W17 m ρ c (Proc.devRef .tc main_v70) := by
  obtain ⟨h0, h1, h2, h3, h4, h5, h6, h7, h8, h9, h10, h11, h12, h13, h14, h15, h16, h17, h18, h19, h20, h21, h22, h23, h24, h25, h26⟩ := hagree c
  have hR : refActionRep (F := Ideal) m' c = refAct m c := by
    unfold refActionRep; rw [h0, h1, h2, h3, h4, h5, h6, h7, h8, h9, h10, h11, h12, h13, h14, h15, h16, h17, h18, h19, h20, h21, h22, h23, h24]; rfl
  refine ⟨(res_out0_eq (F := Ideal) m' c).trans ?_, (res_out1_eq (F := Ideal) m' c).trans ?_,
    (res_out2_eq (F := Ideal) m' c).trans (hR.trans (kv70 m ρ c hpre).symm)⟩
  · rw [hR, h6, h25, h26]; exact (kv81 m ρ c hpre).symm
  · rw [hR, h6, h25, h26]; exact (kv85 m ρ c hpre).symm

end Final

end Cert.KernelIdeal.Hand

end
-- ==== Proof.lean ====
import proofs.«418604_j2156073583116_1_alg».proof.Defs
import proofs.«418604_j2156073583116_1_alg».proof.Proof.Gen.Kernel
import proofs.«418604_j2156073583116_1_alg».proof.Proof.Gen.KernelIdeal
import proofs.«418604_j2156073583116_1_alg».proof.Proof.Gen.ReferenceIdeal
import proofs.«418604_j2156073583116_1_alg».proof.Proof.Gen.Pre_finite_inputs
import proofs.«418604_j2156073583116_1_alg».proof.Proof.K.Launch
import proofs.«418604_j2156073583116_1_alg».proof.Proof.KI.Launch
import proofs.«418604_j2156073583116_1_alg».proof.Proof.KI.Ref
import proofs.«418604_j2156073583116_1_alg».proof.Proof.KI.Bridge

noncomputable section

namespace Cert.Proof

open Idealize.ShloMosaic Idealize.SL.Sem

/-- @main runs item by item to the last boundary, and no item writes an argument array. -/
theorem frame_k : Cert.frame_Kernel := fun m ρ _ =>
  (θ_run (Cert.Kernel.defs) _ _).mono (fun r h c => by
    repeat' constructor
    all_goals exact Cert.Kernel.Hand.kept m ρ h c _) (Cert.Kernel.Hand.run_all m ρ)

theorem frame_ki : Cert.frame_KernelIdeal := fun m ρ _ =>
  (θ_run (Cert.KernelIdeal.defs) _ _).mono (fun r h c => by
    repeat' constructor
    all_goals exact Cert.KernelIdeal.Hand.kept m ρ h c _) (Cert.KernelIdeal.Hand.run_all m ρ)

/-- Both runs end at one function of the arguments: the two programs agree over the extended reals at every intermediate array. -/
theorem algebraic : Cert.algebraic_KernelIdeal_ReferenceIdeal := by
  intro m ρ m' ρ' hpre hagree
  refine ⟨fun c => Cert.KernelIdeal.Hand.W17 m ρ c (Proc.devRef .tc Cert.KernelIdeal.main_v81),
    fun c => Cert.KernelIdeal.Hand.W17 m ρ c (Proc.devRef .tc Cert.KernelIdeal.main_v85),
    fun c => Cert.KernelIdeal.Hand.W17 m ρ c (Proc.devRef .tc Cert.KernelIdeal.main_v70), ?_, ?_⟩
  · exact (θ_run (Cert.KernelIdeal.defs) _ _).mono (fun r h c => by
      refine ⟨h c Cert.KernelIdeal.main_v81 (by decide), h c Cert.KernelIdeal.main_v85 (by decide), h c Cert.KernelIdeal.main_v70 (by decide), ?_⟩
      repeat' constructor
      all_goals exact Cert.KernelIdeal.Hand.kept m ρ h c _) (Cert.KernelIdeal.Hand.run_all m ρ)
  · refine (θ_run (Cert.ReferenceIdeal.defs) _ _).mono (fun r h c => ?_) (Cert.ReferenceIdeal.Value.run (F := Ideal) m' ρ')
    obtain ⟨b0, b1, b2⟩ := Cert.KernelIdeal.Hand.bridge m ρ m' hpre hagree c
    exact ⟨(h c).1.trans b0, (h c).2.1.trans b1, (h c).2.2.1.trans b2, (h c).2.2.2⟩

theorem claim : Cert.Claim :=
  ⟨Cert.Kernel.Gen.facts, Cert.KernelIdeal.Gen.facts, Cert.ReferenceIdeal.Gen.facts, Cert.Pre_finite_inputs.Gen.facts,
    frame_k, frame_ki, Cert.ReferenceIdeal.Hand.frame_ri, trivial, algebraic⟩

end Cert.Proof

end
